-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S6144x784 : S_.BroadcastsInDim S6144x784 (![] : Fin 0 → Fin S6144x784.rank)
  reducesTo_S6144x784_S_d0_1 : S6144x784.ReducesTo [0, 1] S_
  bcast_S_S6144 : S_.BroadcastsInDim S6144 (![] : Fin 0 → Fin S6144.rank)
  reducesTo_S6144_S_d0 : S6144.ReducesTo [0] S_
  bcast_S_S6144x6144 : S_.BroadcastsInDim S6144x6144 (![] : Fin 0 → Fin S6144x6144.rank)
  reducesTo_S6144x6144_S_d0_1 : S6144x6144.ReducesTo [0, 1] S_
  bcast_S_S10x6144 : S_.BroadcastsInDim S10x6144 (![] : Fin 0 → Fin S10x6144.rank)
  reducesTo_S10x6144_S_d0_1 : S10x6144.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_v98 : IVec S_ 1) (main_v101 : IVec S6144 1) (main_c_39 : IVec S_ 1) : IVec S_ 1 :=
  let main_v102 : IVec S_ 1 := (fun x v => Host.reduce IntOp.andi x v reducesTo_S6144_S_d0 h_S_) main_v101 main_c_39
  let main_v103 : IVec S_ 1 := andi main_v98 main_v102
  main_v103

def fn_part5 {F : FTy → Type} [FloatOps F] (main_arg18 : FVec F S6144 .f32) (main_arg19 : FVec F S6144 .f32) (main_arg20 : FVec F S6144 .f32) (main_v83 : IVec S_ 1) (main_v84 : FVec F S6144 .f32) (main_cst_32 : FVec F S_ .f32) : IVec S_ 1 :=
  let main_v85 : FVec F S6144 .f32 := broadcastInDim S6144 ![] bcast_S_S6144 main_cst_32
  let main_v86 : IVec S6144 1 := cmpf .olt main_v84 main_v85
  let main_c_33 : IVec S_ 1 := constantI S_ 1 1#1
  let main_v87 : IVec S_ 1 := (fun x v => Host.reduce IntOp.andi x v reducesTo_S6144_S_d0 h_S_) main_v86 main_c_33
  let main_v88 : IVec S_ 1 := andi main_v83 main_v87
  let main_v89 : FVec F S6144 .f32 := Host.absf main_arg18
  let main_cst_34 : FVec F S_ .f32 := constant S_ .f32 0x7F800000#32
  let main_v90 : FVec F S6144 .f32 := broadcastInDim S6144 ![] bcast_S_S6144 main_cst_34
  let main_v91 : IVec S6144 1 := cmpf .olt main_v89 main_v90
  let main_c_35 : IVec S_ 1 := constantI S_ 1 1#1
  let main_v92 : IVec S_ 1 := (fun x v => Host.reduce IntOp.andi x v reducesTo_S6144_S_d0 h_S_) main_v91 main_c_35
  let main_v93 : IVec S_ 1 := andi main_v88 main_v92
  let main_v94 : FVec F S6144 .f32 := Host.absf main_arg19
  let main_cst_36 : FVec F S_ .f32 := constant S_ .f32 0x7F800000#32
  let main_v95 : FVec F S6144 .f32 := broadcastInDim S6144 ![] bcast_S_S6144 main_cst_36
  let main_v96 : IVec S6144 1 := cmpf .olt main_v94 main_v95
  let main_c_37 : IVec S_ 1 := constantI S_ 1 1#1
  let main_v97 : IVec S_ 1 := (fun x v => Host.reduce IntOp.andi x v reducesTo_S6144_S_d0 h_S_) main_v96 main_c_37
  let main_v98 : IVec S_ 1 := andi main_v93 main_v97
  let main_v99 : FVec F S6144 .f32 := Host.absf main_arg20
  let main_cst_38 : FVec F S_ .f32 := constant S_ .f32 0x7F800000#32
  let main_v100 : FVec F S6144 .f32 := broadcastInDim S6144 ![] bcast_S_S6144 main_cst_38
  let main_v101 : IVec S6144 1 := cmpf .olt main_v99 main_v100
  let main_c_39 : IVec S_ 1 := constantI S_ 1 1#1
  fn_part6 (F := F) main_v98 main_v101 main_c_39

def fn_part4 {F : FTy → Type} [FloatOps F] (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) (main_v63 : IVec S_ 1) (main_v67 : IVec S_ 1) : IVec S_ 1 :=
  let main_v68 : IVec S_ 1 := andi main_v63 main_v67
  let main_v69 : FVec F S6144 .f32 := Host.absf main_arg14
  let main_cst_26 : FVec F S_ .f32 := constant S_ .f32 0x7F800000#32
  let main_v70 : FVec F S6144 .f32 := broadcastInDim S6144 ![] bcast_S_S6144 main_cst_26
  let main_v71 : IVec S6144 1 := cmpf .olt main_v69 main_v70
  let main_c_27 : IVec S_ 1 := constantI S_ 1 1#1
  let main_v72 : IVec S_ 1 := (fun x v => Host.reduce IntOp.andi x v reducesTo_S6144_S_d0 h_S_) main_v71 main_c_27
  let main_v73 : IVec S_ 1 := andi main_v68 main_v72
  let main_v74 : FVec F S6144 .f32 := Host.absf main_arg15
  let main_cst_28 : FVec F S_ .f32 := constant S_ .f32 0x7F800000#32
  let main_v75 : FVec F S6144 .f32 := broadcastInDim S6144 ![] bcast_S_S6144 main_cst_28
  let main_v76 : IVec S6144 1 := cmpf .olt main_v74 main_v75
  let main_c_29 : IVec S_ 1 := constantI S_ 1 1#1
  let main_v77 : IVec S_ 1 := (fun x v => Host.reduce IntOp.andi x v reducesTo_S6144_S_d0 h_S_) main_v76 main_c_29
  let main_v78 : IVec S_ 1 := andi main_v73 main_v77
  let main_v79 : FVec F S6144 .f32 := Host.absf main_arg16
  let main_cst_30 : FVec F S_ .f32 := constant S_ .f32 0x7F800000#32
  let main_v80 : FVec F S6144 .f32 := broadcastInDim S6144 ![] bcast_S_S6144 main_cst_30
  let main_v81 : IVec S6144 1 := cmpf .olt main_v79 main_v80
  let main_c_31 : IVec S_ 1 := constantI S_ 1 1#1
  let main_v82 : IVec S_ 1 := (fun x v => Host.reduce IntOp.andi x v reducesTo_S6144_S_d0 h_S_) main_v81 main_c_31
  let main_v83 : IVec S_ 1 := andi main_v78 main_v82
  let main_v84 : FVec F S6144 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S6144 .f32) (main_arg12 : FVec F S6144 .f32) (main_arg13 : FVec F S6144 .f32) (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S6144 .f32 := Host.absf main_arg11
  let main_cst_20 : FVec F S_ .f32 := constant S_ .f32 0x7F800000#32
  let main_v55 : FVec F S6144 .f32 := broadcastInDim S6144 ![] bcast_S_S6144 main_cst_20
  let main_v56 : IVec S6144 1 := cmpf .olt main_v54 main_v55
  let main_c_21 : IVec S_ 1 := constantI S_ 1 1#1
  let main_v57 : IVec S_ 1 := (fun x v => Host.reduce IntOp.andi x v reducesTo_S6144_S_d0 h_S_) main_v56 main_c_21
  let main_v58 : IVec S_ 1 := andi main_v53 main_v57
  let main_v59 : FVec F S6144 .f32 := Host.absf main_arg12
  let main_cst_22 : FVec F S_ .f32 := constant S_ .f32 0x7F800000#32
  let main_v60 : FVec F S6144 .f32 := broadcastInDim S6144 ![] bcast_S_S6144 main_cst_22
  let main_v61 : IVec S6144 1 := cmpf .olt main_v59 main_v60
  let main_c_23 : IVec S_ 1 := constantI S_ 1 1#1
  let main_v62 : IVec S_ 1 := (fun x v => Host.reduce IntOp.andi x v reducesTo_S6144_S_d0 h_S_) main_v61 main_c_23
  let main_v63 : IVec S_ 1 := andi main_v58 main_v62
  let main_v64 : FVec F S6144 .f32 := Host.absf main_arg13
  let main_cst_24 : FVec F S_ .f32 := constant S_ .f32 0x7F800000#32
  let main_v65 : FVec F S6144 .f32 := broadcastInDim S6144 ![] bcast_S_S6144 main_cst_24
  let main_v66 : IVec S6144 1 := cmpf .olt main_v64 main_v65
  let main_c_25 : IVec S_ 1 := constantI S_ 1 1#1
  let main_v67 : IVec S_ 1 := (fun x v => Host.reduce IntOp.andi x v reducesTo_S6144_S_d0 h_S_) main_v66 main_c_25
  fn_part4 (F := F) main_arg14 main_arg15 main_arg16 main_arg17 main_arg18 main_arg19 main_arg20 main_v63 main_v67

def fn_part2 {F : FTy → Type} [FloatOps F] (main_arg7 : FVec F S10x6144 .f32) (main_arg8 : FVec F S10 .f32) (main_arg9 : FVec F S6144 .f32) (main_arg10 : FVec F S6144 .f32) (main_arg11 : FVec F S6144 .f32) (main_arg12 : FVec F S6144 .f32) (main_arg13 : FVec F S6144 .f32) (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) (main_v33 : IVec S_ 1) : IVec S_ 1 :=
  let main_v34 : FVec F S10x6144 .f32 := Host.absf main_arg7
  let main_cst_12 : FVec F S_ .f32 := constant S_ .f32 0x7F800000#32
  let main_v35 : FVec F S10x6144 .f32 := broadcastInDim S10x6144 ![] bcast_S_S10x6144 main_cst_12
  let main_v36 : IVec S10x6144 1 := cmpf .olt main_v34 main_v35
  let main_c_13 : IVec S_ 1 := constantI S_ 1 1#1
  let main_v37 : IVec S_ 1 := (fun x v => Host.reduce IntOp.andi x v reducesTo_S10x6144_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S6144 .f32 := Host.absf main_arg9
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg10
  let main_cst_18 : FVec F S_ .f32 := constant S_ .f32 0x7F800000#32
  let main_v50 : FVec F S6144 .f32 := broadcastInDim S6144 ![] bcast_S_S6144 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S6144 .f32) (main_arg5 : FVec F S6144x6144 .f32) (main_arg6 : FVec F S6144 .f32) (main_arg7 : FVec F S10x6144 .f32) (main_arg8 : FVec F S10 .f32) (main_arg9 : FVec F S6144 .f32) (main_arg10 : FVec F S6144 .f32) (main_arg11 : FVec F S6144 .f32) (main_arg12 : FVec F S6144 .f32) (main_arg13 : FVec F S6144 .f32) (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) (main_v13 : IVec S_ 1) (main_v16 : IVec S6144x6144 1) : IVec S_ 1 :=
  let main_c_5 : IVec S_ 1 := constantI S_ 1 1#1
  let main_v17 : IVec S_ 1 := (fun x v => Host.reduce IntOp.andi x v reducesTo_S6144x6144_S_d0_1 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144x6144 .f32 := Host.absf main_arg5
  let main_cst_8 : FVec F S_ .f32 := constant S_ .f32 0x7F800000#32
  let main_v25 : FVec F S6144x6144 .f32 := broadcastInDim S6144x6144 ![] bcast_S_S6144x6144 main_cst_8
  let main_v26 : IVec S6144x6144 1 := cmpf .olt main_v24 main_v25
  let main_c_9 : IVec S_ 1 := constantI S_ 1 1#1
  let main_v27 : IVec S_ 1 := (fun x v => Host.reduce IntOp.andi x v reducesTo_S6144x6144_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x784 .f32) (main_arg1 : FVec F S6144x784 .f32) (main_arg2 : FVec F S6144 .f32) (main_arg3 : FVec F S6144x6144 .f32) (main_arg4 : FVec F S6144 .f32) (main_arg5 : FVec F S6144x6144 .f32) (main_arg6 : FVec F S6144 .f32) (main_arg7 : FVec F S10x6144 .f32) (main_arg8 : FVec F S10 .f32) (main_arg9 : FVec F S6144 .f32) (main_arg10 : FVec F S6144 .f32) (main_arg11 : FVec F S6144 .f32) (main_arg12 : FVec F S6144 .f32) (main_arg13 : FVec F S6144 .f32) (main_arg14 : FVec F S6144 .f32) (main_arg15 : FVec F S6144 .f32) (main_arg16 : FVec F S6144 .f32) (main_arg17 : FVec F S6144 .f32) (main_arg18 : FVec F S6144 .f32) (main_arg19 : FVec F S6144 .f32) (main_arg20 : FVec F S6144 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S6144x784 .f32 := Host.absf main_arg1
  let main_cst_0 : FVec F S_ .f32 := constant S_ .f32 0x7F800000#32
  let main_v5 : FVec F S6144x784 .f32 := broadcastInDim S6144x784 ![] bcast_S_S6144x784 main_cst_0
  let main_v6 : IVec S6144x784 1 := cmpf .olt main_v4 main_v5
  let main_c_1 : IVec S_ 1 := constantI S_ 1 1#1
  let main_v7 : IVec S_ 1 := (fun x v => Host.reduce IntOp.andi x v reducesTo_S6144x784_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S6144x6144 .f32 := Host.absf main_arg3
  let main_cst_4 : FVec F S_ .f32 := constant S_ .f32 0x7F800000#32
  let main_v15 : FVec F S6144x6144 .f32 := broadcastInDim S6144x6144 ![] bcast_S_S6144x6144 main_cst_4
  let main_v16 : IVec S6144x6144 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x784 : Shape := ⟨2, ![8192, 784]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S1x6144 : Shape := ⟨2, ![1, 6144]⟩
abbrev S8192x6144 : Shape := ⟨2, ![8192, 6144]⟩
abbrev S1024x784 : Shape := ⟨2, ![1024, 784]⟩
abbrev S1x1024 : Shape := ⟨2, ![1, 1024]⟩
abbrev S1024x1024 : Shape := ⟨2, ![1024, 1024]⟩
abbrev S1024x512 : Shape := ⟨2, ![1024, 512]⟩
abbrev S1x10 : Shape := ⟨2, ![1, 10]⟩
abbrev S8192x10 : Shape := ⟨2, ![8192, 10]⟩
abbrev S10x1024 : Shape := ⟨2, ![10, 1024]⟩
abbrev S1024x10 : Shape := ⟨2, ![1024, 10]⟩
abbrev S1024 : Shape := ⟨1, ![1024]⟩
abbrev S1024x1 : Shape := ⟨2, ![1024, 1]⟩

abbrev nBuf : Space → Nat
  | .hbm => 41
  | .vmem => 59
  | .smem => 0
  | _ => 0

abbrev bufTy : (tb : Table) → Fin (tcTables nBuf tb) → BufTy
  | .hbm, ⟨0, _⟩ => ⟨S8192x784, .f32⟩
  | .hbm, ⟨1, _⟩ => ⟨S6144x784, .f32⟩
  | .hbm, ⟨2, _⟩ => ⟨S6144, .f32⟩
  | .hbm, ⟨3, _⟩ => ⟨S6144x6144, .f32⟩
  | .hbm, ⟨4, _⟩ => ⟨S6144, .f32⟩
  | .hbm, ⟨5, _⟩ => ⟨S6144x6144, .f32⟩
  | .hbm, ⟨6, _⟩ => ⟨S6144, .f32⟩
  | .hbm, ⟨7, _⟩ => ⟨S10x6144, .f32⟩
  | .hbm, ⟨8, _⟩ => ⟨S10, .f32⟩
  | .hbm, ⟨9, _⟩ => ⟨S6144, .f32⟩
  | .hbm, ⟨10, _⟩ => ⟨S6144, .f32⟩
  | .hbm, ⟨11, _⟩ => ⟨S6144, .f32⟩
  | .hbm, ⟨12, _⟩ => ⟨S6144, .f32⟩
  | .hbm, ⟨13, _⟩ => ⟨S6144, .f32⟩
  | .hbm, ⟨14, _⟩ => ⟨S6144, .f32⟩
  | .hbm, ⟨15, _⟩ => ⟨S6144, .f32⟩
  | .hbm, ⟨16, _⟩ => ⟨S6144, .f32⟩
  | .hbm, ⟨17, _⟩ => ⟨S6144, .f32⟩
  | .hbm, ⟨18, _⟩ => ⟨S6144, .f32⟩
  | .hbm, ⟨19, _⟩ => ⟨S6144, .f32⟩
  | .hbm, ⟨20, _⟩ => ⟨S6144, .f32⟩
  | .hbm, ⟨21, _⟩ => ⟨S1x6144, .f32⟩
  | .hbm, ⟨22, _⟩ => ⟨S1x6144, .f32⟩
  | .hbm, ⟨23, _⟩ => ⟨S1x6144, .f32⟩
  | .hbm, ⟨24, _⟩ => ⟨S1x6144, .f32⟩
  | .hbm, ⟨25, _⟩ => ⟨S1x6144, .f32⟩
  | .hbm, ⟨26, _⟩ => ⟨S8192x6144, .bf16⟩
  | .hbm, ⟨27, _⟩ => ⟨S1x6144, .f32⟩
  | .hbm, ⟨28, _⟩ => ⟨S1x6144, .f32⟩
  | .hbm, ⟨29, _⟩ => ⟨S1x6144, .f32⟩
  | .hbm, ⟨30, _⟩ => ⟨S1x6144, .f32⟩
  | .hbm, ⟨31, _⟩ => ⟨S1x6144, .f32⟩
  | .hbm, ⟨32, _⟩ => ⟨S8192x6144, .bf16⟩
  | .hbm, ⟨33, _⟩ => ⟨S1x6144, .f32⟩
  | .hbm, ⟨34, _⟩ => ⟨S1x6144, .f32⟩
  | .hbm, ⟨35, _⟩ => ⟨S1x6144, .f32⟩
  | .hbm, ⟨36, _⟩ => ⟨S1x6144, .f32⟩
  | .hbm, ⟨37, _⟩ => ⟨S1x6144, .f32⟩
  | .hbm, ⟨38, _⟩ => ⟨S8192x6144, .bf16⟩
  | .hbm, ⟨39, _⟩ => ⟨S1x10, .f32⟩
  | .hbm, ⟨40, _⟩ => ⟨S8192x10, .f32⟩
  | .local _ .vmem, ⟨0, _⟩ => ⟨S1024x784, .f32⟩
  | .local _ .vmem, ⟨1, _⟩ => ⟨S1024x784, .f32⟩
  | .local _ .vmem, ⟨2, _⟩ => ⟨S1024x784, .f32⟩
  | .local _ .vmem, ⟨3, _⟩ => ⟨S1024x784, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1024x1024, .bf16⟩
  | .local _ .vmem, ⟨32, _⟩ => ⟨S1024x1024, .bf16⟩
  | .local _ .vmem, ⟨33, _⟩ => ⟨S1024x1024, .f32⟩
  | .local _ .vmem, ⟨34, _⟩ => ⟨S1024x512, .bf16⟩
  | .local _ .vmem, ⟨35, _⟩ => ⟨S1024x512, .bf16⟩
  | .local _ .vmem, ⟨36, _⟩ => ⟨S1024x512, .f32⟩
  | .local _ .vmem, ⟨37, _⟩ => ⟨S1024x512, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1024x1024, .bf16⟩
  | .local _ .vmem, ⟨49, _⟩ => ⟨S1024x1024, .bf16⟩
  | .local _ .vmem, ⟨50, _⟩ => ⟨S1024x1024, .f32⟩
  | .local _ .vmem, ⟨51, _⟩ => ⟨S1024x1024, .bf16⟩
  | .local _ .vmem, ⟨52, _⟩ => ⟨S1024x1024, .bf16⟩
  | .local _ .vmem, ⟨53, _⟩ => ⟨S10x1024, .f32⟩
  | .local _ .vmem, ⟨54, _⟩ => ⟨S10x1024, .f32⟩
  | .local _ .vmem, ⟨55, _⟩ => ⟨S1x10, .f32⟩
  | .local _ .vmem, ⟨56, _⟩ => ⟨S1024x10, .f32⟩
  | .local _ .vmem, ⟨57, _⟩ => ⟨S1024x10, .f32⟩
  | .local _ .vmem, ⟨58, _⟩ => ⟨S1024x10, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_stg7_0 : Ref sig .tc := ⟨.vmem, 48, rfl⟩
abbrev cc2_stg7_1 : Ref sig .tc := ⟨.vmem, 49, rfl⟩
abbrev cc2_scratch0 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg1_1 : Ref sig .tc := ⟨.vmem, 54, rfl⟩
abbrev cc3_stg2_0 : Ref sig .tc := ⟨.vmem, 55, rfl⟩
abbrev cc3_stg3_0 : Ref sig .tc := ⟨.vmem, 56, rfl⟩
abbrev cc3_stg3_1 : Ref sig .tc := ⟨.vmem, 57, rfl⟩
abbrev cc3_scratch0 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem3_0 : DmaSem sig := 53
abbrev cc3_sem3_1 : DmaSem sig := 54

abbrev nD : Nat := 1
abbrev τ : Topo := Topo.v7x

variable {F : FTy → Type} [FloatOps F]

abbrev grid0 : Pipeline.Grid := ⟨3, ![8, 6, 1], ![false, false, false]⟩

def k0_cond2 (i : grid0.Coords) : BitVec 1 :=
  let arg2 : BitVec 32 := BitVec.ofNat 32 (i 2).val
  let c0_i32_11 : BitVec 32 := 0#32
  let v18 : BitVec 1 := Scalar.cmpi .eq arg2 c0_i32_11
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x784 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![8, 6, 12], ![false, false, false]⟩

def k1_cond2 (i : grid1.Coords) : BitVec 1 :=
  let arg2 : BitVec 32 := BitVec.ofNat 32 (i 2).val
  let c11_i32 : BitVec 32 := 11#32
  let v18 : BitVec 1 := Scalar.cmpi .eq arg2 c11_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨3, ![8, 6, 12], ![false, false, false]⟩

def k2_cond2 (i : grid2.Coords) : BitVec 1 :=
  let arg2 : BitVec 32 := BitVec.ofNat 32 (i 2).val
  let c11_i32 : BitVec 32 := 11#32
  let v18 : BitVec 1 := Scalar.cmpi .eq arg2 c11_i32
  let v19 : BitVec 32 := Scalar.extui v18
  let c0_i32_11 : BitVec 32 := 0#32
  let v20 : BitVec 1 := Scalar.cmpi .ne v19 c0_i32_11
  v20

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true, false]

abbrev stage2_6 : Fin 2 → Memref sig .tc .vmem S1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true, false]

abbrev stage2_7 : Fin 2 → Memref sig .tc .vmem S1024x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev grid3 : Pipeline.Grid := ⟨2, ![8, 6], ![false, false]⟩

def k3_cond2 (i : grid3.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S10x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  shapeCasts_S6144_S1x6144 : S6144.ShapeCasts S1x6144
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x784_S1024x784_0_0 : ∀ a, (![0, 0] : Fin 2 → Nat) a + S1024x784.size a ≤ S1024x784.size a
  h_S1024x784 : 0 < S1024x784.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S10_S1x10 : S10.ShapeCasts S1x10
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S10x1024_S10x1024_0_0 : ∀ a, (![0, 0] : Fin 2 → Nat) a + S10x1024.size a ≤ S10x1024.size a
  h_S10x1024 : 0 < S10x1024.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  dot_S1024x784_S1024x784_S1024x1024_1_1_0_0_n_n_wf : DotDims.WF S1024x784 S1024x784 S1024x1024 [1] [1] [0] [0] [] []
  dot_S1024x512_S1024x512_S1024x1024_1_1_0_0_n_n_wf : DotDims.WF S1024x512 S1024x512 S1024x1024 [1] [1] [0] [0] [] []
  dot_S1024x1024_S10x1024_S1024x10_1_1_0_0_n_n_wf : DotDims.WF S1024x1024 S10x1024 S1024x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S8192x784.size a
  hwx0_0 : ∀ i : grid0.Coords, EltTy.bits .f32 = 32 ∨ (Rect.block (s := S8192x784) S1024x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x784.size a ≤ S6144x784.size a
  hwx0_1 : ∀ i : grid0.Coords, EltTy.bits .f32 = 32 ∨ (Rect.block (s := S6144x784) S1024x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x6144.size a
  hwx0_2 : ∀ i : grid0.Coords, EltTy.bits .f32 = 32 ∨ (Rect.block (s := S1x6144) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x6144.size a
  hwx0_3 : ∀ i : grid0.Coords, EltTy.bits .f32 = 32 ∨ (Rect.block (s := S1x6144) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x6144.size a
  hwx0_4 : ∀ i : grid0.Coords, EltTy.bits .f32 = 32 ∨ (Rect.block (s := S1x6144) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x6144.size a
  hwx0_5 : ∀ i : grid0.Coords, EltTy.bits .f32 = 32 ∨ (Rect.block (s := S1x6144) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x6144.size a
  hwx0_6 : ∀ i : grid0.Coords, EltTy.bits .f32 = 32 ∨ (Rect.block (s := S1x6144) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x6144.size a
  hwx0_7 : ∀ i : grid0.Coords, EltTy.bits .bf16 = 32 ∨ (Rect.block (s := S8192x6144) S1024x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x6144.size a
  hwx1_0 : ∀ i : grid1.Coords, EltTy.bits .bf16 = 32 ∨ (Rect.block (s := S8192x6144) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S6144x6144.size a
  hwx1_1 : ∀ i : grid1.Coords, EltTy.bits .f32 = 32 ∨ (Rect.block (s := S6144x6144) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x6144.size a
  hwx1_2 : ∀ i : grid1.Coords, EltTy.bits .f32 = 32 ∨ (Rect.block (s := S1x6144) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x6144.size a
  hwx1_3 : ∀ i : grid1.Coords, EltTy.bits .f32 = 32 ∨ (Rect.block (s := S1x6144) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x6144.size a
  hwx1_4 : ∀ i : grid1.Coords, EltTy.bits .f32 = 32 ∨ (Rect.block (s := S1x6144) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x6144.size a
  hwx1_5 : ∀ i : grid1.Coords, EltTy.bits .f32 = 32 ∨ (Rect.block (s := S1x6144) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x6144.size a
  hwx1_6 : ∀ i : grid1.Coords, EltTy.bits .f32 = 32 ∨ (Rect.block (s := S1x6144) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S8192x6144.size a
  hwx1_7 : ∀ i : grid1.Coords, EltTy.bits .bf16 = 32 ∨ (Rect.block (s := S8192x6144) S1024x1024.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x6144.size a
  hwx2_0 : ∀ i : grid2.Coords, EltTy.bits .bf16 = 32 ∨ (Rect.block (s := S8192x6144) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S6144x6144.size a
  hwx2_1 : ∀ i : grid2.Coords, EltTy.bits .f32 = 32 ∨ (Rect.block (s := S6144x6144) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x6144.size a
  hwx2_2 : ∀ i : grid2.Coords, EltTy.bits .f32 = 32 ∨ (Rect.block (s := S1x6144) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x6144.size a
  hwx2_3 : ∀ i : grid2.Coords, EltTy.bits .f32 = 32 ∨ (Rect.block (s := S1x6144) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x6144.size a
  hwx2_4 : ∀ i : grid2.Coords, EltTy.bits .f32 = 32 ∨ (Rect.block (s := S1x6144) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x6144.size a
  hwx2_5 : ∀ i : grid2.Coords, EltTy.bits .f32 = 32 ∨ (Rect.block (s := S1x6144) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x6144.size a
  hwx2_6 : ∀ i : grid2.Coords, EltTy.bits .f32 = 32 ∨ (Rect.block (s := S1x6144) S1x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x1024.size a ≤ S8192x6144.size a
  hwx2_7 : ∀ i : grid2.Coords, EltTy.bits .bf16 = 32 ∨ (Rect.block (s := S8192x6144) S1024x1024.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x6144.size a
  hwx3_0 : ∀ i : grid3.Coords, EltTy.bits .bf16 = 32 ∨ (Rect.block (s := S8192x6144) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10x1024.size a ≤ S10x6144.size a
  hwx3_1 : ∀ i : grid3.Coords, EltTy.bits .f32 = 32 ∨ (Rect.block (s := S10x6144) S10x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x10.size a ≤ S8192x10.size a
  hwx3_3 : ∀ i : grid3.Coords, EltTy.bits .f32 = 32 ∨ (Rect.block (s := S8192x10) S1024x10.size (cc3_transform_3 i) (hinb3_3 i)).WholeWords (EltTy.packing .f32)

variable [Facts₀]

def dot_S1024x784_S1024x784_S1024x1024_1_1_0_0_n_n : DotDims S1024x784 S1024x784 S1024x1024 where
  lhsContracting := [1]
  rhsContracting := [1]
  lhsNonContracting := [0]
  rhsNonContracting := [0]
  lhsBatch := []
  rhsBatch := []
  wf := dot_S1024x784_S1024x784_S1024x1024_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S10x1024_S1024x10_1_1_0_0_n_n : DotDims S1024x1024 S10x1024 S1024x10 where
  lhsContracting := [1]
  rhsContracting := [1]
  lhsNonContracting := [0]
  rhsNonContracting := [0]
  lhsBatch := []
  rhsBatch := []
  wf := dot_S1024x1024_S10x1024_S1024x10_1_1_0_0_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x784.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v5) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v11) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x1024.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v17) S1024x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v17) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S10x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1024x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x784 : Shape := ⟨2, ![8192, 784]⟩
abbrev S6144x784 : Shape := ⟨2, ![6144, 784]⟩
abbrev S6144 : Shape := ⟨1, ![6144]⟩
abbrev S6144x6144 : Shape := ⟨2, ![6144, 6144]⟩
abbrev S10x6144 : Shape := ⟨2, ![10, 6144]⟩
abbrev S10 : Shape := ⟨1, ![10]⟩
abbrev S_ : Shape := ⟨0, ![]⟩
abbrev S784x6144 : Shape := ⟨2, ![784, 6144]⟩
abbrev S8192x6144 : Shape := ⟨2, ![8192, 6144]⟩
abbrev S1x6144 : Shape := ⟨2, ![1, 6144]⟩
abbrev S6144x10 : Shape := ⟨2, ![6144, 10]⟩
abbrev S8192x10 : Shape := ⟨2, ![8192, 10]⟩
abbrev S1x10 : Shape := ⟨2, ![1, 10]⟩
abbrev S8192 : Shape := ⟨1, ![8192]⟩
abbrev S8192x1 : Shape := ⟨2, ![8192, 1]⟩

abbrev nBuf : Space → Nat
  | .hbm => 176
  | .vmem => 0
  | .smem => 0
  | _ => 0

abbrev hbmTy0_0 (i : Nat) : BufTy := match i % 128 with
  | 0 => ⟨S8192x784, .f32⟩
  | 1 => ⟨S6144x784, .f32⟩
  | 2 => ⟨S6144, .f32⟩
  | 3 => ⟨S6144x6144, .f32⟩
  | 4 => ⟨S6144, .f32⟩
  | 5 => ⟨S6144x6144, .f32⟩
  | 6 => ⟨S6144, .f32⟩
  | 7 => ⟨S10x6144, .f32⟩
  | 8 => ⟨S10, .f32⟩
  | 9 => ⟨S6144, .f32⟩
  | 10 => ⟨S6144, .f32⟩
  | 11 => ⟨S6144, .f32⟩
  | 12 => ⟨S6144, .f32⟩
  | 13 => ⟨S6144, .f32⟩
  | 14 => ⟨S6144, .f32⟩
  | 15 => ⟨S6144, .f32⟩
  | 16 => ⟨S6144, .f32⟩
  | 17 => ⟨S6144, .f32⟩
  | 18 => ⟨S6144, .f32⟩
  | 19 => ⟨S6144, .f32⟩
  | 20 => ⟨S6144, .f32⟩
  | 21 => ⟨S_, .f32⟩
  | 22 => ⟨S6144x784, .f32⟩
  | 23 => ⟨S6144x784, .i1⟩
  | 24 => ⟨S_, .f32⟩
  | 25 => ⟨S_, .f32⟩
  | 26 => ⟨S6144x784, .f32⟩
  | 27 => ⟨S6144x784, .f32⟩
  | 28 => ⟨S6144x784, .f32⟩
  | 29 => ⟨S6144x784, .f32⟩
  | 30 => ⟨S784x6144, .f32⟩
  | 31 => ⟨S8192x6144, .f32⟩
  | 32 => ⟨S1x6144, .f32⟩
  | 33 => ⟨S8192x6144, .f32⟩
  | 34 => ⟨S8192x6144, .f32⟩
  | 35 => ⟨S1x6144, .f32⟩
  | 36 => ⟨S8192x6144, .f32⟩
  | 37 => ⟨S8192x6144, .f32⟩
  | 38 => ⟨S_, .f32⟩
  | 39 => ⟨S6144, .f32⟩
  | 40 => ⟨S6144, .f32⟩
  | 41 => ⟨S6144, .f32⟩
  | 42 => ⟨S6144, .f32⟩
  | 43 => ⟨S1x6144, .f32⟩
  | 44 => ⟨S8192x6144, .f32⟩
  | 45 => ⟨S8192x6144, .f32⟩
  | 46 => ⟨S1x6144, .f32⟩
  | 47 => ⟨S8192x6144, .f32⟩
  | 48 => ⟨S8192x6144, .f32⟩
  | 49 => ⟨S_, .f32⟩
  | 50 => ⟨S_, .f32⟩
  | 51 => ⟨S_, .f32⟩
  | 52 => ⟨S8192x6144, .f32⟩
  | 53 => ⟨S8192x6144, .f32⟩
  | 54 => ⟨S_, .f32⟩
  | 55 => ⟨S8192x6144, .f32⟩
  | 56 => ⟨S8192x6144, .f32⟩
  | 57 => ⟨S_, .f32⟩
  | 58 => ⟨S8192x6144, .f32⟩
  | 59 => ⟨S8192x6144, .i1⟩
  | 60 => ⟨S_, .f32⟩
  | 61 => ⟨S_, .f32⟩
  | 62 => ⟨S8192x6144, .f32⟩
  | 63 => ⟨S8192x6144, .f32⟩
  | 64 => ⟨S8192x6144, .f32⟩
  | 65 => ⟨S8192x6144, .f32⟩
  | 66 => ⟨S_, .f32⟩
  | 67 => ⟨S6144x6144, .f32⟩
  | 68 => ⟨S6144x6144, .i1⟩
  | 69 => ⟨S_, .f32⟩
  | 70 => ⟨S_, .f32⟩
  | 71 => ⟨S6144x6144, .f32⟩
  | 72 => ⟨S6144x6144, .f32⟩
  | 73 => ⟨S6144x6144, .f32⟩
  | 74 => ⟨S6144x6144, .f32⟩
  | 75 => ⟨S6144x6144, .f32⟩
  | 76 => ⟨S8192x6144, .f32⟩
  | 77 => ⟨S1x6144, .f32⟩
  | 78 => ⟨S8192x6144, .f32⟩
  | 79 => ⟨S8192x6144, .f32⟩
  | 80 => ⟨S1x6144, .f32⟩
  | 81 => ⟨S8192x6144, .f32⟩
  | 82 => ⟨S8192x6144, .f32⟩
  | 83 => ⟨S_, .f32⟩
  | 84 => ⟨S6144, .f32⟩
  | 85 => ⟨S6144, .f32⟩
  | 86 => ⟨S6144, .f32⟩
  | 87 => ⟨S6144, .f32⟩
  | 88 => ⟨S1x6144, .f32⟩
  | 89 => ⟨S8192x6144, .f32⟩
  | 90 => ⟨S8192x6144, .f32⟩
  | 91 => ⟨S1x6144, .f32⟩
  | 92 => ⟨S8192x6144, .f32⟩
  | 93 => ⟨S8192x6144, .f32⟩
  | 94 => ⟨S_, .f32⟩
  | 95 => ⟨S_, .f32⟩
  | 96 => ⟨S_, .f32⟩
  | 97 => ⟨S8192x6144, .f32⟩
  | 98 => ⟨S8192x6144, .f32⟩
  | 99 => ⟨S_, .f32⟩
  | 100 => ⟨S8192x6144, .f32⟩
  | 101 => ⟨S8192x6144, .f32⟩
  | 102 => ⟨S_, .f32⟩
  | 103 => ⟨S8192x6144, .f32⟩
  | 104 => ⟨S8192x6144, .i1⟩
  | 105 => ⟨S_, .f32⟩
  | 106 => ⟨S_, .f32⟩
  | 107 => ⟨S8192x6144, .f32⟩
  | 108 => ⟨S8192x6144, .f32⟩
  | 109 => ⟨S8192x6144, .f32⟩
  | 110 => ⟨S8192x6144, .f32⟩
  | 111 => ⟨S_, .f32⟩
  | 112 => ⟨S6144x6144, .f32⟩
  | 113 => ⟨S6144x6144, .i1⟩
  | 114 => ⟨S_, .f32⟩
  | 115 => ⟨S_, .f32⟩
  | 116 => ⟨S6144x6144, .f32⟩
  | 117 => ⟨S6144x6144, .f32⟩
  | 118 => ⟨S6144x6144, .f32⟩
  | 119 => ⟨S6144x6144, .f32⟩
  | 120 => ⟨S6144x6144, .f32⟩
  | 121 => ⟨S8192x6144, .f32⟩
  | 122 => ⟨S1x6144, .f32⟩
  | 123 => ⟨S8192x6144, .f32⟩
  | 124 => ⟨S8192x6144, .f32⟩
  | 125 => ⟨S1x6144, .f32⟩
  | 126 => ⟨S8192x6144, .f32⟩
  | 127 => ⟨S8192x6144, .f32⟩
  | _ => ⟨S8192x784, .f32⟩

abbrev hbmTy0_1 (i : Nat) : BufTy := match i % 128 with
  | 0 => ⟨S_, .f32⟩
  | 1 => ⟨S6144, .f32⟩
  | 2 => ⟨S6144, .f32⟩
  | 3 => ⟨S6144, .f32⟩
  | 4 => ⟨S6144, .f32⟩
  | 5 => ⟨S1x6144, .f32⟩
  | 6 => ⟨S8192x6144, .f32⟩
  | 7 => ⟨S8192x6144, .f32⟩
  | 8 => ⟨S1x6144, .f32⟩
  | 9 => ⟨S8192x6144, .f32⟩
  | 10 => ⟨S8192x6144, .f32⟩
  | 11 => ⟨S_, .f32⟩
  | 12 => ⟨S_, .f32⟩
  | 13 => ⟨S_, .f32⟩
  | 14 => ⟨S8192x6144, .f32⟩
  | 15 => ⟨S8192x6144, .f32⟩
  | 16 => ⟨S_, .f32⟩
  | 17 => ⟨S8192x6144, .f32⟩
  | 18 => ⟨S8192x6144, .f32⟩
  | 19 => ⟨S_, .f32⟩
  | 20 => ⟨S8192x6144, .f32⟩
  | 21 => ⟨S8192x6144, .i1⟩
  | 22 => ⟨S_, .f32⟩
  | 23 => ⟨S_, .f32⟩
  | 24 => ⟨S8192x6144, .f32⟩
  | 25 => ⟨S8192x6144, .f32⟩
  | 26 => ⟨S8192x6144, .f32⟩
  | 27 => ⟨S8192x6144, .f32⟩
  | 28 => ⟨S6144x10, .f32⟩
  | 29 => ⟨S8192x10, .f32⟩
  | 30 => ⟨S1x10, .f32⟩
  | 31 => ⟨S8192x10, .f32⟩
  | 32 => ⟨S8192x10, .f32⟩
  | 33 => ⟨S_, .f32⟩
  | 34 => ⟨S8192, .f32⟩
  | 35 => ⟨S_, .f32⟩
  | 36 => ⟨S8192, .f32⟩
  | 37 => ⟨S8192, .f32⟩
  | 38 => ⟨S8192x1, .f32⟩
  | 39 => ⟨S8192x10, .f32⟩
  | 40 => ⟨S8192x10, .f32⟩
  | 41 => ⟨S8192x10, .f32⟩
  | 42 => ⟨S_, .f32⟩
  | 43 => ⟨S8192, .f32⟩
  | 44 => ⟨S8192x1, .f32⟩
  | 45 => ⟨S8192x1, .f32⟩
  | 46 => ⟨S8192x10, .f32⟩
  | 47 => ⟨S8192x10, .f32⟩
  | _ => ⟨S8192x784, .f32⟩

abbrev hbmTy (i : Nat) : BufTy := match i / 128 with
  | 0 => hbmTy0_0 i
  | 1 => hbmTy0_1 i
  | _ => ⟨S8192x784, .f32⟩

abbrev bufTy : (tb : Table) → Fin (tcTables nBuf tb) → BufTy
  | .hbm, ⟨i, _⟩ => hbmTy i
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v22 : Ref sig .tc := ⟨.hbm, 56, rfl⟩
abbrev main_cst_5 : Ref sig .tc := ⟨.hbm, 57, rfl⟩
abbrev main_v23 : Ref sig .tc := ⟨.hbm, 58, rfl⟩
abbrev main_v24 : Ref sig .tc := ⟨.hbm, 59, rfl⟩
abbrev main_cst_6 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_v25 : Ref sig .tc := ⟨.hbm, 64, rfl⟩
abbrev main_v26 : Ref sig .tc := ⟨.hbm, 65, rfl⟩
abbrev main_cst_8 : Ref sig .tc := ⟨.hbm, 66, rfl⟩
abbrev main_v27 : Ref sig .tc := ⟨.hbm, 67, rfl⟩
abbrev main_v28 : Ref sig .tc := ⟨.hbm, 68, rfl⟩
abbrev main_cst_9 : Ref sig .tc := ⟨.hbm, 69, rfl⟩
abbrev main_cst_10 : Ref sig .tc := ⟨.hbm, 70, rfl⟩
abbrev main_call3_v0 : Ref sig .tc := ⟨.hbm, 71, rfl⟩
abbrev main_call3_v1 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_11 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_12 : Ref sig .tc := ⟨.hbm, 94, rfl⟩
abbrev main_cst_13 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v49 : Ref sig .tc := ⟨.hbm, 101, rfl⟩
abbrev main_cst_14 : Ref sig .tc := ⟨.hbm, 102, rfl⟩
abbrev main_v50 : Ref sig .tc := ⟨.hbm, 103, rfl⟩
abbrev main_v51 : Ref sig .tc := ⟨.hbm, 104, rfl⟩
abbrev main_cst_15 : Ref sig .tc := ⟨.hbm, 105, rfl⟩
abbrev main_cst_16 : Ref sig .tc := ⟨.hbm, 106, rfl⟩
abbrev main_call5_v0 : Ref sig .tc := ⟨.hbm, 107, rfl⟩
abbrev main_call5_v1 : Ref sig .tc := ⟨.hbm, 108, rfl⟩
abbrev main_v52 : Ref sig .tc := ⟨.hbm, 109, rfl⟩
abbrev main_v53 : Ref sig .tc := ⟨.hbm, 110, rfl⟩
abbrev main_cst_17 : Ref sig .tc := ⟨.hbm, 111, rfl⟩
abbrev main_v54 : Ref sig .tc := ⟨.hbm, 112, rfl⟩
abbrev main_v55 : Ref sig .tc := ⟨.hbm, 113, rfl⟩
abbrev main_cst_18 : Ref sig .tc := ⟨.hbm, 114, rfl⟩
abbrev main_cst_19 : Ref sig .tc := ⟨.hbm, 115, rfl⟩
abbrev main_call6_v0 : Ref sig .tc := ⟨.hbm, 116, rfl⟩
abbrev main_call6_v1 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_cst_20 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_21 : Ref sig .tc := ⟨.hbm, 139, rfl⟩
abbrev main_cst_22 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_v76 : Ref sig .tc := ⟨.hbm, 146, rfl⟩
abbrev main_cst_23 : Ref sig .tc := ⟨.hbm, 147, rfl⟩
abbrev main_v77 : Ref sig .tc := ⟨.hbm, 148, rfl⟩
abbrev main_v78 : Ref sig .tc := ⟨.hbm, 149, rfl⟩
abbrev main_cst_24 : Ref sig .tc := ⟨.hbm, 150, rfl⟩
abbrev main_cst_25 : Ref sig .tc := ⟨.hbm, 151, rfl⟩
abbrev main_call8_v0 : Ref sig .tc := ⟨.hbm, 152, rfl⟩
abbrev main_call8_v1 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_call9_cst : Ref sig .tc := ⟨.hbm, 161, rfl⟩
abbrev main_call9_v0 : Ref sig .tc := ⟨.hbm, 162, rfl⟩
abbrev main_call9_cst_0 : Ref sig .tc := ⟨.hbm, 163, rfl⟩
abbrev main_call9_v1 : Ref sig .tc := ⟨.hbm, 164, rfl⟩
abbrev main_call9_v2 : Ref sig .tc := ⟨.hbm, 165, rfl⟩
abbrev main_call9_v3 : Ref sig .tc := ⟨.hbm, 166, rfl⟩
abbrev main_call9_v4 : Ref sig .tc := ⟨.hbm, 167, rfl⟩
abbrev main_call9_v5 : Ref sig .tc := ⟨.hbm, 168, rfl⟩
abbrev main_call9_v6 : Ref sig .tc := ⟨.hbm, 169, rfl⟩
abbrev main_call9_cst_1 : Ref sig .tc := ⟨.hbm, 170, rfl⟩
abbrev main_call9_v7 : Ref sig .tc := ⟨.hbm, 171, rfl⟩
abbrev main_call9_v8 : Ref sig .tc := ⟨.hbm, 172, rfl⟩
abbrev main_call9_v9 : Ref sig .tc := ⟨.hbm, 173, rfl⟩
abbrev main_call9_v10 : Ref sig .tc := ⟨.hbm, 174, rfl⟩
abbrev main_v86 : Ref sig .tc := ⟨.hbm, 175, rfl⟩

abbrev nD : Nat := 1
abbrev τ : Topo := Topo.v7x

variable {F : FTy → Type} [FloatOps F]

class Facts₀ : Prop where
  bcast_S_S6144x784 : S_.BroadcastsInDim S6144x784 (![] : Fin 0 → Fin S6144x784.rank)
  transposes_S6144x784_S784x6144_1_0 : S6144x784.Transposes [1, 0] S784x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  bcast_S_S6144 : S_.BroadcastsInDim S6144 (![] : Fin 0 → Fin S6144.rank)
  bcast_S_S8192x6144 : S_.BroadcastsInDim S8192x6144 (![] : Fin 0 → Fin S8192x6144.rank)
  bcast_S_S6144x6144 : S_.BroadcastsInDim S6144x6144 (![] : Fin 0 → Fin S6144x6144.rank)
  transposes_S6144x6144_S6144x6144_1_0 : S6144x6144.Transposes [1, 0] S6144x6144
  transposes_S10x6144_S6144x10_1_0 : S10x6144.Transposes [1, 0] S6144x10
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  reducesTo_S8192x10_S8192_d1 : S8192x10.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x10_0_1 : S8192x1.BroadcastsInDim S8192x10 (![0, 1] : Fin 2 → Fin S8192x10.rank)
  dot_S8192x784_S784x6144_S8192x6144_1_0_0_1_n_n_wf : DotDims.WF S8192x784 S784x6144 S8192x6144 [1] [0] [0] [1] [] []
  dot_S8192x6144_S6144x6144_S8192x6144_1_0_0_1_n_n_wf : DotDims.WF S8192x6144 S6144x6144 S8192x6144 [1] [0] [0] [1] [] []
  dot_S8192x6144_S6144x10_S8192x10_1_0_0_1_n_n_wf : DotDims.WF S8192x6144 S6144x10 S8192x10 [1] [0] [0] [1] [] []

variable [Facts₀]

def dot_S8192x784_S784x6144_S8192x6144_1_0_0_1_n_n : DotDims S8192x784 S784x6144 S8192x6144 where
  lhsContracting := [1]
  rhsContracting := [0]
  lhsNonContracting := [0]
  rhsNonContracting := [1]
  lhsBatch := []
  rhsBatch := []
  wf := dot_S8192x784_S784x6144_S8192x6144_1_0_0_1_n_n_wf
def dot_S8192x6144_S6144x6144_S8192x6144_1_0_0_1_n_n : DotDims S8192x6144 S6144x6144 S8192x6144 where
  lhsContracting := [1]
  rhsContracting := [0]
  lhsNonContracting := [0]
  rhsNonContracting := [1]
  lhsBatch := []
  rhsBatch := []
  wf := dot_S8192x6144_S6144x6144_S8192x6144_1_0_0_1_n_n_wf
def dot_S8192x6144_S6144x10_S8192x10_1_0_0_1_n_n : DotDims S8192x6144 S6144x10 S8192x10 where
  lhsContracting := [1]
  rhsContracting := [0]
  lhsNonContracting := [0]
  rhsNonContracting := [1]
  lhsBatch := []
  rhsBatch := []
  wf := dot_S8192x6144_S6144x10_S8192x10_1_0_0_1_n_n_wf

class Facts : Prop extends Facts₀ where

variable [Facts]
-- ==== Proof.FrameK.Body.lean ====
import proofs.«135515_j66743791780425_1_alg».proof.Proof.Gen.Kernel.Launch
import Idealize.ShloMosaic.Lib.Pipeline.FrameBody
import Idealize.ShloMosaic.Lib.Pipeline.TableIdle

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole memref owned at `x` is its points-to at the one contents that read `x`. -/
theorem owns_unread {sp : Space} {sh : Shape} {e : EltTy} {c : Dev nD} {m : Memref sig .tc sp sh e} (h : m.IsWhole) (x : sh.Idx → Elt F e) :
    (owns c m fullShare x : sProp 𝕄) = (m.view.loc c ↦[m.view.set]{fullShare} h.unread x) := by
  rw [owns_eq_rep, h.eq_unread (View.read_rep _ _)]

/-- A covered list of writes, read back: the buffer holds the pieces' readback whatever it held before. -/
theorem owns_writes (c : Dev nD) {S : Shape} {e : EltTy} (m : Memref sig .tc .vmem S e) (v : View sig .tc .vmem S e)
    (L : List (View.Piece (Elt F) S e)) (h : ∀ y, ∃ p ∈ L, y ∈ p.1.set) :
    (iprop(∃ f, m.view.loc c ↦[m.view.set]{fullShare} m.view.writes (Elt F) f L) : sProp 𝕄)
      ⊢ owns c m fullShare (v.read (Elt F) (v.writes (Elt F) v.junk L)) := by
  iintro ⟨%f, H⟩
  unfold owns; iexists _; isplitr
  swap; · iexact H
  ipureintro; exact View.read_writes_of_cover _ _ _ _ _ h

/-- A run of the body framed: the invariant's rest, what the core owes and the inputs pass around it. -/
theorem bodyFrame (c : Dev nD) {α α0 α1 α2 α3 α4 α5 α6 : Type} {Φ P0 P1 P2 P3 P4 P5 P6 S S' QS R G O Q7 : sProp 𝕄} {P7 A7 B7 : α → sProp 𝕄}
    {e : Prog (TpuEff nD τ sig (Elt F) Λ₀ .tc) PUnit} (hΦ : Φ ⊢ iprop(iprop(S ∗ R) ∗ G))
    (run : ∀ d K, iprop(P0 ∗ P1 ∗ P2 ∗ P3 ∗ P4 ∗ P5 ∗ P6 ∗ A7 d ∗ S ∗ (iprop(P0 ∗ P1 ∗ P2 ∗ P3 ∗ P4 ∗ P5 ∗ P6 ∗ B7 d ∗ S') -∗ K ⟨⟩))
      ⊢ wp frame (wpE (defs₀ (F := F)) Variants.none c none) Set.univ e K)
    (hi : ∀ d, P7 d ⊢ A7 d) (ho : ∀ d, B7 d ⊢ Q7) (hS : S' ⊢ QS) :
    iprop(Φ ∗ O ∗ (∃ _ : α0, P0) ∗ (∃ _ : α1, P1) ∗ (∃ _ : α2, P2) ∗ (∃ _ : α3, P3) ∗ (∃ _ : α4, P4) ∗ (∃ _ : α5, P5) ∗ (∃ _ : α6, P6) ∗ ∃ d, P7 d)
      ⊢ wp frame (wpE (defs₀ (F := F)) Variants.none c none) Set.univ e fun _ =>
        iprop(iprop(iprop(QS ∗ R) ∗ G) ∗ O ∗ P0 ∗ P1 ∗ P2 ∗ P3 ∗ P4 ∗ P5 ∗ P6 ∗ Q7) := by
  refine (sep_mono_left hΦ).trans ?_
  iintro ⟨⟨⟨HS, HR⟩, HG⟩, HO, ⟨%_, H0⟩, ⟨%_, H1⟩, ⟨%_, H2⟩, ⟨%_, H3⟩, ⟨%_, H4⟩, ⟨%_, H5⟩, ⟨%_, H6⟩, ⟨%d, H7⟩⟩
  iapply run d
  iframe H0 H1 H2 H3 H4 H5 H6 HS
  isplitl [H7]; · iapply hi; iexact H7
  iintro ⟨H0, H1, H2, H3, H4, H5, H6, H7, HS⟩
  iframe HR HG HO H0 H1 H2 H3 H4 H5 H6
  isplitl [HS]; · iapply hS; iexact HS
  iapply ho; iexact H7

/-- A buffer some writes were stored into holds some contents. -/
theorem owns_some (c : Dev nD) {S : Shape} {e : EltTy} (m : Memref sig .tc .vmem S e) (L : List (View.Piece (Elt F) S e)) :
    (iprop(∃ f, m.view.loc c ↦[m.view.set]{fullShare} m.view.writes (Elt F) f L) : sProp 𝕄)
      ⊢ ∃ d, owns c m fullShare d := by
  iintro ⟨%f, H⟩
  iexists _; unfold owns; iexists _; isplitr
  swap; · iexact H
  ipureintro; rfl

end Cert.Kernel.Gen
-- ==== Proof.FrameK.Run0.lean ====
import proofs.«135515_j66743791780425_1_alg».proof.Proof.Gen.Kernel.Launch
import proofs.«135515_j66743791780425_1_alg».proof.Proof.Gen.Kernel.Skeleton
import proofs.«135515_j66743791780425_1_alg».proof.Proof.Gen.Kernel.Points
import proofs.«135515_j66743791780425_1_alg».proof.Proof.FrameK.Body
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))
theorem liveAt0 : ∀ (w : Fin cfg0.W) (t : Fin cfg0.N), cfg0.idle w (grid0.coords t) = false := by decide +kernel
abbrev VO0_7 : View sig .tc .vmem S1024x1024 .bf16 := (Memref.whole cc0_stg7_0 : Memref sig .tc .vmem S1024x1024 .bf16).view
abbrev ms0_0 (t : Fin cfg0.N) : Memref sig .tc .vmem S1024x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x784 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev scM0_0 : Memref sig .tc .vmem S1024x1024 .f32 := Memref.whole cc0_scratch0
abbrev VS0_0 : View sig .tc .vmem S1024x1024 .f32 := scM0_0.view
theorem PhiA0_eq (c : Dev nD) :
    (Pipeline.ΦA spec0 c : sProp 𝕄)
      = iprop(iprop(iprop((∃ d, owns c scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-- The only step: the accumulator is reset, the product added, and the epilogue of the sum stored to the output block. -/
def kernelRun0 (c : Dev nD) (i : grid0.Coords) (arg3 : Memref sig .tc .vmem S1024x784 .f32) (harg3 : arg3.IsWhole) (arg4 : Memref sig .tc .vmem S1024x784 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : cond0_0 i) (hc1 : cond0_1 i) (x0 : Vec F S1024x784 .f32) (x1 : Vec F S1024x784 .f32) (x2 : Vec F S1x1024 .f32) (x3 : Vec F S1x1024 .f32) (x4 : Vec F S1x1024 .f32) (x5 : Vec F S1x1024 .f32) (x6 : Vec F S1x1024 .f32) :
    Σ' (L7 : List (View.Piece (Elt F) S1024x1024 .bf16)), { LS0 : List (View.Piece (Elt F) S1024x1024 .f32) //
      ∀ (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ d, owns c arg10 fullShare d) ∗ (∃ d, owns c arg11 fullShare d)
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ f, arg10.view.loc c ↦[arg10.view.set]{fullShare} arg10.view.writes (Elt F) f L7) ∗ (∃ f, arg11.view.loc c ↦[arg11.view.set]{fullShare} arg11.view.writes (Elt F) f LS0)) -∗ K ⟨⟩))
          ⊢ wp frame (wpE (defs₀ (F := F)) Variants.none c none) E (cc0__bin_linear_bn_kernel i arg3 harg3 arg4 harg4 arg5 harg5 arg6 harg6 arg7 harg7 arg8 harg8 arg9 harg9 arg10 harg10 arg11 harg11) K } := by
  refine ⟨?_, ?_, fun E K => ?run⟩
  case run =>
    simp (disch := assumption) only [cc0__bin_linear_bn_kernel_eq_skeleton, owns_unread]; unfold cc0__bin_linear_bn_kernel_skel
    iintro ⟨H0, H1, H2, H3, H4, H5, H6, ⟨%d7, H7⟩, ⟨%ds0, HS0⟩, Hk⟩
    sl_exec (disch := first | exact hc0 | exact hc1)
    sl_step
    iapply Hk
    iframe
    isplitl [H7]; · iexists _; iexact H7
    iexists _; iexact HS0

end Cert.Kernel.Gen

end
-- ==== Proof.FrameK.Reg0.lean ====
import proofs.«135515_j66743791780425_1_alg».proof.Proof.FrameK.Run0
import proofs.«135515_j66743791780425_1_alg».proof.Proof.FrameK.Body

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Piece
variable (c : Dev nD) (i : grid0.Coords) (arg3 : Memref sig .tc .vmem S1024x784 .f32) (harg3 : arg3.IsWhole) (arg4 : Memref sig .tc .vmem S1024x784 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : cond0_0 i) (hc1 : cond0_1 i) (x0 x1 : Vec F S1024x784 .f32) (x2 x3 x4 x5 x6 : Vec F S1x1024 .f32)

theorem cover0_7 (y : S1024x1024.Idx) : ∃ pc ∈ (kernelRun0 c i arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL _ S1024x1024.size (by sl_kernel_rfl) y

def out0_7 : Vec F S1024x1024 .bf16 :=
  VO0_7.read (Elt F) (VO0_7.writes (Elt F) VO0_7.junk (kernelRun0 c i arg3 harg3 arg4 harg4 arg5 harg5 arg6 harg6 arg7 harg7 arg8 harg8 arg9 harg9 arg10 harg10 arg11 harg11 hc0 hc1 x0 x1 x2 x3 x4 x5 x6).1)

end Piece

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def outAt0 (c : Dev nD) (t : Fin cfg0.N) : Vec F S1024x1024 .bf16 :=
  out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (hcond0_0 t) (hcond0_1 t) (iblk0 V c 0 t) (iblk0 V c 1 t) (iblk0 V c 2 t) (iblk0 V c 3 t) (iblk0 V c 4 t) (iblk0 V c 5 t) (iblk0 V c 6 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = outAt0 V c t := by dsimp only [dat0]

theorem before0 (c : Dev nD) (t : Fin cfg0.N) : ∀ w : Fin cfg0.W, w ≠ 7 → ∀ d, (dat0 V c).before w t d = (dat0 V c).after w t
  | ⟨0, _⟩, _ | ⟨1, _⟩, _ | ⟨2, _⟩, _ | ⟨3, _⟩, _ | ⟨4, _⟩, _ | ⟨5, _⟩, _ | ⟨6, _⟩, _ => fun d =>
    ((dat0 V c).before_in_eq_fetched _ rfl (fun _ => rfl) (fun _ _ _ => rfl) (fun _ => rfl) t d).trans rfl
  | ⟨7, _⟩, h => absurd rfl h

set_option maxHeartbeats 4000000 in
theorem body_obligation0 (c : Dev nD) : BodyObligation (dat0 (F := F) V c) (defs₀ (F := F)) Variants.none () Set.univ := fun t => by
  rw [bigSep_W0, bigSep_W0]
  simp only [before0 V c t 0 (by decide), before0 V c t 1 (by decide), before0 V c t 2 (by decide), before0 V c t 3 (by decide), before0 V c t 4 (by decide), before0 V c t 5 (by decide), before0 V c t 6 (by decide), show idle0 7 (grid0.coords t) = false from liveAt0 7 t, after0_7]
  rw [show (dat0 V c).Φ t.succ = Pipeline.ΦA spec0 c from rfl, PhiA0_eq]
  unfold outAt0 out0_7
  exact bodyFrame c (.of_eq (PhiA0_eq c)) (fun d K => (kernelRun0 c (grid0.coords t) _ _ _ _ _ _ _ _ _ _ _ _ _ _ _ _ _ _ (hcond0_0 t) (hcond0_1 t) _ _ _ _ _ _ _).2.2 Set.univ K)
    (fun _ => exists_intro _) (fun _ => owns_writes c _ _ _ (cover0_7 c _ _ _ _ _ _ _ _ _ _ _ _ _ _ _ _ _ _ _ _ _ _ _ _ _ _ _ _)) (owns_some c _ _)

theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := Idealize.SL.BI.Entails.refl _

end Region

end Cert.Kernel.Gen

end
-- ==== Proof.FrameK.Run1.lean ====
import proofs.«135515_j66743791780425_1_alg».proof.Proof.Gen.Kernel.Launch
import proofs.«135515_j66743791780425_1_alg».proof.Proof.Gen.Kernel.Skeleton
import proofs.«135515_j66743791780425_1_alg».proof.Proof.Gen.Kernel.Points
import proofs.«135515_j66743791780425_1_alg».proof.Proof.FrameK.Body
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel
abbrev VO1_7 : View sig .tc .vmem S1024x1024 .bf16 := (Memref.whole cc1_stg7_0 : Memref sig .tc .vmem S1024x1024 .bf16).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .bf16 := win1_7.stage (cfg1.slots t 7)
abbrev hs1_7 (t : Fin cfg1.N) : (ms1_7 t).IsWhole := hstage1_7 ((cfg1.slots t 7).cast nbuf1_7)
abbrev scM1_0 : Memref sig .tc .vmem S1024x1024 .f32 := Memref.whole cc1_scratch0
abbrev VS1_0 : View sig .tc .vmem S1024x1024 .f32 := scM1_0.view
theorem PhiA1_eq (c : Dev nD) :
    (Pipeline.ΦA spec1 c : sProp 𝕄)
      = iprop(iprop(iprop((∃ d, owns c scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

section
variable (c : Dev nD) (i : grid1.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)

section
variable (hc0 : cond1_0 i) (hc1 : ¬cond1_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32)
/-- A first reduction step: the accumulator is reset and the step's product added; the output block is handed back. -/
def kernelRun1_A :
    Σ' (L7 : List (View.Piece (Elt F) S1024x1024 .bf16)), { LS0 : List (View.Piece (Elt F) S1024x1024 .f32) //
      ∀ (xi7 : Vec F S1024x1024 .bf16) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ d, owns c arg11 fullShare d)
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ f, arg11.view.loc c ↦[arg11.view.set]{fullShare} arg11.view.writes (Elt F) f LS0)) -∗ K ⟨⟩))
          ⊢ wp frame (wpE (defs₀ (F := F)) Variants.none c none) E (cc1__bin_linear_bn_kernel i arg3 harg3 arg4 harg4 arg5 harg5 arg6 harg6 arg7 harg7 arg8 harg8 arg9 harg9 arg10 harg10 arg11 harg11) K } := by
  refine ⟨[], ?_, fun xi7 E K => ?run⟩
  case run =>
    simp (disch := assumption) only [cc1__bin_linear_bn_kernel_eq_skeleton, owns_unread]; unfold cc1__bin_linear_bn_kernel_skel
    iintro ⟨H0, H1, H2, H3, H4, H5, H6, H7, ⟨%ds0, HS0⟩, Hk⟩
    sl_exec (disch := first | exact hc0 | exact hc1)
    sl_step
    iapply Hk
    iframe
    iexists _; iexact HS0
end

variable (hc0 : ¬cond1_0 i)

section
variable (hc1 : ¬cond1_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32) (xs0 : Vec F S1024x1024 .f32)
/-- A middle step: one more product is added to the accumulator. -/
def kernelRun1_B :
    Σ' (L7 : List (View.Piece (Elt F) S1024x1024 .bf16)), { LS0 : List (View.Piece (Elt F) S1024x1024 .f32) //
      ∀ (xi7 : Vec F S1024x1024 .bf16) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ owns c arg11 fullShare xs0
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ f, arg11.view.loc c ↦[arg11.view.set]{fullShare} arg11.view.writes (Elt F) f LS0)) -∗ K ⟨⟩))
          ⊢ wp frame (wpE (defs₀ (F := F)) Variants.none c none) E (cc1__bin_linear_bn_kernel i arg3 harg3 arg4 harg4 arg5 harg5 arg6 harg6 arg7 harg7 arg8 harg8 arg9 harg9 arg10 harg10 arg11 harg11) K } := by
  refine ⟨[], ?_, fun xi7 E K => ?run⟩
  case run =>
    simp (disch := assumption) only [cc1__bin_linear_bn_kernel_eq_skeleton, owns_unread]; unfold cc1__bin_linear_bn_kernel_skel
    iintro ⟨H0, H1, H2, H3, H4, H5, H6, H7, HS0, Hk⟩
    sl_exec (disch := first | exact hc0 | exact hc1)
    sl_step
    iapply Hk
    iframe
    iexists _; iexact HS0
end

variable (hc1 : cond1_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32) (xs0 : Vec F S1024x1024 .f32)
/-- The last step: the last product is added and the epilogue of the finished sum stored to the output block. -/
def kernelRun1_C :
    Σ' (L7 : List (View.Piece (Elt F) S1024x1024 .bf16)), { LS0 : List (View.Piece (Elt F) S1024x1024 .f32) //
      ∀ (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ d, owns c arg10 fullShare d) ∗ owns c arg11 fullShare xs0
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ f, arg10.view.loc c ↦[arg10.view.set]{fullShare} arg10.view.writes (Elt F) f L7) ∗ (∃ f, arg11.view.loc c ↦[arg11.view.set]{fullShare} arg11.view.writes (Elt F) f LS0)) -∗ K ⟨⟩))
          ⊢ wp frame (wpE (defs₀ (F := F)) Variants.none c none) E (cc1__bin_linear_bn_kernel i arg3 harg3 arg4 harg4 arg5 harg5 arg6 harg6 arg7 harg7 arg8 harg8 arg9 harg9 arg10 harg10 arg11 harg11) K } := by
  refine ⟨?_, ?_, fun E K => ?run⟩
  case run =>
    simp (disch := assumption) only [cc1__bin_linear_bn_kernel_eq_skeleton, owns_unread]; unfold cc1__bin_linear_bn_kernel_skel
    iintro ⟨H0, H1, H2, H3, H4, H5, H6, ⟨%d7, H7⟩, HS0, Hk⟩
    sl_exec (disch := first | exact hc0 | exact hc1)
    sl_step
    iapply Hk
    iframe
    isplitl [H7]; · iexists _; iexact H7
    iexists _; iexact HS0
end

end Cert.Kernel.Gen

end
-- ==== Proof.FrameK.Reg1.lean ====
import proofs.«135515_j66743791780425_1_alg».proof.Proof.FrameK.Run1
import proofs.«135515_j66743791780425_1_alg».proof.Proof.FrameK.Body

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces
variable (c : Dev nD) (i : grid1.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)

section
variable (hc0 : cond1_0 i) (hc1 : ¬cond1_1 i) (x0 : Vec F S1024x512 .bf16) (x1 : Vec F S1024x512 .f32) (x2 x3 x4 x5 x6 : Vec F S1x1024 .f32)

def out1_A_7 : Vec F S1024x1024 .bf16 :=
  VO1_7.read (Elt F) (VO1_7.writes (Elt F) VO1_7.junk (kernelRun1_A c i arg3 harg3 arg4 harg4 arg5 harg5 arg6 harg6 arg7 harg7 arg8 harg8 arg9 harg9 arg10 harg10 arg11 harg11 hc0 hc1 x0 x1 x2 x3 x4 x5 x6).1)

theorem scover1_A_0 (y : S1024x1024.Idx) : ∃ pc ∈ (kernelRun1_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL _ S1024x1024.size (by sl_kernel_rfl) y

def sout1_A_0 : Vec F S1024x1024 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4 x5 x6).2.1)

end

section
variable (hc0 : ¬cond1_0 i) (hc1 : ¬cond1_1 i) (x0 : Vec F S1024x512 .bf16) (x1 : Vec F S1024x512 .f32) (x2 x3 x4 x5 x6 : Vec F S1x1024 .f32) (xs0 : Vec F S1024x1024 .f32)

def out1_B_7 : Vec F S1024x1024 .bf16 :=
  VO1_7.read (Elt F) (VO1_7.writes (Elt F) VO1_7.junk (kernelRun1_B c i arg3 harg3 arg4 harg4 arg5 harg5 arg6 harg6 arg7 harg7 arg8 harg8 arg9 harg9 arg10 harg10 arg11 harg11 hc0 hc1 x0 x1 x2 x3 x4 x5 x6 xs0).1)

theorem scover1_B_0 (y : S1024x1024.Idx) : ∃ pc ∈ (kernelRun1_B c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL _ S1024x1024.size (by sl_kernel_rfl) y

def sout1_B_0 : Vec F S1024x1024 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 x5 x6 xs0).2.1)

end

section
variable (hc0 : ¬cond1_0 i) (hc1 : cond1_1 i) (x0 : Vec F S1024x512 .bf16) (x1 : Vec F S1024x512 .f32) (x2 x3 x4 x5 x6 : Vec F S1x1024 .f32) (xs0 : Vec F S1024x1024 .f32)

theorem cover1_C_7 (y : S1024x1024.Idx) : ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL _ S1024x1024.size (by sl_kernel_rfl) y

def out1_C_7 : Vec F S1024x1024 .bf16 :=
  VO1_7.read (Elt F) (VO1_7.writes (Elt F) VO1_7.junk (kernelRun1_C c i arg3 harg3 arg4 harg4 arg5 harg5 arg6 harg6 arg7 harg7 arg8 harg8 arg9 harg9 arg10 harg10 arg11 harg11 hc0 hc1 x0 x1 x2 x3 x4 x5 x6 xs0).1)

theorem scover1_C_0 (y : S1024x1024.Idx) : ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL _ S1024x1024.size (by sl_kernel_rfl) y

def sout1_C_0 : Vec F S1024x1024 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 x5 x6 xs0).2.1)

end

end Pieces

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves at point `t` in a first, a middle and the last reduction step: the output block, then the accumulator. -/
abbrev pairA1 (c : Dev nD) (t : Fin cfg1.N) (hc0 : cond1_0 (grid1.coords t)) (hc1 : ¬cond1_1 (grid1.coords t)) : Vec F S1024x1024 .bf16 × Vec F S1024x1024 .f32 :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t))

abbrev pairB1 (c : Dev nD) (t : Fin cfg1.N) (hc0 : ¬cond1_0 (grid1.coords t)) (hc1 : ¬cond1_1 (grid1.coords t)) (xs0 : Vec F S1024x1024 .f32) : Vec F S1024x1024 .bf16 × Vec F S1024x1024 .f32 :=
  (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t) xs0, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t) xs0)

abbrev pairC1 (c : Dev nD) (t : Fin cfg1.N) (hc0 : ¬cond1_0 (grid1.coords t)) (hc1 : cond1_1 (grid1.coords t)) (xs0 : Vec F S1024x1024 .f32) : Vec F S1024x1024 .bf16 × Vec F S1024x1024 .f32 :=
  (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t) xs0, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t) xs0)

/-- The accumulation: the case the position's residue modulo 12 selects, over the accumulator the position before left. -/
def outsAt1 (c : Dev nD) : (n : ℕ) → n < cfg1.N → Vec F S1024x1024 .bf16 × Vec F S1024x1024 .f32
  | 0, hn => pairA1 V c ⟨0, hn⟩ ((hcond1_0 ⟨0, hn⟩).mpr (Nat.zero_mod _)) fun h => (by omega : ¬0 % 12 = 11) ((hcond1_1 ⟨0, hn⟩).mp h)
  | n + 1, hn =>
    if h1 : (n + 1) % 12 = 11 then
      pairC1 V c ⟨n + 1, hn⟩ (fun h => by have : (n + 1) % 12 = 0 := (hcond1_0 ⟨n + 1, hn⟩).mp h; omega) ((hcond1_1 ⟨n + 1, hn⟩).mpr h1) (outsAt1 c n (Nat.lt_of_succ_lt hn)).2
    else if h0 : (n + 1) % 12 = 0 then
      pairA1 V c ⟨n + 1, hn⟩ ((hcond1_0 ⟨n + 1, hn⟩).mpr h0) fun h => h1 ((hcond1_1 ⟨n + 1, hn⟩).mp h)
    else
      pairB1 V c ⟨n + 1, hn⟩ (fun h => h0 ((hcond1_0 ⟨n + 1, hn⟩).mp h)) (fun h => h1 ((hcond1_1 ⟨n + 1, hn⟩).mp h)) (outsAt1 c n (Nat.lt_of_succ_lt hn)).2

theorem outsAt1_A (c : Dev nD) (t : Fin cfg1.N) (h0 : t.val % 12 = 0) (h1 : ¬t.val % 12 = 11) :
    outsAt1 V c t.val t.isLt = pairA1 V c t ((hcond1_0 t).mpr h0) (fun h => h1 ((hcond1_1 t).mp h)) := by
  obtain ⟨_ | n, hn⟩ := t
  exacts [rfl, (dif_neg h1).trans (dif_pos h0)]

theorem outsAt1_B (c : Dev nD) (t : Fin cfg1.N) (h0 : ¬t.val % 12 = 0) (h1 : ¬t.val % 12 = 11) :
    outsAt1 V c t.val t.isLt = pairB1 V c t (fun h => h0 ((hcond1_0 t).mp h)) (fun h => h1 ((hcond1_1 t).mp h)) (outsAt1 V c (t.val - 1) (Nat.lt_of_le_of_lt (Nat.sub_le _ _) t.isLt)).2 := by
  obtain ⟨_ | n, hn⟩ := t
  exacts [absurd (Nat.zero_mod _) h0, (dif_neg h1).trans (dif_neg h0)]

theorem outsAt1_C (c : Dev nD) (t : Fin cfg1.N) (h0 : ¬t.val % 12 = 0) (h1 : t.val % 12 = 11) :
    outsAt1 V c t.val t.isLt = pairC1 V c t (fun h => h0 ((hcond1_0 t).mp h)) ((hcond1_1 t).mpr h1) (outsAt1 V c (t.val - 1) (Nat.lt_of_le_of_lt (Nat.sub_le _ _) t.isLt)).2 := by
  obtain ⟨_ | n, hn⟩ := t
  exacts [absurd (Nat.zero_mod _) h0, dif_pos h1]

/-- The invariant with the accumulator's part `P`, beside everything else the region holds. -/
abbrev accInv1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

/-- Before the first point what the launch hands over; afterwards the accumulator at what the position before left. -/
def PhiS1 (c : Dev nD) : (n : ℕ) → n ≤ cfg1.N → sProp 𝕄
  | 0, _ => Pipeline.ΦA spec1 c
  | n + 1, hn => accInv1 c (owns (c : Thread nD τ) scM1_0 fullShare (outsAt1 V c n hn).2)

theorem PhiS1_pos (c : Dev nD) (n : ℕ) (h : n ≤ cfg1.N) (hz : n ≠ 0) :
    PhiS1 V c n h = accInv1 c (owns (c : Thread nD τ) scM1_0 fullShare (outsAt1 V c (n - 1) (by omega)).2) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = (outsAt1 V c t.val t.isLt).1 := by dsimp only [dat1]

/-- An input window holds its block at every point, and the body leaves it so. -/
theorem before1 (c : Dev nD) (t : Fin cfg1.N) : ∀ w : Fin cfg1.W, w ≠ 7 → ∀ d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ => fun d =>
    ((dat1 V c).before_in_eq_fetched _ rfl (fun _ => rfl) (fun _ _ _ => rfl) (fun _ => rfl) t d).trans rfl
  | ⟨7, _⟩, h => absurd rfl h

/-- After any point the invariant gives back what the launch handed over: the accumulator's named contents are forgotten. -/
theorem Phi_out1 (c : Dev nD) : ∀ t : Fin (cfg1.N + 1), (dat1 V c).Φ t ⊢ Pipeline.ΦA spec1 c
  | ⟨0, _⟩ => .rfl
  | ⟨n + 1, _⟩ => by rw [PhiA1_eq]; exact sep_mono (sep_mono (exists_intro _) .rfl) .rfl

theorem hin1 (c : Dev nD) : Pipeline.ΦA spec1 c ⊢ (dat1 V c).Φ 0 := .rfl

theorem hout1 (c : Dev nD) : (dat1 V c).Φ (Fin.last cfg1.N) ⊢ Pipeline.ΦA spec1 c := Phi_out1 V c _

set_option maxHeartbeats 4800000 in
/-- The body at any point: the position's residue modulo 12 selects the case whose run applies. -/
theorem body_obligation1 (c : Dev nD) : BodyObligation (dat1 (F := F) V c) (defs₀ (F := F)) Variants.none () Set.univ := fun t => by
  rw [bigSep_W1, bigSep_W1]
  simp only [before1 V c t 0 (by decide), before1 V c t 1 (by decide), before1 V c t 2 (by decide), before1 V c t 3 (by decide), before1 V c t 4 (by decide), before1 V c t 5 (by decide), before1 V c t 6 (by decide)]
  rw [show (dat1 V c).Φ t.succ = accInv1 c (owns (c : Thread nD τ) scM1_0 fullShare (outsAt1 V c t.val t.isLt).2) from rfl]
  by_cases h0 : t.val % 12 = 0
  · have h1 : ¬t.val % 12 = 11 := by omega
    have hc0 := (hcond1_0 t).mpr h0
    have hc1 : ¬cond1_1 (grid1.coords t) := fun h => h1 ((hcond1_1 t).mp h)
    simp only [show idle1 7 (grid1.coords t) = true from idleAt1_7_A t hc0 hc1, show (win1 7).flush t = false from noFlush1_7_A t hc0 hc1]
    rw [outsAt1_A V c t h0 h1]
    dsimp only [pairA1, sout1_A_0]
    exact bodyFrame c ((Phi_out1 V c _).trans (.of_eq (PhiA1_eq c)))
      (fun d K => (kernelRun1_A c (grid1.coords t) _ _ _ _ _ _ _ _ _ _ _ _ _ _ _ _ _ _ hc0 hc1 _ _ _ _ _ _ _).2.2 ((dat1 V c).before 7 t d) Set.univ K)
      (fun _ => .rfl) (fun d => exists_intro_trans d .rfl) (owns_writes c _ _ _ (scover1_A_0 c _ _ _ _ _ _ _ _ _ _ _ _ _ _ _ _ _ _ _ hc0 hc1 _ _ _ _ _ _ _))
  · have hΦ := PhiS1_pos V c t.val (Nat.le_of_lt t.isLt) fun h => h0 (by rw [h])
    have hc0 : ¬cond1_0 (grid1.coords t) := fun h => h0 ((hcond1_0 t).mp h)
    by_cases h1 : t.val % 12 = 11
    · have hc1 := (hcond1_1 t).mpr h1
      simp only [show idle1 7 (grid1.coords t) = false from liveAt1_7_C t hc0 hc1, after1_7]
      rw [outsAt1_C V c t h0 h1]
      dsimp only [pairC1, out1_C_7, sout1_C_0]
      exact bodyFrame c (.of_eq hΦ) (fun d K => (kernelRun1_C c (grid1.coords t) _ _ _ _ _ _ _ _ _ _ _ _ _ _ _ _ _ _ hc0 hc1 _ _ _ _ _ _ _ _).2.2 Set.univ K)
        (fun _ => exists_intro _) (fun _ => owns_writes c _ _ _ (cover1_C_7 c _ _ _ _ _ _ _ _ _ _ _ _ _ _ _ _ _ _ _ hc0 hc1 _ _ _ _ _ _ _ _))
        (owns_writes c _ _ _ (scover1_C_0 c _ _ _ _ _ _ _ _ _ _ _ _ _ _ _ _ _ _ _ hc0 hc1 _ _ _ _ _ _ _ _))
    · have hc1 : ¬cond1_1 (grid1.coords t) := fun h => h1 ((hcond1_1 t).mp h)
      simp only [show idle1 7 (grid1.coords t) = true from idleAt1_7_B t hc0 hc1, show (win1 7).flush t = false from noFlush1_7_B t hc0 hc1]
      rw [outsAt1_B V c t h0 h1]
      dsimp only [pairB1, sout1_B_0]
      exact bodyFrame c (.of_eq hΦ) (fun d K => (kernelRun1_B c (grid1.coords t) _ _ _ _ _ _ _ _ _ _ _ _ _ _ _ _ _ _ hc0 hc1 _ _ _ _ _ _ _ _).2.2 ((dat1 V c).before 7 t d) Set.univ K)
        (fun _ => .rfl) (fun d => exists_intro_trans d .rfl) (owns_writes c _ _ _ (scover1_B_0 c _ _ _ _ _ _ _ _ _ _ _ _ _ _ _ _ _ _ _ hc0 hc1 _ _ _ _ _ _ _ _))

end Region

end Cert.Kernel.Gen

end
-- ==== Proof.FrameK.Run2.lean ====
import proofs.«135515_j66743791780425_1_alg».proof.Proof.Gen.Kernel.Launch
import proofs.«135515_j66743791780425_1_alg».proof.Proof.Gen.Kernel.Skeleton
import proofs.«135515_j66743791780425_1_alg».proof.Proof.Gen.Kernel.Points
import proofs.«135515_j66743791780425_1_alg».proof.Proof.FrameK.Body
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)
abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem idleAt2_7_A : ∀ t : Fin cfg2.N, cond2_0 (grid2.coords t) → ¬cond2_1 (grid2.coords t) → cfg2.idle 7 (grid2.coords t) = true := by decide +kernel
theorem noFlush2_7_A : ∀ t : Fin cfg2.N, cond2_0 (grid2.coords t) → ¬cond2_1 (grid2.coords t) → (cfg2.win 7).flush t = false := by decide +kernel
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
theorem liveAt2_7_C : ∀ t : Fin cfg2.N, ¬cond2_0 (grid2.coords t) → cond2_1 (grid2.coords t) → cfg2.idle 7 (grid2.coords t) = false := by decide +kernel
abbrev VO2_7 : View sig .tc .vmem S1024x1024 .bf16 := (Memref.whole cc2_stg7_0 : Memref sig .tc .vmem S1024x1024 .bf16).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x1024 .bf16 := win2_7.stage (cfg2.slots t 7)
abbrev hs2_7 (t : Fin cfg2.N) : (ms2_7 t).IsWhole := hstage2_7 ((cfg2.slots t 7).cast nbuf2_7)
abbrev scM2_0 : Memref sig .tc .vmem S1024x1024 .f32 := Memref.whole cc2_scratch0
abbrev VS2_0 : View sig .tc .vmem S1024x1024 .f32 := scM2_0.view
theorem PhiA2_eq (c : Dev nD) :
    (Pipeline.ΦA spec2 c : sProp 𝕄)
      = iprop(iprop(iprop((∃ d, owns c scM2_0 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

section
variable (c : Dev nD) (i : grid2.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)

section
variable (hc0 : cond2_0 i) (hc1 : ¬cond2_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32)
/-- A first reduction step: the accumulator is reset and the step's product added; the output block is handed back. -/
def kernelRun2_A :
    Σ' (L7 : List (View.Piece (Elt F) S1024x1024 .bf16)), { LS0 : List (View.Piece (Elt F) S1024x1024 .f32) //
      ∀ (xi7 : Vec F S1024x1024 .bf16) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ d, owns c arg11 fullShare d)
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ f, arg11.view.loc c ↦[arg11.view.set]{fullShare} arg11.view.writes (Elt F) f LS0)) -∗ K ⟨⟩))
          ⊢ wp frame (wpE (defs₀ (F := F)) Variants.none c none) E (cc2__bin_linear_bn_kernel i arg3 harg3 arg4 harg4 arg5 harg5 arg6 harg6 arg7 harg7 arg8 harg8 arg9 harg9 arg10 harg10 arg11 harg11) K } := by
  refine ⟨[], ?_, fun xi7 E K => ?run⟩
  case run =>
    simp (disch := assumption) only [cc2__bin_linear_bn_kernel_eq_skeleton, owns_unread]; unfold cc2__bin_linear_bn_kernel_skel
    iintro ⟨H0, H1, H2, H3, H4, H5, H6, H7, ⟨%ds0, HS0⟩, Hk⟩
    sl_exec (disch := first | exact hc0 | exact hc1)
    sl_step
    iapply Hk
    iframe
    iexists _; iexact HS0
end

variable (hc0 : ¬cond2_0 i)

section
variable (hc1 : ¬cond2_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32) (xs0 : Vec F S1024x1024 .f32)
/-- A middle step: one more product is added to the accumulator. -/
def kernelRun2_B :
    Σ' (L7 : List (View.Piece (Elt F) S1024x1024 .bf16)), { LS0 : List (View.Piece (Elt F) S1024x1024 .f32) //
      ∀ (xi7 : Vec F S1024x1024 .bf16) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ owns c arg11 fullShare xs0
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ f, arg11.view.loc c ↦[arg11.view.set]{fullShare} arg11.view.writes (Elt F) f LS0)) -∗ K ⟨⟩))
          ⊢ wp frame (wpE (defs₀ (F := F)) Variants.none c none) E (cc2__bin_linear_bn_kernel i arg3 harg3 arg4 harg4 arg5 harg5 arg6 harg6 arg7 harg7 arg8 harg8 arg9 harg9 arg10 harg10 arg11 harg11) K } := by
  refine ⟨[], ?_, fun xi7 E K => ?run⟩
  case run =>
    simp (disch := assumption) only [cc2__bin_linear_bn_kernel_eq_skeleton, owns_unread]; unfold cc2__bin_linear_bn_kernel_skel
    iintro ⟨H0, H1, H2, H3, H4, H5, H6, H7, HS0, Hk⟩
    sl_exec (disch := first | exact hc0 | exact hc1)
    sl_step
    iapply Hk
    iframe
    iexists _; iexact HS0
end

variable (hc1 : cond2_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32) (xs0 : Vec F S1024x1024 .f32)
/-- The last step: the last product is added and the epilogue of the finished sum stored to the output block. -/
def kernelRun2_C :
    Σ' (L7 : List (View.Piece (Elt F) S1024x1024 .bf16)), { LS0 : List (View.Piece (Elt F) S1024x1024 .f32) //
      ∀ (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ d, owns c arg10 fullShare d) ∗ owns c arg11 fullShare xs0
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ f, arg10.view.loc c ↦[arg10.view.set]{fullShare} arg10.view.writes (Elt F) f L7) ∗ (∃ f, arg11.view.loc c ↦[arg11.view.set]{fullShare} arg11.view.writes (Elt F) f LS0)) -∗ K ⟨⟩))
          ⊢ wp frame (wpE (defs₀ (F := F)) Variants.none c none) E (cc2__bin_linear_bn_kernel i arg3 harg3 arg4 harg4 arg5 harg5 arg6 harg6 arg7 harg7 arg8 harg8 arg9 harg9 arg10 harg10 arg11 harg11) K } := by
  refine ⟨?_, ?_, fun E K => ?run⟩
  case run =>
    simp (disch := assumption) only [cc2__bin_linear_bn_kernel_eq_skeleton, owns_unread]; unfold cc2__bin_linear_bn_kernel_skel
    iintro ⟨H0, H1, H2, H3, H4, H5, H6, ⟨%d7, H7⟩, HS0, Hk⟩
    sl_exec (disch := first | exact hc0 | exact hc1)
    sl_step
    iapply Hk
    iframe
    isplitl [H7]; · iexists _; iexact H7
    iexists _; iexact HS0
end

end Cert.Kernel.Gen

end
-- ==== Proof.FrameK.Reg2.lean ====
import proofs.«135515_j66743791780425_1_alg».proof.Proof.FrameK.Run2
import proofs.«135515_j66743791780425_1_alg».proof.Proof.FrameK.Body

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces
variable (c : Dev nD) (i : grid2.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)

section
variable (hc0 : cond2_0 i) (hc1 : ¬cond2_1 i) (x0 : Vec F S1024x512 .bf16) (x1 : Vec F S1024x512 .f32) (x2 x3 x4 x5 x6 : Vec F S1x1024 .f32)

def out2_A_7 : Vec F S1024x1024 .bf16 :=
  VO2_7.read (Elt F) (VO2_7.writes (Elt F) VO2_7.junk (kernelRun2_A c i arg3 harg3 arg4 harg4 arg5 harg5 arg6 harg6 arg7 harg7 arg8 harg8 arg9 harg9 arg10 harg10 arg11 harg11 hc0 hc1 x0 x1 x2 x3 x4 x5 x6).1)

theorem scover2_A_0 (y : S1024x1024.Idx) : ∃ pc ∈ (kernelRun2_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL _ S1024x1024.size (by sl_kernel_rfl) y

def sout2_A_0 : Vec F S1024x1024 .f32 :=
  VS2_0.read (Elt F) (VS2_0.writes (Elt F) VS2_0.junk (kernelRun2_A c i arg3 harg3 arg4 harg4 arg5 harg5 arg6 harg6 arg7 harg7 arg8 harg8 arg9 harg9 arg10 harg10 arg11 harg11 hc0 hc1 x0 x1 x2 x3 x4 x5 x6).2.1)

end

section
variable (hc0 : ¬cond2_0 i) (hc1 : ¬cond2_1 i) (x0 : Vec F S1024x512 .bf16) (x1 : Vec F S1024x512 .f32) (x2 x3 x4 x5 x6 : Vec F S1x1024 .f32) (xs0 : Vec F S1024x1024 .f32)

def out2_B_7 : Vec F S1024x1024 .bf16 :=
  VO2_7.read (Elt F) (VO2_7.writes (Elt F) VO2_7.junk (kernelRun2_B c i arg3 harg3 arg4 harg4 arg5 harg5 arg6 harg6 arg7 harg7 arg8 harg8 arg9 harg9 arg10 harg10 arg11 harg11 hc0 hc1 x0 x1 x2 x3 x4 x5 x6 xs0).1)

theorem scover2_B_0 (y : S1024x1024.Idx) : ∃ pc ∈ (kernelRun2_B c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL _ S1024x1024.size (by sl_kernel_rfl) y

def sout2_B_0 : Vec F S1024x1024 .f32 :=
  VS2_0.read (Elt F) (VS2_0.writes (Elt F) VS2_0.junk (kernelRun2_B c i arg3 harg3 arg4 harg4 arg5 harg5 arg6 harg6 arg7 harg7 arg8 harg8 arg9 harg9 arg10 harg10 arg11 harg11 hc0 hc1 x0 x1 x2 x3 x4 x5 x6 xs0).2.1)

end

section
variable (hc0 : ¬cond2_0 i) (hc1 : cond2_1 i) (x0 : Vec F S1024x512 .bf16) (x1 : Vec F S1024x512 .f32) (x2 x3 x4 x5 x6 : Vec F S1x1024 .f32) (xs0 : Vec F S1024x1024 .f32)

theorem cover2_C_7 (y : S1024x1024.Idx) : ∃ pc ∈ (kernelRun2_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL _ S1024x1024.size (by sl_kernel_rfl) y

def out2_C_7 : Vec F S1024x1024 .bf16 :=
  VO2_7.read (Elt F) (VO2_7.writes (Elt F) VO2_7.junk (kernelRun2_C c i arg3 harg3 arg4 harg4 arg5 harg5 arg6 harg6 arg7 harg7 arg8 harg8 arg9 harg9 arg10 harg10 arg11 harg11 hc0 hc1 x0 x1 x2 x3 x4 x5 x6 xs0).1)

theorem scover2_C_0 (y : S1024x1024.Idx) : ∃ pc ∈ (kernelRun2_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL _ S1024x1024.size (by sl_kernel_rfl) y

def sout2_C_0 : Vec F S1024x1024 .f32 :=
  VS2_0.read (Elt F) (VS2_0.writes (Elt F) VS2_0.junk (kernelRun2_C c i arg3 harg3 arg4 harg4 arg5 harg5 arg6 harg6 arg7 harg7 arg8 harg8 arg9 harg9 arg10 harg10 arg11 harg11 hc0 hc1 x0 x1 x2 x3 x4 x5 x6 xs0).2.1)

end

end Pieces

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves at point `t` in a first, a middle and the last reduction step: the output block, then the accumulator. -/
abbrev pairA2 (c : Dev nD) (t : Fin cfg2.N) (hc0 : cond2_0 (grid2.coords t)) (hc1 : ¬cond2_1 (grid2.coords t)) : Vec F S1024x1024 .bf16 × Vec F S1024x1024 .f32 :=
  (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t))

abbrev pairB2 (c : Dev nD) (t : Fin cfg2.N) (hc0 : ¬cond2_0 (grid2.coords t)) (hc1 : ¬cond2_1 (grid2.coords t)) (xs0 : Vec F S1024x1024 .f32) : Vec F S1024x1024 .bf16 × Vec F S1024x1024 .f32 :=
  (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t) xs0, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t) xs0)

abbrev pairC2 (c : Dev nD) (t : Fin cfg2.N) (hc0 : ¬cond2_0 (grid2.coords t)) (hc1 : cond2_1 (grid2.coords t)) (xs0 : Vec F S1024x1024 .f32) : Vec F S1024x1024 .bf16 × Vec F S1024x1024 .f32 :=
  (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t) xs0, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t) xs0)

/-- The accumulation: the case the position's residue modulo 12 selects, over the accumulator the position before left. -/
def outsAt2 (c : Dev nD) : (n : ℕ) → n < cfg2.N → Vec F S1024x1024 .bf16 × Vec F S1024x1024 .f32
  | 0, hn => pairA2 V c ⟨0, hn⟩ ((hcond2_0 ⟨0, hn⟩).mpr (Nat.zero_mod _)) fun h => (by omega : ¬0 % 12 = 11) ((hcond2_1 ⟨0, hn⟩).mp h)
  | n + 1, hn =>
    if h1 : (n + 1) % 12 = 11 then
      pairC2 V c ⟨n + 1, hn⟩ (fun h => by have : (n + 1) % 12 = 0 := (hcond2_0 ⟨n + 1, hn⟩).mp h; omega) ((hcond2_1 ⟨n + 1, hn⟩).mpr h1) (outsAt2 c n (Nat.lt_of_succ_lt hn)).2
    else if h0 : (n + 1) % 12 = 0 then
      pairA2 V c ⟨n + 1, hn⟩ ((hcond2_0 ⟨n + 1, hn⟩).mpr h0) fun h => h1 ((hcond2_1 ⟨n + 1, hn⟩).mp h)
    else
      pairB2 V c ⟨n + 1, hn⟩ (fun h => h0 ((hcond2_0 ⟨n + 1, hn⟩).mp h)) (fun h => h1 ((hcond2_1 ⟨n + 1, hn⟩).mp h)) (outsAt2 c n (Nat.lt_of_succ_lt hn)).2

theorem outsAt2_A (c : Dev nD) (t : Fin cfg2.N) (h0 : t.val % 12 = 0) (h1 : ¬t.val % 12 = 11) :
    outsAt2 V c t.val t.isLt = pairA2 V c t ((hcond2_0 t).mpr h0) (fun h => h1 ((hcond2_1 t).mp h)) := by
  obtain ⟨_ | n, hn⟩ := t
  exacts [rfl, (dif_neg h1).trans (dif_pos h0)]

theorem outsAt2_B (c : Dev nD) (t : Fin cfg2.N) (h0 : ¬t.val % 12 = 0) (h1 : ¬t.val % 12 = 11) :
    outsAt2 V c t.val t.isLt = pairB2 V c t (fun h => h0 ((hcond2_0 t).mp h)) (fun h => h1 ((hcond2_1 t).mp h)) (outsAt2 V c (t.val - 1) (Nat.lt_of_le_of_lt (Nat.sub_le _ _) t.isLt)).2 := by
  obtain ⟨_ | n, hn⟩ := t
  exacts [absurd (Nat.zero_mod _) h0, (dif_neg h1).trans (dif_neg h0)]

theorem outsAt2_C (c : Dev nD) (t : Fin cfg2.N) (h0 : ¬t.val % 12 = 0) (h1 : t.val % 12 = 11) :
    outsAt2 V c t.val t.isLt = pairC2 V c t (fun h => h0 ((hcond2_0 t).mp h)) ((hcond2_1 t).mpr h1) (outsAt2 V c (t.val - 1) (Nat.lt_of_le_of_lt (Nat.sub_le _ _) t.isLt)).2 := by
  obtain ⟨_ | n, hn⟩ := t
  exacts [absurd (Nat.zero_mod _) h0, dif_pos h1]

/-- The invariant with the accumulator's part `P`, beside everything else the region holds. -/
abbrev accInv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

/-- Before the first point what the launch hands over; afterwards the accumulator at what the position before left. -/
def PhiS2 (c : Dev nD) : (n : ℕ) → n ≤ cfg2.N → sProp 𝕄
  | 0, _ => Pipeline.ΦA spec2 c
  | n + 1, hn => accInv2 c (owns (c : Thread nD τ) scM2_0 fullShare (outsAt2 V c n hn).2)

theorem PhiS2_pos (c : Dev nD) (n : ℕ) (h : n ≤ cfg2.N) (hz : n ≠ 0) :
    PhiS2 V c n h = accInv2 c (owns (c : Thread nD τ) scM2_0 fullShare (outsAt2 V c (n - 1) (by omega)).2) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = (outsAt2 V c t.val t.isLt).1 := by dsimp only [dat2]

/-- An input window holds its block at every point, and the body leaves it so. -/
theorem before2 (c : Dev nD) (t : Fin cfg2.N) : ∀ w : Fin cfg2.W, w ≠ 7 → ∀ d, (dat2 V c).before w t d = (dat2 V c).after w t
  | ⟨0, _⟩, _ | ⟨1, _⟩, _ | ⟨2, _⟩, _ | ⟨3, _⟩, _ | ⟨4, _⟩, _ | ⟨5, _⟩, _ | ⟨6, _⟩, _ => fun d =>
    ((dat2 V c).before_in_eq_fetched _ rfl (fun _ => rfl) (fun _ _ _ => rfl) (fun _ => rfl) t d).trans rfl
  | ⟨7, _⟩, h => absurd rfl h

/-- After any point the invariant gives back what the launch handed over: the accumulator's named contents are forgotten. -/
theorem Phi_out2 (c : Dev nD) : ∀ t : Fin (cfg2.N + 1), (dat2 V c).Φ t ⊢ Pipeline.ΦA spec2 c
  | ⟨0, _⟩ => .rfl
  | ⟨n + 1, _⟩ => by rw [PhiA2_eq]; exact sep_mono (sep_mono (exists_intro _) .rfl) .rfl

theorem hin2 (c : Dev nD) : Pipeline.ΦA spec2 c ⊢ (dat2 V c).Φ 0 := .rfl

theorem hout2 (c : Dev nD) : (dat2 V c).Φ (Fin.last cfg2.N) ⊢ Pipeline.ΦA spec2 c := Phi_out2 V c _

set_option maxHeartbeats 4800000 in
/-- The body at any point: the position's residue modulo 12 selects the case whose run applies. -/
theorem body_obligation2 (c : Dev nD) : BodyObligation (dat2 (F := F) V c) (defs₀ (F := F)) Variants.none () Set.univ := fun t => by
  rw [bigSep_W2, bigSep_W2]
  simp only [before2 V c t 0 (by decide), before2 V c t 1 (by decide), before2 V c t 2 (by decide), before2 V c t 3 (by decide), before2 V c t 4 (by decide), before2 V c t 5 (by decide), before2 V c t 6 (by decide)]
  rw [show (dat2 V c).Φ t.succ = accInv2 c (owns (c : Thread nD τ) scM2_0 fullShare (outsAt2 V c t.val t.isLt).2) from rfl]
  by_cases h0 : t.val % 12 = 0
  · have h1 : ¬t.val % 12 = 11 := by omega
    have hc0 := (hcond2_0 t).mpr h0
    have hc1 : ¬cond2_1 (grid2.coords t) := fun h => h1 ((hcond2_1 t).mp h)
    simp only [show idle2 7 (grid2.coords t) = true from idleAt2_7_A t hc0 hc1, show (win2 7).flush t = false from noFlush2_7_A t hc0 hc1]
    rw [outsAt2_A V c t h0 h1]
    dsimp only [pairA2, sout2_A_0]
    exact bodyFrame c ((Phi_out2 V c _).trans (.of_eq (PhiA2_eq c)))
      (fun d K => (kernelRun2_A c (grid2.coords t) _ _ _ _ _ _ _ _ _ _ _ _ _ _ _ _ _ _ hc0 hc1 _ _ _ _ _ _ _).2.2 ((dat2 V c).before 7 t d) Set.univ K)
      (fun _ => .rfl) (fun d => exists_intro_trans d .rfl) (owns_writes c _ _ _ (scover2_A_0 c _ _ _ _ _ _ _ _ _ _ _ _ _ _ _ _ _ _ _ hc0 hc1 _ _ _ _ _ _ _))
  · have hΦ := PhiS2_pos V c t.val (Nat.le_of_lt t.isLt) fun h => h0 (by rw [h])
    have hc0 : ¬cond2_0 (grid2.coords t) := fun h => h0 ((hcond2_0 t).mp h)
    by_cases h1 : t.val % 12 = 11
    · have hc1 := (hcond2_1 t).mpr h1
      simp only [show idle2 7 (grid2.coords t) = false from liveAt2_7_C t hc0 hc1, after2_7]
      rw [outsAt2_C V c t h0 h1]
      dsimp only [pairC2, out2_C_7, sout2_C_0]
      exact bodyFrame c (.of_eq hΦ) (fun d K => (kernelRun2_C c (grid2.coords t) _ _ _ _ _ _ _ _ _ _ _ _ _ _ _ _ _ _ hc0 hc1 _ _ _ _ _ _ _ _).2.2 Set.univ K)
        (fun _ => exists_intro _) (fun _ => owns_writes c _ _ _ (cover2_C_7 c _ _ _ _ _ _ _ _ _ _ _ _ _ _ _ _ _ _ _ hc0 hc1 _ _ _ _ _ _ _ _))
        (owns_writes c _ _ _ (scover2_C_0 c _ _ _ _ _ _ _ _ _ _ _ _ _ _ _ _ _ _ _ hc0 hc1 _ _ _ _ _ _ _ _))
    · have hc1 : ¬cond2_1 (grid2.coords t) := fun h => h1 ((hcond2_1 t).mp h)
      simp only [show idle2 7 (grid2.coords t) = true from idleAt2_7_B t hc0 hc1, show (win2 7).flush t = false from noFlush2_7_B t hc0 hc1]
      rw [outsAt2_B V c t h0 h1]
      dsimp only [pairB2, sout2_B_0]
      exact bodyFrame c (.of_eq hΦ) (fun d K => (kernelRun2_B c (grid2.coords t) _ _ _ _ _ _ _ _ _ _ _ _ _ _ _ _ _ _ hc0 hc1 _ _ _ _ _ _ _ _).2.2 ((dat2 V c).before 7 t d) Set.univ K)
        (fun _ => .rfl) (fun d => exists_intro_trans d .rfl) (owns_writes c _ _ _ (scover2_B_0 c _ _ _ _ _ _ _ _ _ _ _ _ _ _ _ _ _ _ _ hc0 hc1 _ _ _ _ _ _ _ _))

end Region

end Cert.Kernel.Gen

end
-- ==== Proof.FrameK.Run3.lean ====
import proofs.«135515_j66743791780425_1_alg».proof.Proof.Gen.Kernel.Launch
import proofs.«135515_j66743791780425_1_alg».proof.Proof.Gen.Kernel.Skeleton
import proofs.«135515_j66743791780425_1_alg».proof.Proof.Gen.Kernel.Points
import proofs.«135515_j66743791780425_1_alg».proof.Proof.FrameK.Body
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 6 = 0 :=
  (by decide +kernel : ∀ t : Fin grid3.N, cond3_0 (grid3.coords t) ↔ t.val % 6 = 0)
abbrev cond3_1 (i : grid3.Coords) : Prop := k3_cond2 i = 1#1
theorem hcond3_1 : ∀ t : Fin cfg3.N, cond3_1 (grid3.coords t) ↔ t.val % 6 = 5 :=
  (by decide +kernel : ∀ t : Fin grid3.N, cond3_1 (grid3.coords t) ↔ t.val % 6 = 5)
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel
abbrev VO3_3 : View sig .tc .vmem S1024x10 .f32 := (Memref.whole cc3_stg3_0 : Memref sig .tc .vmem S1024x10 .f32).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x10 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x10 .f32 := win3_3.stage (cfg3.slots t 3)
abbrev hs3_3 (t : Fin cfg3.N) : (ms3_3 t).IsWhole := hstage3_3 ((cfg3.slots t 3).cast nbuf3_3)
abbrev scM3_0 : Memref sig .tc .vmem S1024x10 .f32 := Memref.whole cc3_scratch0
abbrev VS3_0 : View sig .tc .vmem S1024x10 .f32 := scM3_0.view
theorem PhiA3_eq (c : Dev nD) :
    (Pipeline.ΦA spec3 c : sProp 𝕄)
      = iprop(iprop(iprop((∃ d, owns c scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

section
variable (c : Dev nD) (i : grid3.Coords) (arg2 : Memref sig .tc .vmem S1024x1024 .bf16) (harg2 : arg2.IsWhole) (arg3 : Memref sig .tc .vmem S10x1024 .f32) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole)

section
variable (hc0 : cond3_0 i) (hc1 : ¬cond3_1 i) (x0 : Vec F S1024x1024 .bf16) (x1 : Vec F S10x1024 .f32) (x2 : Vec F S1x10 .f32)
/-- The first step: the accumulator is reset and the step's product added; the output block is handed back. -/
def kernelRun3_A :
    Σ' (L3 : List (View.Piece (Elt F) S1024x10 .f32)), { LS0 : List (View.Piece (Elt F) S1024x10 .f32) //
      ∀ (xi3 : Vec F S1024x10 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨[], ?_, fun xi3 E K => ?run⟩
  case run =>
    simp (disch := assumption) only [cc3__final_kernel_eq_skeleton, owns_unread]; unfold cc3__final_kernel_skel
    iintro ⟨H0, H1, H2, H3, ⟨%ds0, HS0⟩, Hk⟩
    sl_exec (disch := first | exact hc0 | exact hc1)
    sl_step
    iapply Hk
    iframe
    iexists _; iexact HS0
end

variable (hc0 : ¬cond3_0 i)

section
variable (hc1 : ¬cond3_1 i) (x0 : Vec F S1024x1024 .bf16) (x1 : Vec F S10x1024 .f32) (x2 : Vec F S1x10 .f32) (xs0 : Vec F S1024x10 .f32)
/-- A middle step: one more product is added to the accumulator. -/
def kernelRun3_B :
    Σ' (L3 : List (View.Piece (Elt F) S1024x10 .f32)), { LS0 : List (View.Piece (Elt F) S1024x10 .f32) //
      ∀ (xi3 : Vec F S1024x10 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨[], ?_, fun xi3 E K => ?run⟩
  case run =>
    simp (disch := assumption) only [cc3__final_kernel_eq_skeleton, owns_unread]; unfold cc3__final_kernel_skel
    iintro ⟨H0, H1, H2, H3, HS0, Hk⟩
    sl_exec (disch := first | exact hc0 | exact hc1)
    sl_step
    iapply Hk
    iframe
    iexists _; iexact HS0
end

variable (hc1 : cond3_1 i) (x0 : Vec F S1024x1024 .bf16) (x1 : Vec F S10x1024 .f32) (x2 : Vec F S1x10 .f32) (xs0 : Vec F S1024x10 .f32)
/-- The last step: the last product is added, then the bias, and the row-wise log-softmax is stored to the output block. -/
def kernelRun3_C :
    Σ' (L3 : List (View.Piece (Elt F) S1024x10 .f32)), { LS0 : List (View.Piece (Elt F) S1024x10 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨?_, ?_, fun E K => ?run⟩
  case run =>
    simp (disch := assumption) only [cc3__final_kernel_eq_skeleton, owns_unread]; unfold cc3__final_kernel_skel
    iintro ⟨H0, H1, H2, ⟨%d3, H3⟩, HS0, Hk⟩
    sl_exec (disch := first | exact hc0 | exact hc1)
    sl_step
    iapply Hk
    iframe
    isplitl [H3]; · iexists _; iexact H3
    iexists _; iexact HS0
end

end Cert.Kernel.Gen

end
-- ==== Proof.FrameK.Reg3.lean ====
import proofs.«135515_j66743791780425_1_alg».proof.Proof.FrameK.Run3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Pieces that cover a buffer, written over anything, leave it at their read-back. -/
theorem owns_of_cover3 {s : Shape} {e : EltTy} (c : Dev nD) {M : Memref sig .tc .vmem s e} (v : View sig .tc .vmem s e) {L : List (View.Piece (Elt F) s e)}
    (h : ∀ y, ∃ pc ∈ L, y ∈ pc.1.set) :
    (iprop(∃ g, M.view.loc (c : Thread nD τ) ↦[M.view.set]{fullShare} M.view.writes (Elt F) g L) : sProp 𝕄) ⊢ owns (c : Thread nD τ) M fullShare (v.read (Elt F) (v.writes (Elt F) v.junk L)) := by
  iintro ⟨%g, H⟩; unfold owns; iexists _; isplitr; swap; · iexact H
  ipureintro; exact View.read_writes_of_cover _ _ _ _ _ h

section Case
variable (c : Dev nD) (i : grid3.Coords) (arg2 : Memref sig .tc .vmem S1024x1024 .bf16) (harg2 : arg2.IsWhole) (arg3 : Memref sig .tc .vmem S10x1024 .f32) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole)

section
variable (hc0 : cond3_0 i) (hc1 : ¬cond3_1 i) (x0 : Vec F S1024x1024 .bf16) (x1 : Vec F S10x1024 .f32) (x2 : Vec F S1x10 .f32)

def out3_A_3 : Vec F S1024x10 .f32 :=
  VO3_3.read (Elt F) (VO3_3.writes (Elt F) VO3_3.junk (kernelRun3_A c i arg2 harg2 arg3 harg3 arg4 harg4 arg5 harg5 arg6 harg6 hc0 hc1 x0 x1 x2).1)

theorem scover3_A_0 (y : S1024x10.Idx) : ∃ pc ∈ (kernelRun3_A c i arg2 harg2 arg3 harg3 arg4 harg4 arg5 harg5 arg6 harg6 hc0 hc1 x0 x1 x2).2.1, y ∈ pc.1.set :=
  View.cover_of_tiledL _ S1024x10.size (by sl_kernel_rfl) y

def sout3_A_0 : Vec F S1024x10 .f32 :=
  VS3_0.read (Elt F) (VS3_0.writes (Elt F) VS3_0.junk (kernelRun3_A c i arg2 harg2 arg3 harg3 arg4 harg4 arg5 harg5 arg6 harg6 hc0 hc1 x0 x1 x2).2.1)

end

section
variable (hc0 : ¬cond3_0 i) (hc1 : ¬cond3_1 i) (x0 : Vec F S1024x1024 .bf16) (x1 : Vec F S10x1024 .f32) (x2 : Vec F S1x10 .f32) (xs0 : Vec F S1024x10 .f32)

def out3_B_3 : Vec F S1024x10 .f32 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (y : S1024x10.Idx) : ∃ pc ∈ (kernelRun3_B c i arg2 harg2 arg3 harg3 arg4 harg4 arg5 harg5 arg6 harg6 hc0 hc1 x0 x1 x2 xs0).2.1, y ∈ pc.1.set :=
  View.cover_of_tiledL _ S1024x10.size (by sl_kernel_rfl) y

def sout3_B_0 : Vec F S1024x10 .f32 :=
  VS3_0.read (Elt F) (VS3_0.writes (Elt F) VS3_0.junk (kernelRun3_B c i arg2 harg2 arg3 harg3 arg4 harg4 arg5 harg5 arg6 harg6 hc0 hc1 x0 x1 x2 xs0).2.1)

end

section
variable (hc0 : ¬cond3_0 i) (hc1 : cond3_1 i) (x0 : Vec F S1024x1024 .bf16) (x1 : Vec F S10x1024 .f32) (x2 : Vec F S1x10 .f32) (xs0 : Vec F S1024x10 .f32)

theorem cover3_C_3 (y : S1024x10.Idx) : ∃ pc ∈ (kernelRun3_C c i arg2 harg2 arg3 harg3 arg4 harg4 arg5 harg5 arg6 harg6 hc0 hc1 x0 x1 x2 xs0).1, y ∈ pc.1.set :=
  View.cover_of_tiledL _ S1024x10.size (by sl_kernel_rfl) y

def out3_C_3 : Vec F S1024x10 .f32 :=
  VO3_3.read (Elt F) (VO3_3.writes (Elt F) VO3_3.junk (kernelRun3_C c i arg2 harg2 arg3 harg3 arg4 harg4 arg5 harg5 arg6 harg6 hc0 hc1 x0 x1 x2 xs0).1)

theorem scover3_C_0 (y : S1024x10.Idx) : ∃ pc ∈ (kernelRun3_C c i arg2 harg2 arg3 harg3 arg4 harg4 arg5 harg5 arg6 harg6 hc0 hc1 x0 x1 x2 xs0).2.1, y ∈ pc.1.set :=
  View.cover_of_tiledL _ S1024x10.size (by sl_kernel_rfl) y

def sout3_C_0 : Vec F S1024x10 .f32 :=
  VS3_0.read (Elt F) (VS3_0.writes (Elt F) VS3_0.junk (kernelRun3_C c i arg2 harg2 arg3 harg3 arg4 harg4 arg5 harg5 arg6 harg6 hc0 hc1 x0 x1 x2 xs0).2.1)

end

end Case

section Region
variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What a first step at point `t` leaves: the output block (untouched) and the accumulator. -/
abbrev pairA3 (t : Fin cfg3.N) (h0 : t.val % 6 = 0) (h1 : ¬t.val % 6 = 5) : Vec F S1024x10 .f32 × Vec F S1024x10 .f32 :=
  (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (mt (hcond3_1 t).mp h1) (iblk3 V c 0 t) (iblk3 V c 1 t) (iblk3 V c 2 t),
    sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (mt (hcond3_1 t).mp h1) (iblk3 V c 0 t) (iblk3 V c 1 t) (iblk3 V c 2 t))

/-- What a middle step leaves, over the accumulator `xs0` it finds. -/
abbrev pairB3 (t : Fin cfg3.N) (h0 : ¬t.val % 6 = 0) (h1 : ¬t.val % 6 = 5) (xs0 : Vec F S1024x10 .f32) : Vec F S1024x10 .f32 × Vec F S1024x10 .f32 :=
  (out3_B_3 c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) xs0,
    sout3_B_0 c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) xs0)

/-- What a last step leaves, over the accumulator `xs0` it finds. -/
abbrev pairC3 (t : Fin cfg3.N) (h0 : ¬t.val % 6 = 0) (h1 : t.val % 6 = 5) (xs0 : Vec F S1024x10 .f32) : Vec F S1024x10 .f32 × Vec F S1024x10 .f32 :=
  (out3_C_3 c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) xs0,
    sout3_C_0 c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) xs0)

/-- The accumulation, by recursion on the point: the case is read off the point modulo 6, and a later step starts from the accumulator the point before left. -/
def outsAt3 : (n : ℕ) → n < cfg3.N → Vec F S1024x10 .f32 × Vec F S1024x10 .f32
  | 0, hn => pairA3 V c ⟨0, hn⟩ rfl (by decide : ¬0 % 6 = 5)
  | n + 1, hn =>
    if h0 : (n + 1) % 6 = 0 then pairA3 V c ⟨n + 1, hn⟩ h0 (by omega : ¬(n + 1) % 6 = 5)
    else if h1 : (n + 1) % 6 = 5 then pairC3 V c ⟨n + 1, hn⟩ h0 h1 (outsAt3 n (Nat.lt_of_succ_lt hn)).2
    else pairB3 V c ⟨n + 1, hn⟩ h0 h1 (outsAt3 n (Nat.lt_of_succ_lt hn)).2

theorem outsAt3_A (t : Fin cfg3.N) (h0 : t.val % 6 = 0) (h1 : ¬t.val % 6 = 5) : outsAt3 V c t.val t.isLt = pairA3 V c t h0 h1 := by
  obtain ⟨n, hn⟩ := t
  cases n with
  | zero => rfl
  | succ n => exact dif_pos h0

theorem outsAt3_B (t : Fin cfg3.N) (h0 : ¬t.val % 6 = 0) (h1 : ¬t.val % 6 = 5) : outsAt3 V c t.val t.isLt = pairB3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt3_C (t : Fin cfg3.N) (h0 : ¬t.val % 6 = 0) (h1 : t.val % 6 = 5) : outsAt3 V c t.val t.isLt = pairC3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The region's invariant with the accumulator at `P`. -/
abbrev accInv3 (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := match t with
    | ⟨0, _⟩ => Pipeline.ΦA spec3 c
    | ⟨n + 1, h⟩ => accInv3 c (owns (c : Thread nD τ) scM3_0 fullShare (outsAt3 V c n (Nat.lt_of_succ_lt_succ h)).2)
  q _ := fullShare
  owed _ := 0

theorem A_eq3 (w : Fin cfg3.W) : (dat3 V c).A w = V c (Pipeline.arrRef spec3 w) := rfl

theorem after3_3 (t : Fin cfg3.N) : (dat3 V c).after 3 t = (outsAt3 V c t.val t.isLt).1 := by dsimp only [dat3]

/-- The body leaves each input block in place, so its buffer holds the block at every point. -/
theorem before3 : (∀ t d, (dat3 V c).before 0 t d = iblk3 V c 0 t) ∧ (∀ t d, (dat3 V c).before 1 t d = iblk3 V c 1 t) ∧ (∀ t d, (dat3 V c).before 2 t d = iblk3 V c 2 t) := by
  refine ⟨?_, ?_, ?_⟩ <;> exact fun t d =>
    ((dat3 V c).before_in_eq_fetched _ rfl (fun _ => rfl) (fun _ _ _ => rfl) (fun t => by dsimp only [dat3]; rfl) t d).trans (by unfold Dat.fetched Dat.blockOf; dsimp only [dat3]; rfl)

/-- Before a point that is not the first the accumulator holds what the point before left. -/
theorem Phi_pos3 (t : Fin cfg3.N) (hz : t.val ≠ 0) : (dat3 V c).Φ t.castSucc = accInv3 c (owns (c : Thread nD τ) scM3_0 fullShare (outsAt3 V c (t.val - 1) (Nat.lt_of_le_of_lt (Nat.sub_le _ _) t.isLt)).2) := by
  obtain ⟨n, hn⟩ := t
  cases n with
  | zero => exact absurd rfl hz
  | succ n => rfl

/-- At every point the invariant gives the launch's back: the accumulator's contents are forgotten. -/
theorem Phi_out3 (t : Fin (cfg3.N + 1)) : (dat3 V c).Φ t ⊢ accInv3 c iprop(∃ d, owns (c : Thread nD τ) scM3_0 fullShare d) := by
  obtain ⟨n, hn⟩ := t
  cases n with
  | zero => show Pipeline.ΦA spec3 c ⊢ _; rw [PhiA3_eq]
  | succ n => exact sep_mono_left (sep_mono_left (exists_intro _))

theorem hin3 : Pipeline.ΦA spec3 c ⊢ (dat3 V c).Φ 0 := .rfl

theorem hout3 : (dat3 V c).Φ (Fin.last cfg3.N) ⊢ Pipeline.ΦA spec3 c := PhiA3_eq (F := F) c ▸ Phi_out3 V c _

set_option maxHeartbeats 4800000 in
theorem sound_body3 (t : Fin cfg3.N) :
    iprop((dat3 V c).Φ t.castSucc ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d)))
    ⊢ wp frame (wpE (defs₀ (F := F)) Variants.none c none) Set.univ (bodyAt3 t) (fun _ =>
      iprop(accInv3 c (owns (c : Thread nD τ) scM3_0 fullShare (outsAt3 V c t.val t.isLt).2) ∗ (dat3 V c).owesAt () t.castSucc
        ∗ owns (c : Thread nD τ) (ms3_0 t) fullShare (iblk3 V c 0 t) ∗ owns (c : Thread nD τ) (ms3_1 t) fullShare (iblk3 V c 1 t)
        ∗ owns (c : Thread nD τ) (ms3_2 t) fullShare (iblk3 V c 2 t) ∗ (dat3 V c).leavesExact 3 t)) := by
  unfold bodyAt3
  simp only [(before3 V c).1, (before3 V c).2.1, (before3 V c).2.2]
  unfold accInv3
  by_cases h0 : t.val % 6 = 0 <;> by_cases h1 : t.val % 6 = 5
  · omega
  · have hc0 := (hcond3_0 t).mpr h0
    have hc1 := mt (hcond3_1 t).mp h1
    rw [Dat.leavesExact_idle (dat3 V c) 3 t (idleAt3_3_A t hc0 hc1) (noFlush3_3_A t hc0 hc1), outsAt3_A V c t h0 h1]
    dsimp only [pairA3, sout3_A_0]
    iintro ⟨HΦ, Ho, ⟨%d0, H0⟩, ⟨%d1, H1⟩, ⟨%d2, H2⟩, ⟨%d3, H3⟩⟩
    ihave ⟨⟨HS0, Hrest⟩, Hg⟩ := Phi_out3 V c _ $$ HΦ
    iapply ((kernelRun3_A c (grid3.coords t) _ _ _ _ _ _ _ _ _ _ hc0 hc1 (iblk3 V c 0 t) (iblk3 V c 1 t) (iblk3 V c 2 t)).2.2 _ Set.univ _)
    iframe H0 H1 H2 H3 HS0
    iintro ⟨H0, H1, H2, H3, HS0⟩
    iframe Hrest Hg Ho H0 H1 H2
    isplitl [HS0]
    · iapply owns_of_cover3 c VS3_0 (scover3_A_0 c _ _ _ _ _ _ _ _ _ _ _ _ _ _ _ _) $$ HS0
    · iexists _; iexact H3
  · have hc0 := mt (hcond3_0 t).mp h0
    have hc1 := (hcond3_1 t).mpr h1
    rw [show (dat3 V c).leavesExact 3 t = owns (c : Thread nD τ) (ms3_3 t) fullShare ((dat3 V c).after 3 t) from by
      unfold Dat.leavesExact; rw [liveAt3_3_C t hc0 hc1], after3_3, Phi_pos3 V c t (fun e => h0 (by rw [e])), outsAt3_C V c t h0 h1]
    dsimp only [pairC3, out3_C_3, sout3_C_0]
    iintro ⟨⟨⟨HS0, Hrest⟩, Hg⟩, Ho, ⟨%d0, H0⟩, ⟨%d1, H1⟩, ⟨%d2, H2⟩, ⟨%d3, H3⟩⟩
    iapply ((kernelRun3_C c (grid3.coords t) _ _ _ _ _ _ _ _ _ _ hc0 hc1 (iblk3 V c 0 t) (iblk3 V c 1 t) (iblk3 V c 2 t) _).2.2 Set.univ _)
    iframe H0 H1 H2 HS0
    isplitl [H3]; · iexists _; iexact H3
    iintro ⟨H0, H1, H2, H3, HS0⟩
    iframe Hrest Hg Ho H0 H1 H2
    isplitl [HS0]
    · iapply owns_of_cover3 c VS3_0 (scover3_C_0 c _ _ _ _ _ _ _ _ _ _ _ _ _ _ _ _ _) $$ HS0
    · iapply owns_of_cover3 c VO3_3 (cover3_C_3 c _ _ _ _ _ _ _ _ _ _ _ _ _ _ _ _ _) $$ H3
  · have hc0 := mt (hcond3_0 t).mp h0
    have hc1 := mt (hcond3_1 t).mp h1
    rw [Dat.leavesExact_idle (dat3 V c) 3 t (idleAt3_3_B t hc0 hc1) (noFlush3_3_B t hc0 hc1), Phi_pos3 V c t (fun e => h0 (by rw [e])), outsAt3_B V c t h0 h1]
    dsimp only [pairB3, sout3_B_0]
    iintro ⟨⟨⟨HS0, Hrest⟩, Hg⟩, Ho, ⟨%d0, H0⟩, ⟨%d1, H1⟩, ⟨%d2, H2⟩, ⟨%d3, H3⟩⟩
    iapply ((kernelRun3_B c (grid3.coords t) _ _ _ _ _ _ _ _ _ _ hc0 hc1 (iblk3 V c 0 t) (iblk3 V c 1 t) (iblk3 V c 2 t) _).2.2 _ Set.univ _)
    iframe H0 H1 H2 H3 HS0
    iintro ⟨H0, H1, H2, H3, HS0⟩
    iframe Hrest Hg Ho H0 H1 H2
    isplitl [HS0]
    · iapply owns_of_cover3 c VS3_0 (scover3_B_0 c _ _ _ _ _ _ _ _ _ _ _ _ _ _ _ _ _) $$ HS0
    · iexists _; iexact H3

theorem body_obligation3 : BodyObligation (dat3 (F := F) V c) (defs₀ (F := F)) Variants.none () Set.univ := fun t => by
  rw [bigSep_W3, bigSep_W3]
  exact sound_body3 V c t

end Region

end Cert.Kernel.Gen

end
-- ==== Proof.FrameK.Main.lean ====
import proofs.«135515_j66743791780425_1_alg».proof.Proof.FrameK.Reg0
import proofs.«135515_j66743791780425_1_alg».proof.Proof.FrameK.Reg1
import proofs.«135515_j66743791780425_1_alg».proof.Proof.FrameK.Reg2
import proofs.«135515_j66743791780425_1_alg».proof.Proof.FrameK.Reg3
import proofs.«135515_j66743791780425_1_alg».proof.Proof.Gen.Kernel.Regions
import Idealize.ShloMosaic.Lib.Pipeline.RegionsLoop
import Idealize.ShloMosaic.Lib.Pipeline.FrameSuffix

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A region's exit contents: its arrays at the proof data's last contents, every other buffer at `V`. -/
abbrev exitOf {cfg : Cfg sig Λ₀} {c : Dev nD} (V : Valuation τ sig (Elt F)) (d : Dat τ (Elt F) Unit ℕ (UR sig nD τ) ℕ cfg c) :
    Valuation τ sig (Elt F) := Pipeline.withArrays cfg.spec c V fun w => d.arrAt w cfg.N

/-- Off the output window's array, a region's exit contents are its entry contents. -/
theorem withArrays_keep {cfg : Cfg sig Λ₀} (hinj : Function.Injective (Pipeline.arrRef cfg.spec)) {c : Dev nD} (V : Valuation τ sig (Elt F))
    (d : Dat τ (Elt F) Unit ℕ (UR sig nD τ) ℕ cfg c) (hA : ∀ w, d.A w = V (Proc.devRef .tc (Pipeline.arrRef cfg.spec w)))
    (o b : Ref sig .tc) (ho : ∀ w, (cfg.win w).isOut = true → Pipeline.arrRef cfg.spec w = o) (hb : b ≠ o) :
    exitOf V d (Proc.devRef .tc b) = V (Proc.devRef .tc b) := by
  by_cases h : ∃ w, Pipeline.arrRef cfg.spec w = b
  · obtain ⟨w, rfl⟩ := h
    exact (Pipeline.withArrays_arr _ hinj c _ _ w).trans
      ((d.arrAt_in w (Bool.eq_false_iff.mpr fun h => hb (ho w h)) _).trans (hA w))
  · exact Pipeline.withArrays_of_ne _ c _ _ b fun w e => h ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
def W2 (c : Dev nD) : Valuation τ sig (Elt F) := exitOf (W1 m ρ c) (dat0 (U1 m ρ) c)
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_keep (c : Dev nD) (b : Ref sig .tc) (hb : b ≠ main_v5) : W2 m ρ c (Proc.devRef .tc b) = W1 m ρ c (Proc.devRef .tc b) :=
  withArrays_keep launch0.win.arr_inj _ _ (A_eq0 (U1 m ρ) c) main_v5 b (by decide) hb
abbrev U2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
def W4 (c : Dev nD) : Valuation τ sig (Elt F) := exitOf (W3 m ρ c) (dat1 (U3 m ρ) c)
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_keep (c : Dev nD) (b : Ref sig .tc) (hb : b ≠ main_v11) : W4 m ρ c (Proc.devRef .tc b) = W3 m ρ c (Proc.devRef .tc b) :=
  withArrays_keep launch1.win.arr_inj _ _ (A_eq1 (U3 m ρ) c) main_v11 b (by decide) hb
abbrev U4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
def W6 (c : Dev nD) : Valuation τ sig (Elt F) := exitOf (W5 m ρ c) (dat2 (U5 m ρ) c)
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_keep (c : Dev nD) (b : Ref sig .tc) (hb : b ≠ main_v17) : W6 m ρ c (Proc.devRef .tc b) = W5 m ρ c (Proc.devRef .tc b) :=
  withArrays_keep launch2.win.arr_inj _ _ (A_eq2 (U5 m ρ) c) main_v17 b (by decide) hb
abbrev U6 : (c : Dev nD) → (b : Ref sig .tc) → Buf (Elt F) ((c : Thread nD τ).loc b) := fun c b => W6 m ρ c b
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
def W8 (c : Dev nD) : Valuation τ sig (Elt F) := exitOf (W7 m ρ c) (dat3 (U7 m ρ) c)
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_keep (c : Dev nD) (b : Ref sig .tc) (hb : b ≠ main_v19) : W8 m ρ c (Proc.devRef .tc b) = W7 m ρ c (Proc.devRef .tc b) :=
  withArrays_keep launch3.win.arr_inj _ _ (A_eq3 (U7 m ρ) c) main_v19 b (by decide) hb
abbrev U8 : (c : Dev nD) → (b : Ref sig .tc) → Buf (Elt F) ((c : Thread nD τ).loc b) := fun c b => W8 m ρ c b

/-- A buffer that no host stretch writes and that is no region's output ends as launched. -/
theorem W8_launch (c : Dev nD) (b : Ref sig .tc) (h0 : b ∉ hostOps0_W) (h1 : b ∉ hostOps1_W) (h2 : b ∉ hostOps2_W) (h3 : b ∉ hostOps3_W)
    (g0 : b ≠ main_v5) (g1 : b ≠ main_v11) (g2 : b ≠ main_v17) (g3 : b ≠ main_v19) :
    W8 m ρ c (Proc.devRef .tc b) = m ((c : Thread nD τ).loc b) :=
  (W8_keep m ρ c b g3).trans <| (StableHlo.after_of_writes_sub hostOps3 _ hostOps3_writes h3).trans <|
  (W6_keep m ρ c b g2).trans <| (StableHlo.after_of_writes_sub hostOps2 _ hostOps2_writes h2).trans <|
  (W4_keep m ρ c b g1).trans <| (StableHlo.after_of_writes_sub hostOps1 _ hostOps1_writes h1).trans <|
  (W2_keep m ρ c b g0).trans <| (StableHlo.after_of_writes_sub hostOps0 _ hostOps0_writes h0).trans rfl

def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- A region as a segment of the run: entered with the buffers at `V`, left with its arrays at their last contents and every other buffer as entered. -/
def regOf (pd : (p : Fin 4) → (c : Dev nD) → Dat τ (Elt F) Unit ℕ (UR sig nD τ) ℕ (Pipeline.pin (pcfgs (F := F)) adm p) c)
    (p : Fin 4) (lf : Pipeline.LaunchFacts (nD := nD) (τ := τ) cfgs p) (V : Dev nD → Valuation τ sig (Elt F))
    (hq : ∀ c w, (pd p c).q w = fullShare) (how : ∀ c t, (pd p c).owed t = 0) (hrec : ∀ c, (pd p c).recorded 0 = Set.univ)
    (hA : ∀ c w, (pd p c).A w = V c (Proc.devRef .tc (Pipeline.arrRef (cfgs p).spec w)))
    (hbody : ∀ c, BodyObligation (pd p c) (defs₀ (F := F)) Variants.none () Set.univ)
    (hin : ∀ c, Pipeline.ΦA (cfgs p).spec c ⊢ (pd p c).Φ 0)
    (hout : ∀ c, (pd p c).Φ (Fin.last (cfgs p).N) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p how
  pre c := iprop(StableHlo.held (c : Thread nD τ) (Pipeline.ucRefs τ sig) (V c) ∗ R c)
  post c := iprop(StableHlo.held (c : Thread nD τ) (Pipeline.ucRefs τ sig) (exitOf (V c) (pd p c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [how c 0, hrec c]
      icases HO with ⟨%W, HO⟩; iexists W; isplitr; · ipureintro; exact fun _ _ => Or.inl trivial
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    have h := hout c
    unfold Pipeline.ΦA at h
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => V c b) (fun b => exitOf (V c) (pd p c) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held c (exitOf (V c) (pd p c))] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [how c]
    icases HO with ⟨%W, -, HO⟩; iexists W; iexact HO

abbrev reg0 := regOf (pdats m ρ) 0 launch0 (W1 m ρ) (fun _ _ => rfl) (fun _ _ => rfl) (fun _ => rfl) (A_eq0 (U1 m ρ)) (body_obligation0 (U1 m ρ)) (hin0 (U1 m ρ)) (hout0 (U1 m ρ))
abbrev reg1 := regOf (pdats m ρ) 1 launch1 (W3 m ρ) (fun _ _ => rfl) (fun _ _ => rfl) (fun _ => rfl) (A_eq1 (U3 m ρ)) (body_obligation1 (U3 m ρ)) (hin1 (U3 m ρ)) (hout1 (U3 m ρ))
abbrev reg2 := regOf (pdats m ρ) 2 launch2 (W5 m ρ) (fun _ _ => rfl) (fun _ _ => rfl) (fun _ => rfl) (A_eq2 (U5 m ρ)) (body_obligation2 (U5 m ρ)) (hin2 (U5 m ρ)) (hout2 (U5 m ρ))
abbrev reg3 := regOf (pdats m ρ) 3 launch3 (W7 m ρ) (fun _ _ => rfl) (fun _ _ => rfl) (fun _ => rfl) (A_eq3 (U7 m ρ)) (body_obligation3 (U7 m ρ)) (hin3 (U7 m ρ)) (hout3 (U7 m ρ))

abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (msegs m ρ) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- A buffer outside the regions' own scratch that no host stretch writes and that is no region's output. -/
abbrev Kept (b : Ref sig .tc) : Prop :=
  ¬ (Proc.devRef .tc b : DevRef τ sig).isScoped ∧ b ∉ hostOps0_W ∧ b ∉ hostOps1_W ∧ b ∉ hostOps2_W ∧ b ∉ hostOps3_W
    ∧ b ≠ main_v5 ∧ b ≠ main_v11 ∧ b ≠ main_v17 ∧ b ≠ main_v19

/-- The result array ends at the last region's final contents; a kept buffer ends as launched. -/
theorem run_result : θ_run defs (onTc (τ := τ) (main (F := F))) ⟨m, fun _ => 0, ρ⟩ (fun r => ∀ c : Dev nD,
      r.2.mem ((c.tc : Thread nD τ).loc main_v19) = (dat3 (U7 m ρ) c).arrAt 3 cfg3.N
      ∧ ∀ b, Kept b → r.2.mem ((c.tc : Thread nD τ).loc b) = m ((c.tc : Thread nD τ).loc b)) :=
  (θ_run defs _ _).mono (fun r h c => ⟨(h c _ (mem_uc main_v19 (by decide))).trans (W8_arr m ρ c 3),
    fun b ⟨s, h0, h1, h2, h3, g0, g1, g2, g3⟩ => (h c _ (mem_uc b s)).trans (W8_launch m ρ c b h0 h1 h2 h3 g0 g1 g2 g3)⟩) (run_main m ρ)

end Cert.Kernel.Gen

end
-- ==== Proof.Value.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev zero : EReal := Ideal.ofBits .f32 0x00000000#32
abbrev one : EReal := Ideal.ofBits .f32 0x3F800000#32
abbrev mone : EReal := Ideal.ofBits .f32 0xBF800000#32
abbrev eps : EReal := Ideal.ofBits .f32 0x3727C5AC#32
abbrev ninf : EReal := Ideal.ofBits .f32 0xFF800000#32

def sgn (w : EReal) : EReal := Scalar.select (Ideal.cmp .oge w zero) one mone

def bn (h b g v mu be : EReal) : EReal := (h + b - mu) * (g * Ideal.rsqrt (v + eps)) + be

def act (y : EReal) : EReal := sgn (min one (max mone y))

def stage {M N K : Nat} (x : (⟨2, ![M, K]⟩ : Shape).Idx → EReal) (w : (⟨2, ![N, K]⟩ : Shape).Idx → EReal)
    (b g be mu v : (⟨1, ![N]⟩ : Shape).Idx → EReal) : (⟨2, ![M, N]⟩ : Shape).Idx → EReal :=
  fun ij => act (bn (∑ k : Fin K, x (ix2 (ij 0 : Fin M) k) * sgn (w (ix2 (ij 1 : Fin N) k)))
    (b (ix1 (ij 1 : Fin N))) (g (ix1 (ij 1 : Fin N))) (v (ix1 (ij 1 : Fin N))) (mu (ix1 (ij 1 : Fin N))) (be (ix1 (ij 1 : Fin N))))

def logits {M N K : Nat} (h : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun ij => (∑ k : Fin K, h (ix2 (ij 0 : Fin M) k) * w (ix2 (ij 1 : Fin N) k)) + b (ix1 (ij 1 : Fin N))

def rowMax {M N : Nat} (z : (⟨2, ![M, N]⟩ : Shape).Idx → EReal) (r : Fin M) : EReal :=
  (Finset.univ : Finset (Fin N)).fold max ninf (fun q => z (ix2 r q))

def logSoftmax {M N : Nat} (z : (⟨2, ![M, N]⟩ : Shape).Idx → EReal) : (⟨2, ![M, N]⟩ : Shape).Idx → EReal :=
  fun ij => (z ij - rowMax z (ij 0 : Fin M))
    - Ideal.log (∑ q : Fin N, Ideal.exp (z (ix2 (ij 0 : Fin M) q) - rowMax z (ij 0 : Fin M)))

def net
    (x : (⟨2, ![8192, 784]⟩ : Shape).Idx → EReal) (w1 : (⟨2, ![6144, 784]⟩ : Shape).Idx → EReal) (b1 : (⟨1, ![6144]⟩ : Shape).Idx → EReal)
    (w2 : (⟨2, ![6144, 6144]⟩ : Shape).Idx → EReal) (b2 : (⟨1, ![6144]⟩ : Shape).Idx → EReal)
    (w3 : (⟨2, ![6144, 6144]⟩ : Shape).Idx → EReal) (b3 : (⟨1, ![6144]⟩ : Shape).Idx → EReal)
    (w4 : (⟨2, ![10, 6144]⟩ : Shape).Idx → EReal) (b4 : (⟨1, ![10]⟩ : Shape).Idx → EReal)
    (g1 be1 m1 v1 g2 be2 m2 v2 g3 be3 m3 v3 : (⟨1, ![6144]⟩ : Shape).Idx → EReal) :
    (⟨2, ![8192, 10]⟩ : Shape).Idx → EReal :=
  logSoftmax (logits (stage (stage (stage x w1 b1 g1 be1 m1 v1) w2 b2 g2 be2 m2 v2) w3 b3 g3 be3 m3 v3) w4 b4)

end Cert.Spec

end
-- ==== Proof.Value.Ref.lean ====
import proofs.«135515_j66743791780425_1_alg».proof.Proof.RefRun
import proofs.«135515_j66743791780425_1_alg».proof.Proof.RefRead
import proofs.«135515_j66743791780425_1_alg».proof.Proof.Value.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

/-- A float array of shape `S` on the extended reals. -/
abbrev Arr (S : Shape) := (⟨S, .f32⟩ : BufTy).Contents (Elt Ideal)

theorem signW1 (x1 : Arr S6144x784) (k : Fin 784) (q : Fin 6144) :
    val_main_v4 (F := Ideal) x1 (ix2 k q) = Cert.Spec.sgn (x1 (ix2 q k)) := by
  rw [val_main_v4_apply, val_main_v3_apply, val_main_v2_apply, val_main_v1_apply, val_main_v0_apply,
    val_main_cst_apply, val_main_call0_v0_apply, val_main_cst_0_apply, val_main_call0_v1_apply, val_main_cst_1_apply]
  have hi : idx_main_v4 (ix2 k q) = ix2 q k := funext fun a => Fin.ext (by match a with | ⟨0, _⟩ => rfl | ⟨1, _⟩ => rfl)
  rw [hi]
  rfl

theorem biasAt1 (x2 : Arr S6144) (p : Fin 8192) (q : Fin 6144) : val_main_v7 (F := Ideal) x2 (ix2 p q) = x2 (ix1 q) := by
  rw [val_main_v7_apply, val_main_v6_apply]
  exact congrArg x2 (funext fun a => Fin.ext (by match a with | ⟨0, _⟩ => rfl))

theorem meanAt1 (x11 : Arr S6144) (p : Fin 8192) (q : Fin 6144) : val_main_v10 (F := Ideal) x11 (ix2 p q) = x11 (ix1 q) := by
  rw [val_main_v10_apply, val_main_v9_apply]
  exact congrArg x11 (funext fun a => Fin.ext (by match a with | ⟨0, _⟩ => rfl))

theorem scaleAt1 (x9 x12 : Arr S6144) (p : Fin 8192) (q : Fin 6144) :
    val_main_v17 (F := Ideal) x9 x12 (ix2 p q) = x9 (ix1 q) * Ideal.rsqrt (x12 (ix1 q) + Cert.Spec.eps) := by
  rw [val_main_v17_apply, val_main_v16_apply]
  have hi : idx_main_v16 (idx_main_v17 (ix2 p q)) = ix1 q := funext fun a => Fin.ext (by match a with | ⟨0, _⟩ => rfl)
  rw [hi, val_main_v15_apply, val_main_v14_apply, val_main_v13_apply, val_main_v12_apply, val_main_cst_2_apply]
  rfl

theorem shiftAt1 (x10 : Arr S6144) (p : Fin 8192) (q : Fin 6144) : val_main_v20 (F := Ideal) x10 (ix2 p q) = x10 (ix1 q) := by
  rw [val_main_v20_apply, val_main_v19_apply]
  exact congrArg x10 (funext fun a => Fin.ext (by match a with | ⟨0, _⟩ => rfl))

theorem dotAt1 (x0 : Arr S8192x784) (x1 : Arr S6144x784) (p : Fin 8192) (q : Fin 6144) :
    val_main_v5 (F := Ideal) x0 x1 (ix2 p q) = ∑ k : Fin 784, x0 (ix2 p k) * Cert.Spec.sgn (x1 (ix2 q k)) := by
  rw [val_main_v5_apply]
  refine Finset.sum_congr rfl fun k _ => ?_
  have hl : lidx_main_v5 (ix2 p q) k = ix2 p k := funext fun a => Fin.ext (by match a with | ⟨0, _⟩ => rfl | ⟨1, _⟩ => rfl)
  have hr : ridx_main_v5 (ix2 p q) k = ix2 k q := funext fun a => Fin.ext (by match a with | ⟨0, _⟩ => rfl | ⟨1, _⟩ => rfl)
  rw [hl, hr, signW1]

theorem stage1_eq (x0 : Arr S8192x784) (x1 : Arr S6144x784) (x2 x9 x10 x11 x12 : Arr S6144) :
    val_main_v26 (F := Ideal) x0 x1 x2 x9 x10 x11 x12 = Cert.Spec.stage x0 x1 x2 x9 x10 x11 x12 := by
  funext i
  obtain ⟨p, q, rfl⟩ : ∃ (p : Fin 8192) (q : Fin 6144), i = ix2 p q := ⟨i 0, i 1, eq_ix2 i⟩
  rw [val_main_v26_apply, val_main_v25_apply, val_main_v24_apply, val_main_v22_apply,
    val_main_call1_v4_apply, val_main_call1_v3_apply, val_main_cst_4_apply,
    val_main_call1_v2_apply, val_main_call1_v1_apply, val_main_call1_v0_apply, val_main_cst_3_apply,
    val_main_v21_apply, val_main_v18_apply, val_main_v11_apply, val_main_v8_apply,
    dotAt1, biasAt1, meanAt1, scaleAt1, shiftAt1,
    val_main_v23_apply, val_main_cst_5_apply, val_main_call2_v0_apply, val_main_cst_6_apply,
    val_main_call2_v1_apply, val_main_cst_7_apply]
  rfl

theorem signW2 (x3 : Arr S6144x6144) (k : Fin 6144) (q : Fin 6144) :
    val_main_v31 (F := Ideal) x3 (ix2 k q) = Cert.Spec.sgn (x3 (ix2 q k)) := by
  rw [val_main_v31_apply, val_main_v30_apply, val_main_v29_apply, val_main_v28_apply, val_main_v27_apply,
    val_main_cst_8_apply, val_main_call3_v0_apply, val_main_cst_9_apply, val_main_call3_v1_apply, val_main_cst_10_apply]
  have hi : idx_main_v31 (ix2 k q) = ix2 q k := funext fun a => Fin.ext (by match a with | ⟨0, _⟩ => rfl | ⟨1, _⟩ => rfl)
  rw [hi]
  rfl

theorem biasAt2 (x4 : Arr S6144) (p : Fin 8192) (q : Fin 6144) : val_main_v34 (F := Ideal) x4 (ix2 p q) = x4 (ix1 q) := by
  rw [val_main_v34_apply, val_main_v33_apply]
  exact congrArg x4 (funext fun a => Fin.ext (by match a with | ⟨0, _⟩ => rfl))

theorem meanAt2 (x15 : Arr S6144) (p : Fin 8192) (q : Fin 6144) : val_main_v37 (F := Ideal) x15 (ix2 p q) = x15 (ix1 q) := by
  rw [val_main_v37_apply, val_main_v36_apply]
  exact congrArg x15 (funext fun a => Fin.ext (by match a with | ⟨0, _⟩ => rfl))

theorem scaleAt2 (x13 x16 : Arr S6144) (p : Fin 8192) (q : Fin 6144) :
    val_main_v44 (F := Ideal) x13 x16 (ix2 p q) = x13 (ix1 q) * Ideal.rsqrt (x16 (ix1 q) + Cert.Spec.eps) := by
  rw [val_main_v44_apply, val_main_v43_apply]
  have hi : idx_main_v43 (idx_main_v44 (ix2 p q)) = ix1 q := funext fun a => Fin.ext (by match a with | ⟨0, _⟩ => rfl)
  rw [hi, val_main_v42_apply, val_main_v41_apply, val_main_v40_apply, val_main_v39_apply, val_main_cst_11_apply]
  rfl

theorem shiftAt2 (x14 : Arr S6144) (p : Fin 8192) (q : Fin 6144) : val_main_v47 (F := Ideal) x14 (ix2 p q) = x14 (ix1 q) := by
  rw [val_main_v47_apply, val_main_v46_apply]
  exact congrArg x14 (funext fun a => Fin.ext (by match a with | ⟨0, _⟩ => rfl))

theorem dotAt2 (x0 : Arr S8192x784) (x1 : Arr S6144x784) (x2 : Arr S6144) (x3 : Arr S6144x6144) (x9 x10 x11 x12 : Arr S6144) (p : Fin 8192) (q : Fin 6144) :
    val_main_v32 (F := Ideal) x0 x1 x2 x3 x9 x10 x11 x12 (ix2 p q) = ∑ k : Fin 6144, (val_main_v26 (F := Ideal) x0 x1 x2 x9 x10 x11 x12) (ix2 p k) * Cert.Spec.sgn (x3 (ix2 q k)) := by
  rw [val_main_v32_apply]
  refine Finset.sum_congr rfl fun k _ => ?_
  have hl : lidx_main_v32 (ix2 p q) k = ix2 p k := funext fun a => Fin.ext (by match a with | ⟨0, _⟩ => rfl | ⟨1, _⟩ => rfl)
  have hr : ridx_main_v32 (ix2 p q) k = ix2 k q := funext fun a => Fin.ext (by match a with | ⟨0, _⟩ => rfl | ⟨1, _⟩ => rfl)
  rw [hl, hr, signW2]

theorem stage2_eq (x0 : Arr S8192x784) (x1 : Arr S6144x784) (x2 : Arr S6144) (x3 : Arr S6144x6144) (x4 x9 x10 x11 x12 x13 x14 x15 x16 : Arr S6144) :
    val_main_v53 (F := Ideal) x0 x1 x2 x3 x4 x9 x10 x11 x12 x13 x14 x15 x16 = Cert.Spec.stage (val_main_v26 (F := Ideal) x0 x1 x2 x9 x10 x11 x12) x3 x4 x13 x14 x15 x16 := by
  funext i
  obtain ⟨p, q, rfl⟩ : ∃ (p : Fin 8192) (q : Fin 6144), i = ix2 p q := ⟨i 0, i 1, eq_ix2 i⟩
  rw [val_main_v53_apply, val_main_v52_apply, val_main_v51_apply, val_main_v49_apply,
    val_main_call4_v4_apply, val_main_call4_v3_apply, val_main_cst_13_apply,
    val_main_call4_v2_apply, val_main_call4_v1_apply, val_main_call4_v0_apply, val_main_cst_12_apply,
    val_main_v48_apply, val_main_v45_apply, val_main_v38_apply, val_main_v35_apply,
    dotAt2, biasAt2, meanAt2, scaleAt2, shiftAt2,
    val_main_v50_apply, val_main_cst_14_apply, val_main_call5_v0_apply, val_main_cst_15_apply,
    val_main_call5_v1_apply, val_main_cst_16_apply]
  rfl

theorem signW3 (x5 : Arr S6144x6144) (k : Fin 6144) (q : Fin 6144) :
    val_main_v58 (F := Ideal) x5 (ix2 k q) = Cert.Spec.sgn (x5 (ix2 q k)) := by
  rw [val_main_v58_apply, val_main_v57_apply, val_main_v56_apply, val_main_v55_apply, val_main_v54_apply,
    val_main_cst_17_apply, val_main_call6_v0_apply, val_main_cst_18_apply, val_main_call6_v1_apply, val_main_cst_19_apply]
  have hi : idx_main_v58 (ix2 k q) = ix2 q k := funext fun a => Fin.ext (by match a with | ⟨0, _⟩ => rfl | ⟨1, _⟩ => rfl)
  rw [hi]
  rfl

theorem biasAt3 (x6 : Arr S6144) (p : Fin 8192) (q : Fin 6144) : val_main_v61 (F := Ideal) x6 (ix2 p q) = x6 (ix1 q) := by
  rw [val_main_v61_apply, val_main_v60_apply]
  exact congrArg x6 (funext fun a => Fin.ext (by match a with | ⟨0, _⟩ => rfl))

theorem meanAt3 (x19 : Arr S6144) (p : Fin 8192) (q : Fin 6144) : val_main_v64 (F := Ideal) x19 (ix2 p q) = x19 (ix1 q) := by
  rw [val_main_v64_apply, val_main_v63_apply]
  exact congrArg x19 (funext fun a => Fin.ext (by match a with | ⟨0, _⟩ => rfl))

theorem scaleAt3 (x17 x20 : Arr S6144) (p : Fin 8192) (q : Fin 6144) :
    val_main_v71 (F := Ideal) x17 x20 (ix2 p q) = x17 (ix1 q) * Ideal.rsqrt (x20 (ix1 q) + Cert.Spec.eps) := by
  rw [val_main_v71_apply, val_main_v70_apply]
  have hi : idx_main_v70 (idx_main_v71 (ix2 p q)) = ix1 q := funext fun a => Fin.ext (by match a with | ⟨0, _⟩ => rfl)
  rw [hi, val_main_v69_apply, val_main_v68_apply, val_main_v67_apply, val_main_v66_apply, val_main_cst_20_apply]
  rfl

theorem shiftAt3 (x18 : Arr S6144) (p : Fin 8192) (q : Fin 6144) : val_main_v74 (F := Ideal) x18 (ix2 p q) = x18 (ix1 q) := by
  rw [val_main_v74_apply, val_main_v73_apply]
  exact congrArg x18 (funext fun a => Fin.ext (by match a with | ⟨0, _⟩ => rfl))

theorem dotAt3 (x0 : Arr S8192x784) (x1 : Arr S6144x784) (x2 : Arr S6144) (x3 : Arr S6144x6144) (x4 : Arr S6144) (x5 : Arr S6144x6144) (x9 x10 x11 x12 x13 x14 x15 x16 : Arr S6144) (p : Fin 8192) (q : Fin 6144) :
    val_main_v59 (F := Ideal) x0 x1 x2 x3 x4 x5 x9 x10 x11 x12 x13 x14 x15 x16 (ix2 p q) = ∑ k : Fin 6144, (val_main_v53 (F := Ideal) x0 x1 x2 x3 x4 x9 x10 x11 x12 x13 x14 x15 x16) (ix2 p k) * Cert.Spec.sgn (x5 (ix2 q k)) := by
  rw [val_main_v59_apply]
  refine Finset.sum_congr rfl fun k _ => ?_
  have hl : lidx_main_v59 (ix2 p q) k = ix2 p k := funext fun a => Fin.ext (by match a with | ⟨0, _⟩ => rfl | ⟨1, _⟩ => rfl)
  have hr : ridx_main_v59 (ix2 p q) k = ix2 k q := funext fun a => Fin.ext (by match a with | ⟨0, _⟩ => rfl | ⟨1, _⟩ => rfl)
  rw [hl, hr, signW3]

theorem stage3_eq (x0 : Arr S8192x784) (x1 : Arr S6144x784) (x2 : Arr S6144) (x3 : Arr S6144x6144) (x4 : Arr S6144) (x5 : Arr S6144x6144) (x6 x9 x10 x11 x12 x13 x14 x15 x16 x17 x18 x19 x20 : Arr S6144) :
    val_main_v80 (F := Ideal) x0 x1 x2 x3 x4 x5 x6 x9 x10 x11 x12 x13 x14 x15 x16 x17 x18 x19 x20 = Cert.Spec.stage (val_main_v53 (F := Ideal) x0 x1 x2 x3 x4 x9 x10 x11 x12 x13 x14 x15 x16) x5 x6 x17 x18 x19 x20 := by
  funext i
  obtain ⟨p, q, rfl⟩ : ∃ (p : Fin 8192) (q : Fin 6144), i = ix2 p q := ⟨i 0, i 1, eq_ix2 i⟩
  rw [val_main_v80_apply, val_main_v79_apply, val_main_v78_apply, val_main_v76_apply,
    val_main_call7_v4_apply, val_main_call7_v3_apply, val_main_cst_22_apply,
    val_main_call7_v2_apply, val_main_call7_v1_apply, val_main_call7_v0_apply, val_main_cst_21_apply,
    val_main_v75_apply, val_main_v72_apply, val_main_v65_apply, val_main_v62_apply,
    dotAt3, biasAt3, meanAt3, scaleAt3, shiftAt3,
    val_main_v77_apply, val_main_cst_23_apply, val_main_call8_v0_apply, val_main_cst_24_apply,
    val_main_call8_v1_apply, val_main_cst_25_apply]
  rfl

theorem headW (x7 : Arr S10x6144) (k : Fin 6144) (q : Fin 10) : val_main_v81 (F := Ideal) x7 (ix2 k q) = x7 (ix2 q k) := by
  rw [val_main_v81_apply]
  exact congrArg x7 (funext fun a => Fin.ext (by match a with | ⟨0, _⟩ => rfl | ⟨1, _⟩ => rfl))

theorem headBias (x8 : Arr S10) (p : Fin 8192) (q : Fin 10) : val_main_v84 (F := Ideal) x8 (ix2 p q) = x8 (ix1 q) := by
  rw [val_main_v84_apply, val_main_v83_apply]
  exact congrArg x8 (funext fun a => Fin.ext (by match a with | ⟨0, _⟩ => rfl))

theorem logits_eq (x0 : Arr S8192x784) (x1 : Arr S6144x784) (x2 : Arr S6144) (x3 : Arr S6144x6144) (x4 : Arr S6144) (x5 : Arr S6144x6144) (x6 : Arr S6144) (x7 : Arr S10x6144) (x8 : Arr S10) (x9 x10 x11 x12 x13 x14 x15 x16 x17 x18 x19 x20 : Arr S6144) :
    val_main_v85 (F := Ideal) x0 x1 x2 x3 x4 x5 x6 x7 x8 x9 x10 x11 x12 x13 x14 x15 x16 x17 x18 x19 x20 = Cert.Spec.logits (val_main_v80 (F := Ideal) x0 x1 x2 x3 x4 x5 x6 x9 x10 x11 x12 x13 x14 x15 x16 x17 x18 x19 x20) x7 x8 := by
  funext i
  obtain ⟨p, q, rfl⟩ : ∃ (p : Fin 8192) (q : Fin 10), i = ix2 p q := ⟨i 0, i 1, eq_ix2 i⟩
  rw [val_main_v85_apply, val_main_v82_apply, headBias]
  have hs : ∑ k : Fin 6144, (val_main_v80 (F := Ideal) x0 x1 x2 x3 x4 x5 x6 x9 x10 x11 x12 x13 x14 x15 x16 x17 x18 x19 x20) (lidx_main_v82 (ix2 p q) k) * (val_main_v81 (F := Ideal) x7) (ridx_main_v82 (ix2 p q) k)
      = ∑ k : Fin 6144, (val_main_v80 (F := Ideal) x0 x1 x2 x3 x4 x5 x6 x9 x10 x11 x12 x13 x14 x15 x16 x17 x18 x19 x20) (ix2 p k) * x7 (ix2 q k) :=
    Finset.sum_congr rfl fun k _ => by
      have hl : lidx_main_v82 (ix2 p q) k = ix2 p k := funext fun a => Fin.ext (by match a with | ⟨0, _⟩ => rfl | ⟨1, _⟩ => rfl)
      have hr : ridx_main_v82 (ix2 p q) k = ix2 k q := funext fun a => Fin.ext (by match a with | ⟨0, _⟩ => rfl | ⟨1, _⟩ => rfl)
      rw [hl, hr, headW]
  rw [hs]
  rfl

theorem lift_row (h : S8192x10.Reduces [1] S8192) (p : Fin 8192) (k : Fin (S8192x10.size 1)) :
    h.lift (ix1 p) k = ix2 p (⟨k.val, k.isLt⟩ : Fin 10) := by
  funext c; apply Fin.ext
  match c with
  | ⟨0, _⟩ => rfl
  | ⟨1, _⟩ => rfl

theorem rowMaxAt (Z : Arr S8192x10) (p : Fin 8192) :
    max (Ideal.ofBits .f32 0xFF800000#32)
        (Host.reduce FloatOps.maximumf Z (val_main_call9_cst (F := Ideal)) reducesTo_S8192x10_S8192_d1 h_S_ (ix1 p))
      = Cert.Spec.rowMax Z p := by
  have h : S8192x10.Reduces [1] S8192 := by decide
  have hf : (Z ∘ h.lift (ix1 p)) = fun k : Fin 10 => Z (ix2 p k) := funext fun k => congrArg Z (lift_row h p k)
  have e0 := Host.reduce_eq_fold_single (FloatOps.maximumf (F := Ideal) (φ := .f32)) Z (val_main_call9_cst (F := Ideal))
    reducesTo_S8192x10_S8192_d1 h h_S_ (ix1 p)
  rw [e0]
  refine (congrArg (fun f => max (Ideal.ofBits .f32 0xFF800000#32)
    (Finset.fold max Cert.Spec.ninf f (Finset.univ : Finset (Fin 10)))) hf).trans ?_
  exact max_eq_right ((Finset.le_fold_max _).mpr (Or.inl le_rfl))

theorem rowMax_eq (x0 : Arr S8192x784) (x1 : Arr S6144x784) (x2 : Arr S6144) (x3 : Arr S6144x6144) (x4 : Arr S6144) (x5 : Arr S6144x6144) (x6 : Arr S6144) (x7 : Arr S10x6144) (x8 : Arr S10) (x9 x10 x11 x12 x13 x14 x15 x16 x17 x18 x19 x20 : Arr S6144) (p : Fin 8192) :
    val_main_call9_v2 (F := Ideal) x0 x1 x2 x3 x4 x5 x6 x7 x8 x9 x10 x11 x12 x13 x14 x15 x16 x17 x18 x19 x20 (ix1 p) = Cert.Spec.rowMax (val_main_v85 (F := Ideal) x0 x1 x2 x3 x4 x5 x6 x7 x8 x9 x10 x11 x12 x13 x14 x15 x16 x17 x18 x19 x20) p := by
  rw [val_main_call9_v2_apply, val_main_call9_v1_apply, val_main_call9_cst_0_apply]
  unfold val_main_call9_v0
  generalize val_main_v85 (F := Ideal) x0 x1 x2 x3 x4 x5 x6 x7 x8 x9 x10 x11 x12 x13 x14 x15 x16 x17 x18 x19 x20 = Z
  exact rowMaxAt Z p

theorem shiftedAt (x0 : Arr S8192x784) (x1 : Arr S6144x784) (x2 : Arr S6144) (x3 : Arr S6144x6144) (x4 : Arr S6144) (x5 : Arr S6144x6144) (x6 : Arr S6144) (x7 : Arr S10x6144) (x8 : Arr S10) (x9 x10 x11 x12 x13 x14 x15 x16 x17 x18 x19 x20 : Arr S6144) (p : Fin 8192) (q : Fin 10) :
    val_main_call9_v5 (F := Ideal) x0 x1 x2 x3 x4 x5 x6 x7 x8 x9 x10 x11 x12 x13 x14 x15 x16 x17 x18 x19 x20 (ix2 p q)
      = (val_main_v85 (F := Ideal) x0 x1 x2 x3 x4 x5 x6 x7 x8 x9 x10 x11 x12 x13 x14 x15 x16 x17 x18 x19 x20) (ix2 p q) - Cert.Spec.rowMax (val_main_v85 (F := Ideal) x0 x1 x2 x3 x4 x5 x6 x7 x8 x9 x10 x11 x12 x13 x14 x15 x16 x17 x18 x19 x20) p := by
  rw [val_main_call9_v5_apply, val_main_call9_v4_apply, val_main_call9_v3_apply]
  have hi : idx_main_call9_v3 (idx_main_call9_v4 (ix2 p q)) = ix1 p := funext fun a => Fin.ext (by match a with | ⟨0, _⟩ => rfl)
  rw [hi, rowMax_eq]
  rfl

theorem logSumAt (x0 : Arr S8192x784) (x1 : Arr S6144x784) (x2 : Arr S6144) (x3 : Arr S6144x6144) (x4 : Arr S6144) (x5 : Arr S6144x6144) (x6 : Arr S6144) (x7 : Arr S10x6144) (x8 : Arr S10) (x9 x10 x11 x12 x13 x14 x15 x16 x17 x18 x19 x20 : Arr S6144) (p : Fin 8192) (q : Fin 10) :
    val_main_call9_v10 (F := Ideal) x0 x1 x2 x3 x4 x5 x6 x7 x8 x9 x10 x11 x12 x13 x14 x15 x16 x17 x18 x19 x20 (ix2 p q)
      = Ideal.log (∑ k : Fin 10, Ideal.exp ((val_main_v85 (F := Ideal) x0 x1 x2 x3 x4 x5 x6 x7 x8 x9 x10 x11 x12 x13 x14 x15 x16 x17 x18 x19 x20) (ix2 p k) - Cert.Spec.rowMax (val_main_v85 (F := Ideal) x0 x1 x2 x3 x4 x5 x6 x7 x8 x9 x10 x11 x12 x13 x14 x15 x16 x17 x18 x19 x20) p)) := by
  rw [val_main_call9_v10_apply, val_main_call9_v9_apply, val_main_call9_v8_apply]
  have hi : idx_main_call9_v8 (idx_main_call9_v10 (ix2 p q)) = ix1 p := funext fun a => Fin.ext (by match a with | ⟨0, _⟩ => rfl)
  rw [hi, val_main_call9_v7_apply, val_main_call9_cst_1_apply]
  have hs : ∑ k : Fin 10, (val_main_call9_v6 (F := Ideal) x0 x1 x2 x3 x4 x5 x6 x7 x8 x9 x10 x11 x12 x13 x14 x15 x16 x17 x18 x19 x20) (idx_main_call9_v7 (ix1 p) k)
      = ∑ k : Fin 10, Ideal.exp ((val_main_v85 (F := Ideal) x0 x1 x2 x3 x4 x5 x6 x7 x8 x9 x10 x11 x12 x13 x14 x15 x16 x17 x18 x19 x20) (ix2 p k) - Cert.Spec.rowMax (val_main_v85 (F := Ideal) x0 x1 x2 x3 x4 x5 x6 x7 x8 x9 x10 x11 x12 x13 x14 x15 x16 x17 x18 x19 x20) p) :=
    Finset.sum_congr rfl fun k _ => by
      have hk : idx_main_call9_v7 (ix1 p) k = ix2 p k := funext fun a => Fin.ext (by match a with | ⟨0, _⟩ => rfl | ⟨1, _⟩ => rfl)
      rw [hk, val_main_call9_v6_apply, shiftedAt]
      rfl
  rw [hs, Ideal.ofBits_def, Ideal.ofBits_zero_f32, zero_add, Ideal.hostUnary_log_def]

theorem logSoftmax_eq (x0 : Arr S8192x784) (x1 : Arr S6144x784) (x2 : Arr S6144) (x3 : Arr S6144x6144) (x4 : Arr S6144) (x5 : Arr S6144x6144) (x6 : Arr S6144) (x7 : Arr S10x6144) (x8 : Arr S10) (x9 x10 x11 x12 x13 x14 x15 x16 x17 x18 x19 x20 : Arr S6144) :
    val_main_v86 (F := Ideal) x0 x1 x2 x3 x4 x5 x6 x7 x8 x9 x10 x11 x12 x13 x14 x15 x16 x17 x18 x19 x20 = Cert.Spec.logSoftmax (val_main_v85 (F := Ideal) x0 x1 x2 x3 x4 x5 x6 x7 x8 x9 x10 x11 x12 x13 x14 x15 x16 x17 x18 x19 x20) := by
  funext i
  obtain ⟨p, q, rfl⟩ : ∃ (p : Fin 8192) (q : Fin 10), i = ix2 p q := ⟨i 0, i 1, eq_ix2 i⟩
  rw [val_main_v86_apply, shiftedAt, logSumAt]
  rfl

theorem val_eq_net (x0 : Arr S8192x784) (x1 : Arr S6144x784) (x2 : Arr S6144) (x3 : Arr S6144x6144) (x4 : Arr S6144) (x5 : Arr S6144x6144) (x6 : Arr S6144) (x7 : Arr S10x6144) (x8 : Arr S10) (x9 x10 x11 x12 x13 x14 x15 x16 x17 x18 x19 x20 : Arr S6144) :
    val_main_v86 (F := Ideal) x0 x1 x2 x3 x4 x5 x6 x7 x8 x9 x10 x11 x12 x13 x14 x15 x16 x17 x18 x19 x20 = Cert.Spec.net x0 x1 x2 x3 x4 x5 x6 x7 x8 x9 x10 x11 x12 x13 x14 x15 x16 x17 x18 x19 x20 := by
  rw [logSoftmax_eq, logits_eq, stage3_eq, stage2_eq, stage1_eq]
  rfl

theorem result_eq (m : (ℓ : Loc nD τ sig) → Buf (Elt Ideal) ℓ) (c : Dev nD) :
    Cert.ReferenceIdeal.ValueP.res_main_v86 (F := Ideal) m c
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (val_main_v86_eq (F := Ideal) m c).trans (val_eq_net _ _ _ _ _ _ _ _ _ _ _ _ _ _ _ _ _ _ _ _ _)

end Cert.ReferenceIdeal.RefValue

end
-- ==== Proof.FrameKI.Body.lean ====
import proofs.«135515_j66743791780425_1_alg».proof.Proof.Gen.KernelIdeal.Launch
import Idealize.ShloMosaic.Lib.Pipeline.FrameBody
import Idealize.ShloMosaic.Lib.Pipeline.TableIdle

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole memref owned at `x` is its points-to at the one contents that read `x`. -/
theorem owns_unread {sp : Space} {sh : Shape} {e : EltTy} {c : Dev nD} {m : Memref sig .tc sp sh e} (h : m.IsWhole) (x : sh.Idx → Elt F e) :
    (owns c m fullShare x : sProp 𝕄) = (m.view.loc c ↦[m.view.set]{fullShare} h.unread x) := by
  rw [owns_eq_rep, h.eq_unread (View.read_rep _ _)]

/-- A covered list of writes, read back: the buffer holds the pieces' readback whatever it held before. -/
theorem owns_writes (c : Dev nD) {S : Shape} {e : EltTy} (m : Memref sig .tc .vmem S e) (v : View sig .tc .vmem S e)
    (L : List (View.Piece (Elt F) S e)) (h : ∀ y, ∃ p ∈ L, y ∈ p.1.set) :
    (iprop(∃ f, m.view.loc c ↦[m.view.set]{fullShare} m.view.writes (Elt F) f L) : sProp 𝕄)
      ⊢ owns c m fullShare (v.read (Elt F) (v.writes (Elt F) v.junk L)) := by
  iintro ⟨%f, H⟩
  unfold owns; iexists _; isplitr
  swap; · iexact H
  ipureintro; exact View.read_writes_of_cover _ _ _ _ _ h

/-- A run of the body framed: the invariant's rest, what the core owes and the inputs pass around it. -/
theorem bodyFrame (c : Dev nD) {α α0 α1 α2 α3 α4 α5 α6 : Type} {Φ P0 P1 P2 P3 P4 P5 P6 S S' QS R G O Q7 : sProp 𝕄} {P7 A7 B7 : α → sProp 𝕄}
    {e : Prog (TpuEff nD τ sig (Elt F) Λ₀ .tc) PUnit} (hΦ : Φ ⊢ iprop(iprop(S ∗ R) ∗ G))
    (run : ∀ d K, iprop(P0 ∗ P1 ∗ P2 ∗ P3 ∗ P4 ∗ P5 ∗ P6 ∗ A7 d ∗ S ∗ (iprop(P0 ∗ P1 ∗ P2 ∗ P3 ∗ P4 ∗ P5 ∗ P6 ∗ B7 d ∗ S') -∗ K ⟨⟩))
      ⊢ wp frame (wpE (defs₀ (F := F)) Variants.none c none) Set.univ e K)
    (hi : ∀ d, P7 d ⊢ A7 d) (ho : ∀ d, B7 d ⊢ Q7) (hS : S' ⊢ QS) :
    iprop(Φ ∗ O ∗ (∃ _ : α0, P0) ∗ (∃ _ : α1, P1) ∗ (∃ _ : α2, P2) ∗ (∃ _ : α3, P3) ∗ (∃ _ : α4, P4) ∗ (∃ _ : α5, P5) ∗ (∃ _ : α6, P6) ∗ ∃ d, P7 d)
      ⊢ wp frame (wpE (defs₀ (F := F)) Variants.none c none) Set.univ e fun _ =>
        iprop(iprop(iprop(QS ∗ R) ∗ G) ∗ O ∗ P0 ∗ P1 ∗ P2 ∗ P3 ∗ P4 ∗ P5 ∗ P6 ∗ Q7) := by
  refine (sep_mono_left hΦ).trans ?_
  iintro ⟨⟨⟨HS, HR⟩, HG⟩, HO, ⟨%_, H0⟩, ⟨%_, H1⟩, ⟨%_, H2⟩, ⟨%_, H3⟩, ⟨%_, H4⟩, ⟨%_, H5⟩, ⟨%_, H6⟩, ⟨%d, H7⟩⟩
  iapply run d
  iframe H0 H1 H2 H3 H4 H5 H6 HS
  isplitl [H7]; · iapply hi; iexact H7
  iintro ⟨H0, H1, H2, H3, H4, H5, H6, H7, HS⟩
  iframe HR HG HO H0 H1 H2 H3 H4 H5 H6
  isplitl [HS]; · iapply hS; iexact HS
  iapply ho; iexact H7

/-- A buffer some writes were stored into holds some contents. -/
theorem owns_some (c : Dev nD) {S : Shape} {e : EltTy} (m : Memref sig .tc .vmem S e) (L : List (View.Piece (Elt F) S e)) :
    (iprop(∃ f, m.view.loc c ↦[m.view.set]{fullShare} m.view.writes (Elt F) f L) : sProp 𝕄)
      ⊢ ∃ d, owns c m fullShare d := by
  iintro ⟨%f, H⟩
  iexists _; unfold owns; iexists _; isplitr
  swap; · iexact H
  ipureintro; rfl

end Cert.KernelIdeal.Gen
-- ==== Proof.FrameKI.Run0.lean ====
import proofs.«135515_j66743791780425_1_alg».proof.Proof.Gen.KernelIdeal.Launch
import proofs.«135515_j66743791780425_1_alg».proof.Proof.Gen.KernelIdeal.Skeleton
import proofs.«135515_j66743791780425_1_alg».proof.Proof.Gen.KernelIdeal.Points
import proofs.«135515_j66743791780425_1_alg».proof.Proof.FrameKI.Body
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))
theorem liveAt0 : ∀ (w : Fin cfg0.W) (t : Fin cfg0.N), cfg0.idle w (grid0.coords t) = false := by decide +kernel
abbrev VO0_7 : View sig .tc .vmem S1024x1024 .bf16 := (Memref.whole cc0_stg7_0 : Memref sig .tc .vmem S1024x1024 .bf16).view
abbrev ms0_0 (t : Fin cfg0.N) : Memref sig .tc .vmem S1024x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x784 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev scM0_0 : Memref sig .tc .vmem S1024x1024 .f32 := Memref.whole cc0_scratch0
abbrev VS0_0 : View sig .tc .vmem S1024x1024 .f32 := scM0_0.view
theorem PhiA0_eq (c : Dev nD) :
    (Pipeline.ΦA spec0 c : sProp 𝕄)
      = iprop(iprop(iprop((∃ d, owns c scM0_0 fullShare d)) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-- The only step: the accumulator is reset, the product added, and the epilogue of the sum stored to the output block. -/
def kernelRun0 (c : Dev nD) (i : grid0.Coords) (arg3 : Memref sig .tc .vmem S1024x784 .f32) (harg3 : arg3.IsWhole) (arg4 : Memref sig .tc .vmem S1024x784 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : cond0_0 i) (hc1 : cond0_1 i) (x0 : Vec F S1024x784 .f32) (x1 : Vec F S1024x784 .f32) (x2 : Vec F S1x1024 .f32) (x3 : Vec F S1x1024 .f32) (x4 : Vec F S1x1024 .f32) (x5 : Vec F S1x1024 .f32) (x6 : Vec F S1x1024 .f32) :
    Σ' (L7 : List (View.Piece (Elt F) S1024x1024 .bf16)), { LS0 : List (View.Piece (Elt F) S1024x1024 .f32) //
      ∀ (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ d, owns c arg10 fullShare d) ∗ (∃ d, owns c arg11 fullShare d)
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ f, arg10.view.loc c ↦[arg10.view.set]{fullShare} arg10.view.writes (Elt F) f L7) ∗ (∃ f, arg11.view.loc c ↦[arg11.view.set]{fullShare} arg11.view.writes (Elt F) f LS0)) -∗ K ⟨⟩))
          ⊢ wp frame (wpE (defs₀ (F := F)) Variants.none c none) E (cc0__bin_linear_bn_kernel i arg3 harg3 arg4 harg4 arg5 harg5 arg6 harg6 arg7 harg7 arg8 harg8 arg9 harg9 arg10 harg10 arg11 harg11) K } := by
  refine ⟨?_, ?_, fun E K => ?run⟩
  case run =>
    simp (disch := assumption) only [cc0__bin_linear_bn_kernel_eq_skeleton, owns_unread]; unfold cc0__bin_linear_bn_kernel_skel
    iintro ⟨H0, H1, H2, H3, H4, H5, H6, ⟨%d7, H7⟩, ⟨%ds0, HS0⟩, Hk⟩
    sl_exec (disch := first | exact hc0 | exact hc1)
    sl_step
    iapply Hk
    iframe
    isplitl [H7]; · iexists _; iexact H7
    iexists _; iexact HS0

end Cert.KernelIdeal.Gen

end
-- ==== Proof.FrameKI.Reg0.lean ====
import proofs.«135515_j66743791780425_1_alg».proof.Proof.FrameKI.Run0
import proofs.«135515_j66743791780425_1_alg».proof.Proof.FrameKI.Body

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Piece
variable (c : Dev nD) (i : grid0.Coords) (arg3 : Memref sig .tc .vmem S1024x784 .f32) (harg3 : arg3.IsWhole) (arg4 : Memref sig .tc .vmem S1024x784 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : cond0_0 i) (hc1 : cond0_1 i) (x0 x1 : Vec F S1024x784 .f32) (x2 x3 x4 x5 x6 : Vec F S1x1024 .f32)

theorem cover0_7 (y : S1024x1024.Idx) : ∃ pc ∈ (kernelRun0 c i arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL _ S1024x1024.size (by sl_kernel_rfl) y

def out0_7 : Vec F S1024x1024 .bf16 :=
  VO0_7.read (Elt F) (VO0_7.writes (Elt F) VO0_7.junk (kernelRun0 c i arg3 harg3 arg4 harg4 arg5 harg5 arg6 harg6 arg7 harg7 arg8 harg8 arg9 harg9 arg10 harg10 arg11 harg11 hc0 hc1 x0 x1 x2 x3 x4 x5 x6).1)

end Piece

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def outAt0 (c : Dev nD) (t : Fin cfg0.N) : Vec F S1024x1024 .bf16 :=
  out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (hcond0_0 t) (hcond0_1 t) (iblk0 V c 0 t) (iblk0 V c 1 t) (iblk0 V c 2 t) (iblk0 V c 3 t) (iblk0 V c 4 t) (iblk0 V c 5 t) (iblk0 V c 6 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = outAt0 V c t := by dsimp only [dat0]

theorem before0 (c : Dev nD) (t : Fin cfg0.N) : ∀ w : Fin cfg0.W, w ≠ 7 → ∀ d, (dat0 V c).before w t d = (dat0 V c).after w t
  | ⟨0, _⟩, _ | ⟨1, _⟩, _ | ⟨2, _⟩, _ | ⟨3, _⟩, _ | ⟨4, _⟩, _ | ⟨5, _⟩, _ | ⟨6, _⟩, _ => fun d =>
    ((dat0 V c).before_in_eq_fetched _ rfl (fun _ => rfl) (fun _ _ _ => rfl) (fun _ => rfl) t d).trans rfl
  | ⟨7, _⟩, h => absurd rfl h

set_option maxHeartbeats 4000000 in
theorem body_obligation0 (c : Dev nD) : BodyObligation (dat0 (F := F) V c) (defs₀ (F := F)) Variants.none () Set.univ := fun t => by
  rw [bigSep_W0, bigSep_W0]
  simp only [before0 V c t 0 (by decide), before0 V c t 1 (by decide), before0 V c t 2 (by decide), before0 V c t 3 (by decide), before0 V c t 4 (by decide), before0 V c t 5 (by decide), before0 V c t 6 (by decide), show idle0 7 (grid0.coords t) = false from liveAt0 7 t, after0_7]
  rw [show (dat0 V c).Φ t.succ = Pipeline.ΦA spec0 c from rfl, PhiA0_eq]
  unfold outAt0 out0_7
  exact bodyFrame c (.of_eq (PhiA0_eq c)) (fun d K => (kernelRun0 c (grid0.coords t) _ _ _ _ _ _ _ _ _ _ _ _ _ _ _ _ _ _ (hcond0_0 t) (hcond0_1 t) _ _ _ _ _ _ _).2.2 Set.univ K)
    (fun _ => exists_intro _) (fun _ => owns_writes c _ _ _ (cover0_7 c _ _ _ _ _ _ _ _ _ _ _ _ _ _ _ _ _ _ _ _ _ _ _ _ _ _ _ _)) (owns_some c _ _)

theorem hin0 (c : Dev nD) : Pipeline.ΦA spec0 c ⊢ (dat0 V c).Φ 0 := Idealize.SL.BI.Entails.refl _
theorem hout0 (c : Dev nD) : (dat0 V c).Φ (Fin.last cfg0.N) ⊢ Pipeline.ΦA spec0 c := Idealize.SL.BI.Entails.refl _

end Region

end Cert.KernelIdeal.Gen

end
-- ==== Proof.FrameKI.Run1.lean ====
import proofs.«135515_j66743791780425_1_alg».proof.Proof.Gen.KernelIdeal.Launch
import proofs.«135515_j66743791780425_1_alg».proof.Proof.Gen.KernelIdeal.Skeleton
import proofs.«135515_j66743791780425_1_alg».proof.Proof.Gen.KernelIdeal.Points
import proofs.«135515_j66743791780425_1_alg».proof.Proof.FrameKI.Body
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel
abbrev VO1_7 : View sig .tc .vmem S1024x1024 .bf16 := (Memref.whole cc1_stg7_0 : Memref sig .tc .vmem S1024x1024 .bf16).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .bf16 := win1_7.stage (cfg1.slots t 7)
abbrev hs1_7 (t : Fin cfg1.N) : (ms1_7 t).IsWhole := hstage1_7 ((cfg1.slots t 7).cast nbuf1_7)
abbrev scM1_0 : Memref sig .tc .vmem S1024x1024 .f32 := Memref.whole cc1_scratch0
abbrev VS1_0 : View sig .tc .vmem S1024x1024 .f32 := scM1_0.view
theorem PhiA1_eq (c : Dev nD) :
    (Pipeline.ΦA spec1 c : sProp 𝕄)
      = iprop(iprop(iprop((∃ d, owns c scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

section
variable (c : Dev nD) (i : grid1.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)

section
variable (hc0 : cond1_0 i) (hc1 : ¬cond1_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32)
/-- A first reduction step: the accumulator is reset and the step's product added; the output block is handed back. -/
def kernelRun1_A :
    Σ' (L7 : List (View.Piece (Elt F) S1024x1024 .bf16)), { LS0 : List (View.Piece (Elt F) S1024x1024 .f32) //
      ∀ (xi7 : Vec F S1024x1024 .bf16) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ d, owns c arg11 fullShare d)
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ f, arg11.view.loc c ↦[arg11.view.set]{fullShare} arg11.view.writes (Elt F) f LS0)) -∗ K ⟨⟩))
          ⊢ wp frame (wpE (defs₀ (F := F)) Variants.none c none) E (cc1__bin_linear_bn_kernel i arg3 harg3 arg4 harg4 arg5 harg5 arg6 harg6 arg7 harg7 arg8 harg8 arg9 harg9 arg10 harg10 arg11 harg11) K } := by
  refine ⟨[], ?_, fun xi7 E K => ?run⟩
  case run =>
    simp (disch := assumption) only [cc1__bin_linear_bn_kernel_eq_skeleton, owns_unread]; unfold cc1__bin_linear_bn_kernel_skel
    iintro ⟨H0, H1, H2, H3, H4, H5, H6, H7, ⟨%ds0, HS0⟩, Hk⟩
    sl_exec (disch := first | exact hc0 | exact hc1)
    sl_step
    iapply Hk
    iframe
    iexists _; iexact HS0
end

variable (hc0 : ¬cond1_0 i)

section
variable (hc1 : ¬cond1_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32) (xs0 : Vec F S1024x1024 .f32)
/-- A middle step: one more product is added to the accumulator. -/
def kernelRun1_B :
    Σ' (L7 : List (View.Piece (Elt F) S1024x1024 .bf16)), { LS0 : List (View.Piece (Elt F) S1024x1024 .f32) //
      ∀ (xi7 : Vec F S1024x1024 .bf16) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ owns c arg11 fullShare xs0
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ f, arg11.view.loc c ↦[arg11.view.set]{fullShare} arg11.view.writes (Elt F) f LS0)) -∗ K ⟨⟩))
          ⊢ wp frame (wpE (defs₀ (F := F)) Variants.none c none) E (cc1__bin_linear_bn_kernel i arg3 harg3 arg4 harg4 arg5 harg5 arg6 harg6 arg7 harg7 arg8 harg8 arg9 harg9 arg10 harg10 arg11 harg11) K } := by
  refine ⟨[], ?_, fun xi7 E K => ?run⟩
  case run =>
    simp (disch := assumption) only [cc1__bin_linear_bn_kernel_eq_skeleton, owns_unread]; unfold cc1__bin_linear_bn_kernel_skel
    iintro ⟨H0, H1, H2, H3, H4, H5, H6, H7, HS0, Hk⟩
    sl_exec (disch := first | exact hc0 | exact hc1)
    sl_step
    iapply Hk
    iframe
    iexists _; iexact HS0
end

variable (hc1 : cond1_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32) (xs0 : Vec F S1024x1024 .f32)
/-- The last step: the last product is added and the epilogue of the finished sum stored to the output block. -/
def kernelRun1_C :
    Σ' (L7 : List (View.Piece (Elt F) S1024x1024 .bf16)), { LS0 : List (View.Piece (Elt F) S1024x1024 .f32) //
      ∀ (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ d, owns c arg10 fullShare d) ∗ owns c arg11 fullShare xs0
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ f, arg10.view.loc c ↦[arg10.view.set]{fullShare} arg10.view.writes (Elt F) f L7) ∗ (∃ f, arg11.view.loc c ↦[arg11.view.set]{fullShare} arg11.view.writes (Elt F) f LS0)) -∗ K ⟨⟩))
          ⊢ wp frame (wpE (defs₀ (F := F)) Variants.none c none) E (cc1__bin_linear_bn_kernel i arg3 harg3 arg4 harg4 arg5 harg5 arg6 harg6 arg7 harg7 arg8 harg8 arg9 harg9 arg10 harg10 arg11 harg11) K } := by
  refine ⟨?_, ?_, fun E K => ?run⟩
  case run =>
    simp (disch := assumption) only [cc1__bin_linear_bn_kernel_eq_skeleton, owns_unread]; unfold cc1__bin_linear_bn_kernel_skel
    iintro ⟨H0, H1, H2, H3, H4, H5, H6, ⟨%d7, H7⟩, HS0, Hk⟩
    sl_exec (disch := first | exact hc0 | exact hc1)
    sl_step
    iapply Hk
    iframe
    isplitl [H7]; · iexists _; iexact H7
    iexists _; iexact HS0
end

end Cert.KernelIdeal.Gen

end
-- ==== Proof.FrameKI.Reg1.lean ====
import proofs.«135515_j66743791780425_1_alg».proof.Proof.FrameKI.Run1
import proofs.«135515_j66743791780425_1_alg».proof.Proof.FrameKI.Body

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces
variable (c : Dev nD) (i : grid1.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)

section
variable (hc0 : cond1_0 i) (hc1 : ¬cond1_1 i) (x0 : Vec F S1024x512 .bf16) (x1 : Vec F S1024x512 .f32) (x2 x3 x4 x5 x6 : Vec F S1x1024 .f32)

def out1_A_7 : Vec F S1024x1024 .bf16 :=
  VO1_7.read (Elt F) (VO1_7.writes (Elt F) VO1_7.junk (kernelRun1_A c i arg3 harg3 arg4 harg4 arg5 harg5 arg6 harg6 arg7 harg7 arg8 harg8 arg9 harg9 arg10 harg10 arg11 harg11 hc0 hc1 x0 x1 x2 x3 x4 x5 x6).1)

theorem scover1_A_0 (y : S1024x1024.Idx) : ∃ pc ∈ (kernelRun1_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL _ S1024x1024.size (by sl_kernel_rfl) y

def sout1_A_0 : Vec F S1024x1024 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3 x4 x5 x6).2.1)

end

section
variable (hc0 : ¬cond1_0 i) (hc1 : ¬cond1_1 i) (x0 : Vec F S1024x512 .bf16) (x1 : Vec F S1024x512 .f32) (x2 x3 x4 x5 x6 : Vec F S1x1024 .f32) (xs0 : Vec F S1024x1024 .f32)

def out1_B_7 : Vec F S1024x1024 .bf16 :=
  VO1_7.read (Elt F) (VO1_7.writes (Elt F) VO1_7.junk (kernelRun1_B c i arg3 harg3 arg4 harg4 arg5 harg5 arg6 harg6 arg7 harg7 arg8 harg8 arg9 harg9 arg10 harg10 arg11 harg11 hc0 hc1 x0 x1 x2 x3 x4 x5 x6 xs0).1)

theorem scover1_B_0 (y : S1024x1024.Idx) : ∃ pc ∈ (kernelRun1_B c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL _ S1024x1024.size (by sl_kernel_rfl) y

def sout1_B_0 : Vec F S1024x1024 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 x4 x5 x6 xs0).2.1)

end

section
variable (hc0 : ¬cond1_0 i) (hc1 : cond1_1 i) (x0 : Vec F S1024x512 .bf16) (x1 : Vec F S1024x512 .f32) (x2 x3 x4 x5 x6 : Vec F S1x1024 .f32) (xs0 : Vec F S1024x1024 .f32)

theorem cover1_C_7 (y : S1024x1024.Idx) : ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL _ S1024x1024.size (by sl_kernel_rfl) y

def out1_C_7 : Vec F S1024x1024 .bf16 :=
  VO1_7.read (Elt F) (VO1_7.writes (Elt F) VO1_7.junk (kernelRun1_C c i arg3 harg3 arg4 harg4 arg5 harg5 arg6 harg6 arg7 harg7 arg8 harg8 arg9 harg9 arg10 harg10 arg11 harg11 hc0 hc1 x0 x1 x2 x3 x4 x5 x6 xs0).1)

theorem scover1_C_0 (y : S1024x1024.Idx) : ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL _ S1024x1024.size (by sl_kernel_rfl) y

def sout1_C_0 : Vec F S1024x1024 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 x5 x6 xs0).2.1)

end

end Pieces

section Region
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves at point `t` in a first, a middle and the last reduction step: the output block, then the accumulator. -/
abbrev pairA1 (c : Dev nD) (t : Fin cfg1.N) (hc0 : cond1_0 (grid1.coords t)) (hc1 : ¬cond1_1 (grid1.coords t)) : Vec F S1024x1024 .bf16 × Vec F S1024x1024 .f32 :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t))

abbrev pairB1 (c : Dev nD) (t : Fin cfg1.N) (hc0 : ¬cond1_0 (grid1.coords t)) (hc1 : ¬cond1_1 (grid1.coords t)) (xs0 : Vec F S1024x1024 .f32) : Vec F S1024x1024 .bf16 × Vec F S1024x1024 .f32 :=
  (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t) xs0, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t) xs0)

abbrev pairC1 (c : Dev nD) (t : Fin cfg1.N) (hc0 : ¬cond1_0 (grid1.coords t)) (hc1 : cond1_1 (grid1.coords t)) (xs0 : Vec F S1024x1024 .f32) : Vec F S1024x1024 .bf16 × Vec F S1024x1024 .f32 :=
  (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t) xs0, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) hc0 hc1 (iblk1 V c 0 t) (iblk1 V c 1 t) (iblk1 V c 2 t) (iblk1 V c 3 t) (iblk1 V c 4 t) (iblk1 V c 5 t) (iblk1 V c 6 t) xs0)

/-- The accumulation: the case the position's residue modulo 12 selects, over the accumulator the position before left. -/
def outsAt1 (c : Dev nD) : (n : ℕ) → n < cfg1.N → Vec F S1024x1024 .bf16 × Vec F S1024x1024 .f32
  | 0, hn => pairA1 V c ⟨0, hn⟩ ((hcond1_0 ⟨0, hn⟩).mpr (Nat.zero_mod _)) fun h => (by omega : ¬0 % 12 = 11) ((hcond1_1 ⟨0, hn⟩).mp h)
  | n + 1, hn =>
    if h1 : (n + 1) % 12 = 11 then
      pairC1 V c ⟨n + 1, hn⟩ (fun h => by have : (n + 1) % 12 = 0 := (hcond1_0 ⟨n + 1, hn⟩).mp h; omega) ((hcond1_1 ⟨n + 1, hn⟩).mpr h1) (outsAt1 c n (Nat.lt_of_succ_lt hn)).2
    else if h0 : (n + 1) % 12 = 0 then
      pairA1 V c ⟨n + 1, hn⟩ ((hcond1_0 ⟨n + 1, hn⟩).mpr h0) fun h => h1 ((hcond1_1 ⟨n + 1, hn⟩).mp h)
    else
      pairB1 V c ⟨n + 1, hn⟩ (fun h => h0 ((hcond1_0 ⟨n + 1, hn⟩).mp h)) (fun h => h1 ((hcond1_1 ⟨n + 1, hn⟩).mp h)) (outsAt1 c n (Nat.lt_of_succ_lt hn)).2

theorem outsAt1_A (c : Dev nD) (t : Fin cfg1.N) (h0 : t.val % 12 = 0) (h1 : ¬t.val % 12 = 11) :
    outsAt1 V c t.val t.isLt = pairA1 V c t ((hcond1_0 t).mpr h0) (fun h => h1 ((hcond1_1 t).mp h)) := by
  obtain ⟨_ | n, hn⟩ := t
  exacts [rfl, (dif_neg h1).trans (dif_pos h0)]

theorem outsAt1_B (c : Dev nD) (t : Fin cfg1.N) (h0 : ¬t.val % 12 = 0) (h1 : ¬t.val % 12 = 11) :
    outsAt1 V c t.val t.isLt = pairB1 V c t (fun h => h0 ((hcond1_0 t).mp h)) (fun h => h1 ((hcond1_1 t).mp h)) (outsAt1 V c (t.val - 1) (Nat.lt_of_le_of_lt (Nat.sub_le _ _) t.isLt)).2 := by
  obtain ⟨_ | n, hn⟩ := t
  exacts [absurd (Nat.zero_mod _) h0, (dif_neg h1).trans (dif_neg h0)]

theorem outsAt1_C (c : Dev nD) (t : Fin cfg1.N) (h0 : ¬t.val % 12 = 0) (h1 : t.val % 12 = 11) :
    outsAt1 V c t.val t.isLt = pairC1 V c t (fun h => h0 ((hcond1_0 t).mp h)) ((hcond1_1 t).mpr h1) (outsAt1 V c (t.val - 1) (Nat.lt_of_le_of_lt (Nat.sub_le _ _) t.isLt)).2 := by
  obtain ⟨_ | n, hn⟩ := t
  exacts [absurd (Nat.zero_mod _) h0, dif_pos h1]

/-- The invariant with the accumulator's part `P`, beside everything else the region holds. -/
abbrev accInv1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

/-- Before the first point what the launch hands over; afterwards the accumulator at what the position before left. -/
def PhiS1 (c : Dev nD) : (n : ℕ) → n ≤ cfg1.N → sProp 𝕄
  | 0, _ => Pipeline.ΦA spec1 c
  | n + 1, hn => accInv1 c (owns (c : Thread nD τ) scM1_0 fullShare (outsAt1 V c n hn).2)

theorem PhiS1_pos (c : Dev nD) (n : ℕ) (h : n ≤ cfg1.N) (hz : n ≠ 0) :
    PhiS1 V c n h = accInv1 c (owns (c : Thread nD τ) scM1_0 fullShare (outsAt1 V c (n - 1) (by omega)).2) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = (outsAt1 V c t.val t.isLt).1 := by dsimp only [dat1]

/-- An input window holds its block at every point, and the body leaves it so. -/
theorem before1 (c : Dev nD) (t : Fin cfg1.N) : ∀ w : Fin cfg1.W, w ≠ 7 → ∀ d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ => fun d =>
    ((dat1 V c).before_in_eq_fetched _ rfl (fun _ => rfl) (fun _ _ _ => rfl) (fun _ => rfl) t d).trans rfl
  | ⟨7, _⟩, h => absurd rfl h

/-- After any point the invariant gives back what the launch handed over: the accumulator's named contents are forgotten. -/
theorem Phi_out1 (c : Dev nD) : ∀ t : Fin (cfg1.N + 1), (dat1 V c).Φ t ⊢ Pipeline.ΦA spec1 c
  | ⟨0, _⟩ => .rfl
  | ⟨n + 1, _⟩ => by rw [PhiA1_eq]; exact sep_mono (sep_mono (exists_intro _) .rfl) .rfl

theorem hin1 (c : Dev nD) : Pipeline.ΦA spec1 c ⊢ (dat1 V c).Φ 0 := .rfl

theorem hout1 (c : Dev nD) : (dat1 V c).Φ (Fin.last cfg1.N) ⊢ Pipeline.ΦA spec1 c := Phi_out1 V c _

set_option maxHeartbeats 4800000 in
/-- The body at any point: the position's residue modulo 12 selects the case whose run applies. -/
theorem body_obligation1 (c : Dev nD) : BodyObligation (dat1 (F := F) V c) (defs₀ (F := F)) Variants.none () Set.univ := fun t => by
  rw [bigSep_W1, bigSep_W1]
  simp only [before1 V c t 0 (by decide), before1 V c t 1 (by decide), before1 V c t 2 (by decide), before1 V c t 3 (by decide), before1 V c t 4 (by decide), before1 V c t 5 (by decide), before1 V c t 6 (by decide)]
  rw [show (dat1 V c).Φ t.succ = accInv1 c (owns (c : Thread nD τ) scM1_0 fullShare (outsAt1 V c t.val t.isLt).2) from rfl]
  by_cases h0 : t.val % 12 = 0
  · have h1 : ¬t.val % 12 = 11 := by omega
    have hc0 := (hcond1_0 t).mpr h0
    have hc1 : ¬cond1_1 (grid1.coords t) := fun h => h1 ((hcond1_1 t).mp h)
    simp only [show idle1 7 (grid1.coords t) = true from idleAt1_7_A t hc0 hc1, show (win1 7).flush t = false from noFlush1_7_A t hc0 hc1]
    rw [outsAt1_A V c t h0 h1]
    dsimp only [pairA1, sout1_A_0]
    exact bodyFrame c ((Phi_out1 V c _).trans (.of_eq (PhiA1_eq c)))
      (fun d K => (kernelRun1_A c (grid1.coords t) _ _ _ _ _ _ _ _ _ _ _ _ _ _ _ _ _ _ hc0 hc1 _ _ _ _ _ _ _).2.2 ((dat1 V c).before 7 t d) Set.univ K)
      (fun _ => .rfl) (fun d => exists_intro_trans d .rfl) (owns_writes c _ _ _ (scover1_A_0 c _ _ _ _ _ _ _ _ _ _ _ _ _ _ _ _ _ _ _ hc0 hc1 _ _ _ _ _ _ _))
  · have hΦ := PhiS1_pos V c t.val (Nat.le_of_lt t.isLt) fun h => h0 (by rw [h])
    have hc0 : ¬cond1_0 (grid1.coords t) := fun h => h0 ((hcond1_0 t).mp h)
    by_cases h1 : t.val % 12 = 11
    · have hc1 := (hcond1_1 t).mpr h1
      simp only [show idle1 7 (grid1.coords t) = false from liveAt1_7_C t hc0 hc1, after1_7]
      rw [outsAt1_C V c t h0 h1]
      dsimp only [pairC1, out1_C_7, sout1_C_0]
      exact bodyFrame c (.of_eq hΦ) (fun d K => (kernelRun1_C c (grid1.coords t) _ _ _ _ _ _ _ _ _ _ _ _ _ _ _ _ _ _ hc0 hc1 _ _ _ _ _ _ _ _).2.2 Set.univ K)
        (fun _ => exists_intro _) (fun _ => owns_writes c _ _ _ (cover1_C_7 c _ _ _ _ _ _ _ _ _ _ _ _ _ _ _ _ _ _ _ hc0 hc1 _ _ _ _ _ _ _ _))
        (owns_writes c _ _ _ (scover1_C_0 c _ _ _ _ _ _ _ _ _ _ _ _ _ _ _ _ _ _ _ hc0 hc1 _ _ _ _ _ _ _ _))
    · have hc1 : ¬cond1_1 (grid1.coords t) := fun h => h1 ((hcond1_1 t).mp h)
      simp only [show idle1 7 (grid1.coords t) = true from idleAt1_7_B t hc0 hc1, show (win1 7).flush t = false from noFlush1_7_B t hc0 hc1]
      rw [outsAt1_B V c t h0 h1]
      dsimp only [pairB1, sout1_B_0]
      exact bodyFrame c (.of_eq hΦ) (fun d K => (kernelRun1_B c (grid1.coords t) _ _ _ _ _ _ _ _ _ _ _ _ _ _ _ _ _ _ hc0 hc1 _ _ _ _ _ _ _ _).2.2 ((dat1 V c).before 7 t d) Set.univ K)
        (fun _ => .rfl) (fun d => exists_intro_trans d .rfl) (owns_writes c _ _ _ (scover1_B_0 c _ _ _ _ _ _ _ _ _ _ _ _ _ _ _ _ _ _ _ hc0 hc1 _ _ _ _ _ _ _ _))

end Region

end Cert.KernelIdeal.Gen

end
-- ==== Proof.FrameKI.Run2.lean ====
import proofs.«135515_j66743791780425_1_alg».proof.Proof.Gen.KernelIdeal.Launch
import proofs.«135515_j66743791780425_1_alg».proof.Proof.Gen.KernelIdeal.Skeleton
import proofs.«135515_j66743791780425_1_alg».proof.Proof.Gen.KernelIdeal.Points
import proofs.«135515_j66743791780425_1_alg».proof.Proof.FrameKI.Body
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 12 = 0 :=
  (by decide +kernel : ∀ t : Fin grid2.N, cond2_0 (grid2.coords t) ↔ t.val % 12 = 0)
abbrev cond2_1 (i : grid2.Coords) : Prop := k2_cond2 i = 1#1
theorem hcond2_1 : ∀ t : Fin cfg2.N, cond2_1 (grid2.coords t) ↔ t.val % 12 = 11 :=
  (by decide +kernel : ∀ t : Fin grid2.N, cond2_1 (grid2.coords t) ↔ t.val % 12 = 11)
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem idleAt2_7_A : ∀ t : Fin cfg2.N, cond2_0 (grid2.coords t) → ¬cond2_1 (grid2.coords t) → cfg2.idle 7 (grid2.coords t) = true := by decide +kernel
theorem noFlush2_7_A : ∀ t : Fin cfg2.N, cond2_0 (grid2.coords t) → ¬cond2_1 (grid2.coords t) → (cfg2.win 7).flush t = false := by decide +kernel
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
theorem liveAt2_7_C : ∀ t : Fin cfg2.N, ¬cond2_0 (grid2.coords t) → cond2_1 (grid2.coords t) → cfg2.idle 7 (grid2.coords t) = false := by decide +kernel
abbrev VO2_7 : View sig .tc .vmem S1024x1024 .bf16 := (Memref.whole cc2_stg7_0 : Memref sig .tc .vmem S1024x1024 .bf16).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x1024 .bf16 := win2_7.stage (cfg2.slots t 7)
abbrev hs2_7 (t : Fin cfg2.N) : (ms2_7 t).IsWhole := hstage2_7 ((cfg2.slots t 7).cast nbuf2_7)
abbrev scM2_0 : Memref sig .tc .vmem S1024x1024 .f32 := Memref.whole cc2_scratch0
abbrev VS2_0 : View sig .tc .vmem S1024x1024 .f32 := scM2_0.view
theorem PhiA2_eq (c : Dev nD) :
    (Pipeline.ΦA spec2 c : sProp 𝕄)
      = iprop(iprop(iprop((∃ d, owns c scM2_0 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

section
variable (c : Dev nD) (i : grid2.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)

section
variable (hc0 : cond2_0 i) (hc1 : ¬cond2_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32)
/-- A first reduction step: the accumulator is reset and the step's product added; the output block is handed back. -/
def kernelRun2_A :
    Σ' (L7 : List (View.Piece (Elt F) S1024x1024 .bf16)), { LS0 : List (View.Piece (Elt F) S1024x1024 .f32) //
      ∀ (xi7 : Vec F S1024x1024 .bf16) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ d, owns c arg11 fullShare d)
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ f, arg11.view.loc c ↦[arg11.view.set]{fullShare} arg11.view.writes (Elt F) f LS0)) -∗ K ⟨⟩))
          ⊢ wp frame (wpE (defs₀ (F := F)) Variants.none c none) E (cc2__bin_linear_bn_kernel i arg3 harg3 arg4 harg4 arg5 harg5 arg6 harg6 arg7 harg7 arg8 harg8 arg9 harg9 arg10 harg10 arg11 harg11) K } := by
  refine ⟨[], ?_, fun xi7 E K => ?run⟩
  case run =>
    simp (disch := assumption) only [cc2__bin_linear_bn_kernel_eq_skeleton, owns_unread]; unfold cc2__bin_linear_bn_kernel_skel
    iintro ⟨H0, H1, H2, H3, H4, H5, H6, H7, ⟨%ds0, HS0⟩, Hk⟩
    sl_exec (disch := first | exact hc0 | exact hc1)
    sl_step
    iapply Hk
    iframe
    iexists _; iexact HS0
end

variable (hc0 : ¬cond2_0 i)

section
variable (hc1 : ¬cond2_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32) (xs0 : Vec F S1024x1024 .f32)
/-- A middle step: one more product is added to the accumulator. -/
def kernelRun2_B :
    Σ' (L7 : List (View.Piece (Elt F) S1024x1024 .bf16)), { LS0 : List (View.Piece (Elt F) S1024x1024 .f32) //
      ∀ (xi7 : Vec F S1024x1024 .bf16) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ owns c arg11 fullShare xs0
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare xi7 ∗ (∃ f, arg11.view.loc c ↦[arg11.view.set]{fullShare} arg11.view.writes (Elt F) f LS0)) -∗ K ⟨⟩))
          ⊢ wp frame (wpE (defs₀ (F := F)) Variants.none c none) E (cc2__bin_linear_bn_kernel i arg3 harg3 arg4 harg4 arg5 harg5 arg6 harg6 arg7 harg7 arg8 harg8 arg9 harg9 arg10 harg10 arg11 harg11) K } := by
  refine ⟨[], ?_, fun xi7 E K => ?run⟩
  case run =>
    simp (disch := assumption) only [cc2__bin_linear_bn_kernel_eq_skeleton, owns_unread]; unfold cc2__bin_linear_bn_kernel_skel
    iintro ⟨H0, H1, H2, H3, H4, H5, H6, H7, HS0, Hk⟩
    sl_exec (disch := first | exact hc0 | exact hc1)
    sl_step
    iapply Hk
    iframe
    iexists _; iexact HS0
end

variable (hc1 : cond2_1 i) (x0 : Vec F S1024x512 .bf16) (x1 : Vec F S1024x512 .f32) (x2 : Vec F S1x1024 .f32) (x3 : Vec F S1x1024 .f32) (x4 : Vec F S1x1024 .f32) (x5 : Vec F S1x1024 .f32) (x6 : Vec F S1x1024 .f32) (xs0 : Vec F S1024x1024 .f32)
/-- The last step: the last product is added and the epilogue of the finished sum stored to the output block. -/
def kernelRun2_C :
    Σ' (L7 : List (View.Piece (Elt F) S1024x1024 .bf16)), { LS0 : List (View.Piece (Elt F) S1024x1024 .f32) //
      ∀ (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ d, owns c arg10 fullShare d) ∗ owns c arg11 fullShare xs0
            ∗ (iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ (∃ f, arg10.view.loc c ↦[arg10.view.set]{fullShare} arg10.view.writes (Elt F) f L7) ∗ (∃ f, arg11.view.loc c ↦[arg11.view.set]{fullShare} arg11.view.writes (Elt F) f LS0)) -∗ K ⟨⟩))
          ⊢ wp frame (wpE (defs₀ (F := F)) Variants.none c none) E (cc2__bin_linear_bn_kernel i arg3 harg3 arg4 harg4 arg5 harg5 arg6 harg6 arg7 harg7 arg8 harg8 arg9 harg9 arg10 harg10 arg11 harg11) K } := by
  refine ⟨?_, ?_, fun E K => ?run⟩
  case run =>
    simp (disch := assumption) only [cc2__bin_linear_bn_kernel_eq_skeleton, owns_unread]; unfold cc2__bin_linear_bn_kernel_skel
    iintro ⟨H0, H1, H2, H3, H4, H5, H6, ⟨%d7, H7⟩, HS0, Hk⟩
    sl_exec (disch := first | exact hc0 | exact hc1)
    sl_step
    iapply Hk
    iframe
    isplitl [H7]; · iexists _; iexact H7
    iexists _; iexact HS0
end

end Cert.KernelIdeal.Gen

end
-- ==== Proof.FrameKI.Reg2.lean ====
import proofs.«135515_j66743791780425_1_alg».proof.Proof.FrameKI.Run2
import proofs.«135515_j66743791780425_1_alg».proof.Proof.FrameKI.Body

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pieces
variable (c : Dev nD) (i : grid2.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole)

section
variable (hc0 : cond2_0 i) (hc1 : ¬cond2_1 i) (x0 : Vec F S1024x512 .bf16) (x1 : Vec F S1024x512 .f32) (x2 x3 x4 x5 x6 : Vec F S1x1024 .f32)

def out2_A_7 : Vec F S1024x1024 .bf16 :=
  VO2_7.read (Elt F) (VO2_7.writes (Elt F) VO2_7.junk (kernelRun2_A c i arg3 harg3 arg4 harg4 arg5 harg5 arg6 harg6 arg7 harg7 arg8 harg8 arg9 harg9 arg10 harg10 arg11 harg11 hc0 hc1 x0 x1 x2 x3 x4 x5 x6).1)

theorem scover2_A_0 (y : S1024x1024.Idx) : ∃ pc ∈ (kernelRun2_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL _ S1024x1024.size (by sl_kernel_rfl) y

def sout2_A_0 : Vec F S1024x1024 .f32 :=
  VS2_0.read (Elt F) (VS2_0.writes (Elt F) VS2_0.junk (kernelRun2_A c i arg3 harg3 arg4 harg4 arg5 harg5 arg6 harg6 arg7 harg7 arg8 harg8 arg9 harg9 arg10 harg10 arg11 harg11 hc0 hc1 x0 x1 x2 x3 x4 x5 x6).2.1)

end

section
variable (hc0 : ¬cond2_0 i) (hc1 : ¬cond2_1 i) (x0 : Vec F S1024x512 .bf16) (x1 : Vec F S1024x512 .f32) (x2 x3 x4 x5 x6 : Vec F S1x1024 .f32) (xs0 : Vec F S1024x1024 .f32)

def out2_B_7 : Vec F S1024x1024 .bf16 :=
  VO2_7.read (Elt F) (VO2_7.writes (Elt F) VO2_7.junk (kernelRun2_B c i arg3 harg3 arg4 harg4 arg5 harg5 arg6 harg6 arg7 harg7 arg8 harg8 arg9 harg9 arg10 harg10 arg11 harg11 hc0 hc1 x0 x1 x2 x3 x4 x5 x6 xs0).1)

theorem scover2_B_0 (y : S1024x1024.Idx) : ∃ pc ∈ (kernelRun2_B c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL _ S1024x1024.size (by sl_kernel_rfl) y

def sout2_B_0 : Vec F S1024x1024 .f32 :=
  VS2_0.read (Elt F) (VS2_0.writes (Elt F) VS2_0.junk (kernelRun2_B c i arg3 harg3 arg4 harg4 arg5 harg5 arg6 harg6 arg7 harg7 arg8 harg8 arg9 harg9 arg10 harg10 arg11 harg11 hc0 hc1 x0 x1 x2 x3 x4 x5 x6 xs0).2.1)

end

section
variable (hc0 : ¬cond2_0 i) (hc1 : cond2_1 i) (x0 : Vec F S1024x512 .bf16) (x1 : Vec F S1024x512 .f32) (x2 x3 x4 x5 x6 : Vec F S1x1024 .f32) (xs0 : Vec F S1024x1024 .f32)

theorem cover2_C_7 (y : S1024x1024.Idx) : ∃ pc ∈ (kernelRun2_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL _ S1024x1024.size (by sl_kernel_rfl) y

def out2_C_7 : Vec F S1024x1024 .bf16 :=
  VO2_7.read (Elt F) (VO2_7.writes (Elt F) VO2_7.junk (kernelRun2_C c i arg3 harg3 arg4 harg4 arg5 harg5 arg6 harg6 arg7 harg7 arg8 harg8 arg9 harg9 arg10 harg10 arg11 harg11 hc0 hc1 x0 x1 x2 x3 x4 x5 x6 xs0).1)

theorem scover2_C_0 (y : S1024x1024.Idx) : ∃ pc ∈ (kernelRun2_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL _ S1024x1024.size (by sl_kernel_rfl) y

def sout2_C_0 : Vec F S1024x1024 .f32 :=
  VS2_0.read (Elt F) (VS2_0.writes (Elt F) VS2_0.junk (kernelRun2_C c i arg3 harg3 arg4 harg4 arg5 harg5 arg6 harg6 arg7 harg7 arg8 harg8 arg9 harg9 arg10 harg10 arg11 harg11 hc0 hc1 x0 x1 x2 x3 x4 x5 x6 xs0).2.1)

end

end Pieces

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves at point `t` in a first, a middle and the last reduction step: the output block, then the accumulator. -/
abbrev pairA2 (c : Dev nD) (t : Fin cfg2.N) (hc0 : cond2_0 (grid2.coords t)) (hc1 : ¬cond2_1 (grid2.coords t)) : Vec F S1024x1024 .bf16 × Vec F S1024x1024 .f32 :=
  (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t))

abbrev pairB2 (c : Dev nD) (t : Fin cfg2.N) (hc0 : ¬cond2_0 (grid2.coords t)) (hc1 : ¬cond2_1 (grid2.coords t)) (xs0 : Vec F S1024x1024 .f32) : Vec F S1024x1024 .bf16 × Vec F S1024x1024 .f32 :=
  (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t) xs0, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t) xs0)

abbrev pairC2 (c : Dev nD) (t : Fin cfg2.N) (hc0 : ¬cond2_0 (grid2.coords t)) (hc1 : cond2_1 (grid2.coords t)) (xs0 : Vec F S1024x1024 .f32) : Vec F S1024x1024 .bf16 × Vec F S1024x1024 .f32 :=
  (out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t) xs0, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) hc0 hc1 (iblk2 V c 0 t) (iblk2 V c 1 t) (iblk2 V c 2 t) (iblk2 V c 3 t) (iblk2 V c 4 t) (iblk2 V c 5 t) (iblk2 V c 6 t) xs0)

/-- The accumulation: the case the position's residue modulo 12 selects, over the accumulator the position before left. -/
def outsAt2 (c : Dev nD) : (n : ℕ) → n < cfg2.N → Vec F S1024x1024 .bf16 × Vec F S1024x1024 .f32
  | 0, hn => pairA2 V c ⟨0, hn⟩ ((hcond2_0 ⟨0, hn⟩).mpr (Nat.zero_mod _)) fun h => (by omega : ¬0 % 12 = 11) ((hcond2_1 ⟨0, hn⟩).mp h)
  | n + 1, hn =>
    if h1 : (n + 1) % 12 = 11 then
      pairC2 V c ⟨n + 1, hn⟩ (fun h => by have : (n + 1) % 12 = 0 := (hcond2_0 ⟨n + 1, hn⟩).mp h; omega) ((hcond2_1 ⟨n + 1, hn⟩).mpr h1) (outsAt2 c n (Nat.lt_of_succ_lt hn)).2
    else if h0 : (n + 1) % 12 = 0 then
      pairA2 V c ⟨n + 1, hn⟩ ((hcond2_0 ⟨n + 1, hn⟩).mpr h0) fun h => h1 ((hcond2_1 ⟨n + 1, hn⟩).mp h)
    else
      pairB2 V c ⟨n + 1, hn⟩ (fun h => h0 ((hcond2_0 ⟨n + 1, hn⟩).mp h)) (fun h => h1 ((hcond2_1 ⟨n + 1, hn⟩).mp h)) (outsAt2 c n (Nat.lt_of_succ_lt hn)).2

theorem outsAt2_A (c : Dev nD) (t : Fin cfg2.N) (h0 : t.val % 12 = 0) (h1 : ¬t.val % 12 = 11) :
    outsAt2 V c t.val t.isLt = pairA2 V c t ((hcond2_0 t).mpr h0) (fun h => h1 ((hcond2_1 t).mp h)) := by
  obtain ⟨_ | n, hn⟩ := t
  exacts [rfl, (dif_neg h1).trans (dif_pos h0)]

theorem outsAt2_B (c : Dev nD) (t : Fin cfg2.N) (h0 : ¬t.val % 12 = 0) (h1 : ¬t.val % 12 = 11) :
    outsAt2 V c t.val t.isLt = pairB2 V c t (fun h => h0 ((hcond2_0 t).mp h)) (fun h => h1 ((hcond2_1 t).mp h)) (outsAt2 V c (t.val - 1) (Nat.lt_of_le_of_lt (Nat.sub_le _ _) t.isLt)).2 := by
  obtain ⟨_ | n, hn⟩ := t
  exacts [absurd (Nat.zero_mod _) h0, (dif_neg h1).trans (dif_neg h0)]

theorem outsAt2_C (c : Dev nD) (t : Fin cfg2.N) (h0 : ¬t.val % 12 = 0) (h1 : t.val % 12 = 11) :
    outsAt2 V c t.val t.isLt = pairC2 V c t (fun h => h0 ((hcond2_0 t).mp h)) ((hcond2_1 t).mpr h1) (outsAt2 V c (t.val - 1) (Nat.lt_of_le_of_lt (Nat.sub_le _ _) t.isLt)).2 := by
  obtain ⟨_ | n, hn⟩ := t
  exacts [absurd (Nat.zero_mod _) h0, dif_pos h1]

/-- The invariant with the accumulator's part `P`, beside everything else the region holds. -/
abbrev accInv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

/-- Before the first point what the launch hands over; afterwards the accumulator at what the position before left. -/
def PhiS2 (c : Dev nD) : (n : ℕ) → n ≤ cfg2.N → sProp 𝕄
  | 0, _ => Pipeline.ΦA spec2 c
  | n + 1, hn => accInv2 c (owns (c : Thread nD τ) scM2_0 fullShare (outsAt2 V c n hn).2)

theorem PhiS2_pos (c : Dev nD) (n : ℕ) (h : n ≤ cfg2.N) (hz : n ≠ 0) :
    PhiS2 V c n h = accInv2 c (owns (c : Thread nD τ) scM2_0 fullShare (outsAt2 V c (n - 1) (by omega)).2) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = (outsAt2 V c t.val t.isLt).1 := by dsimp only [dat2]

/-- An input window holds its block at every point, and the body leaves it so. -/
theorem before2 (c : Dev nD) (t : Fin cfg2.N) : ∀ w : Fin cfg2.W, w ≠ 7 → ∀ d, (dat2 V c).before w t d = (dat2 V c).after w t
  | ⟨0, _⟩, _ | ⟨1, _⟩, _ | ⟨2, _⟩, _ | ⟨3, _⟩, _ | ⟨4, _⟩, _ | ⟨5, _⟩, _ | ⟨6, _⟩, _ => fun d =>
    ((dat2 V c).before_in_eq_fetched _ rfl (fun _ => rfl) (fun _ _ _ => rfl) (fun _ => rfl) t d).trans rfl
  | ⟨7, _⟩, h => absurd rfl h

/-- After any point the invariant gives back what the launch handed over: the accumulator's named contents are forgotten. -/
theorem Phi_out2 (c : Dev nD) : ∀ t : Fin (cfg2.N + 1), (dat2 V c).Φ t ⊢ Pipeline.ΦA spec2 c
  | ⟨0, _⟩ => .rfl
  | ⟨n + 1, _⟩ => by rw [PhiA2_eq]; exact sep_mono (sep_mono (exists_intro _) .rfl) .rfl

theorem hin2 (c : Dev nD) : Pipeline.ΦA spec2 c ⊢ (dat2 V c).Φ 0 := .rfl

theorem hout2 (c : Dev nD) : (dat2 V c).Φ (Fin.last cfg2.N) ⊢ Pipeline.ΦA spec2 c := Phi_out2 V c _

set_option maxHeartbeats 4800000 in
/-- The body at any point: the position's residue modulo 12 selects the case whose run applies. -/
theorem body_obligation2 (c : Dev nD) : BodyObligation (dat2 (F := F) V c) (defs₀ (F := F)) Variants.none () Set.univ := fun t => by
  rw [bigSep_W2, bigSep_W2]
  simp only [before2 V c t 0 (by decide), before2 V c t 1 (by decide), before2 V c t 2 (by decide), before2 V c t 3 (by decide), before2 V c t 4 (by decide), before2 V c t 5 (by decide), before2 V c t 6 (by decide)]
  rw [show (dat2 V c).Φ t.succ = accInv2 c (owns (c : Thread nD τ) scM2_0 fullShare (outsAt2 V c t.val t.isLt).2) from rfl]
  by_cases h0 : t.val % 12 = 0
  · have h1 : ¬t.val % 12 = 11 := by omega
    have hc0 := (hcond2_0 t).mpr h0
    have hc1 : ¬cond2_1 (grid2.coords t) := fun h => h1 ((hcond2_1 t).mp h)
    simp only [show idle2 7 (grid2.coords t) = true from idleAt2_7_A t hc0 hc1, show (win2 7).flush t = false from noFlush2_7_A t hc0 hc1]
    rw [outsAt2_A V c t h0 h1]
    dsimp only [pairA2, sout2_A_0]
    exact bodyFrame c ((Phi_out2 V c _).trans (.of_eq (PhiA2_eq c)))
      (fun d K => (kernelRun2_A c (grid2.coords t) _ _ _ _ _ _ _ _ _ _ _ _ _ _ _ _ _ _ hc0 hc1 _ _ _ _ _ _ _).2.2 ((dat2 V c).before 7 t d) Set.univ K)
      (fun _ => .rfl) (fun d => exists_intro_trans d .rfl) (owns_writes c _ _ _ (scover2_A_0 c _ _ _ _ _ _ _ _ _ _ _ _ _ _ _ _ _ _ _ hc0 hc1 _ _ _ _ _ _ _))
  · have hΦ := PhiS2_pos V c t.val (Nat.le_of_lt t.isLt) fun h => h0 (by rw [h])
    have hc0 : ¬cond2_0 (grid2.coords t) := fun h => h0 ((hcond2_0 t).mp h)
    by_cases h1 : t.val % 12 = 11
    · have hc1 := (hcond2_1 t).mpr h1
      simp only [show idle2 7 (grid2.coords t) = false from liveAt2_7_C t hc0 hc1, after2_7]
      rw [outsAt2_C V c t h0 h1]
      dsimp only [pairC2, out2_C_7, sout2_C_0]
      exact bodyFrame c (.of_eq hΦ) (fun d K => (kernelRun2_C c (grid2.coords t) _ _ _ _ _ _ _ _ _ _ _ _ _ _ _ _ _ _ hc0 hc1 _ _ _ _ _ _ _ _).2.2 Set.univ K)
        (fun _ => exists_intro _) (fun _ => owns_writes c _ _ _ (cover2_C_7 c _ _ _ _ _ _ _ _ _ _ _ _ _ _ _ _ _ _ _ hc0 hc1 _ _ _ _ _ _ _ _))
        (owns_writes c _ _ _ (scover2_C_0 c _ _ _ _ _ _ _ _ _ _ _ _ _ _ _ _ _ _ _ hc0 hc1 _ _ _ _ _ _ _ _))
    · have hc1 : ¬cond2_1 (grid2.coords t) := fun h => h1 ((hcond2_1 t).mp h)
      simp only [show idle2 7 (grid2.coords t) = true from idleAt2_7_B t hc0 hc1, show (win2 7).flush t = false from noFlush2_7_B t hc0 hc1]
      rw [outsAt2_B V c t h0 h1]
      dsimp only [pairB2, sout2_B_0]
      exact bodyFrame c (.of_eq hΦ) (fun d K => (kernelRun2_B c (grid2.coords t) _ _ _ _ _ _ _ _ _ _ _ _ _ _ _ _ _ _ hc0 hc1 _ _ _ _ _ _ _ _).2.2 ((dat2 V c).before 7 t d) Set.univ K)
        (fun _ => .rfl) (fun d => exists_intro_trans d .rfl) (owns_writes c _ _ _ (scover2_B_0 c _ _ _ _ _ _ _ _ _ _ _ _ _ _ _ _ _ _ _ hc0 hc1 _ _ _ _ _ _ _ _))

end Region

end Cert.KernelIdeal.Gen

end
-- ==== Proof.FrameKI.Run3.lean ====
import proofs.«135515_j66743791780425_1_alg».proof.Proof.Gen.KernelIdeal.Launch
import proofs.«135515_j66743791780425_1_alg».proof.Proof.Gen.KernelIdeal.Skeleton
import proofs.«135515_j66743791780425_1_alg».proof.Proof.Gen.KernelIdeal.Points
import proofs.«135515_j66743791780425_1_alg».proof.Proof.FrameKI.Body
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 6 = 0 :=
  (by decide +kernel : ∀ t : Fin grid3.N, cond3_0 (grid3.coords t) ↔ t.val % 6 = 0)
abbrev cond3_1 (i : grid3.Coords) : Prop := k3_cond2 i = 1#1
theorem hcond3_1 : ∀ t : Fin cfg3.N, cond3_1 (grid3.coords t) ↔ t.val % 6 = 5 :=
  (by decide +kernel : ∀ t : Fin grid3.N, cond3_1 (grid3.coords t) ↔ t.val % 6 = 5)
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel
abbrev VO3_3 : View sig .tc .vmem S1024x10 .f32 := (Memref.whole cc3_stg3_0 : Memref sig .tc .vmem S1024x10 .f32).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x10 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x10 .f32 := win3_3.stage (cfg3.slots t 3)
abbrev hs3_3 (t : Fin cfg3.N) : (ms3_3 t).IsWhole := hstage3_3 ((cfg3.slots t 3).cast nbuf3_3)
abbrev scM3_0 : Memref sig .tc .vmem S1024x10 .f32 := Memref.whole cc3_scratch0
abbrev VS3_0 : View sig .tc .vmem S1024x10 .f32 := scM3_0.view
theorem PhiA3_eq (c : Dev nD) :
    (Pipeline.ΦA spec3 c : sProp 𝕄)
      = iprop(iprop(iprop((∃ d, owns c scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

section
variable (c : Dev nD) (i : grid3.Coords) (arg2 : Memref sig .tc .vmem S1024x1024 .bf16) (harg2 : arg2.IsWhole) (arg3 : Memref sig .tc .vmem S10x1024 .f32) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole)

section
variable (hc0 : cond3_0 i) (hc1 : ¬cond3_1 i) (x0 : Vec F S1024x1024 .bf16) (x1 : Vec F S10x1024 .f32) (x2 : Vec F S1x10 .f32)
/-- The first step: the accumulator is reset and the step's product added; the output block is handed back. -/
def kernelRun3_A :
    Σ' (L3 : List (View.Piece (Elt F) S1024x10 .f32)), { LS0 : List (View.Piece (Elt F) S1024x10 .f32) //
      ∀ (xi3 : Vec F S1024x10 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨[], ?_, fun xi3 E K => ?run⟩
  case run =>
    simp (disch := assumption) only [cc3__final_kernel_eq_skeleton, owns_unread]; unfold cc3__final_kernel_skel
    iintro ⟨H0, H1, H2, H3, ⟨%ds0, HS0⟩, Hk⟩
    sl_exec (disch := first | exact hc0 | exact hc1)
    sl_step
    iapply Hk
    iframe
    iexists _; iexact HS0
end

variable (hc0 : ¬cond3_0 i)

section
variable (hc1 : ¬cond3_1 i) (x0 : Vec F S1024x1024 .bf16) (x1 : Vec F S10x1024 .f32) (x2 : Vec F S1x10 .f32) (xs0 : Vec F S1024x10 .f32)
/-- A middle step: one more product is added to the accumulator. -/
def kernelRun3_B :
    Σ' (L3 : List (View.Piece (Elt F) S1024x10 .f32)), { LS0 : List (View.Piece (Elt F) S1024x10 .f32) //
      ∀ (xi3 : Vec F S1024x10 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨[], ?_, fun xi3 E K => ?run⟩
  case run =>
    simp (disch := assumption) only [cc3__final_kernel_eq_skeleton, owns_unread]; unfold cc3__final_kernel_skel
    iintro ⟨H0, H1, H2, H3, HS0, Hk⟩
    sl_exec (disch := first | exact hc0 | exact hc1)
    sl_step
    iapply Hk
    iframe
    iexists _; iexact HS0
end

variable (hc1 : cond3_1 i) (x0 : Vec F S1024x1024 .bf16) (x1 : Vec F S10x1024 .f32) (x2 : Vec F S1x10 .f32) (xs0 : Vec F S1024x10 .f32)
/-- The last step: the last product is added, then the bias, and the row-wise log-softmax is stored to the output block. -/
def kernelRun3_C :
    Σ' (L3 : List (View.Piece (Elt F) S1024x10 .f32)), { LS0 : List (View.Piece (Elt F) S1024x10 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc3__final_kernel i arg2 harg2 arg3 harg3 arg4 harg4 arg5 harg5 arg6 harg6) K } := by
  refine ⟨?_, ?_, fun E K => ?run⟩
  case run =>
    simp (disch := assumption) only [cc3__final_kernel_eq_skeleton, owns_unread]; unfold cc3__final_kernel_skel
    iintro ⟨H0, H1, H2, ⟨%d3, H3⟩, HS0, Hk⟩
    sl_exec (disch := first | exact hc0 | exact hc1)
    sl_step
    iapply Hk
    iframe
    isplitl [H3]; · iexists _; iexact H3
    iexists _; iexact HS0
end

end Cert.KernelIdeal.Gen

end
-- ==== Proof.FrameKI.Reg3.lean ====
import proofs.«135515_j66743791780425_1_alg».proof.Proof.FrameKI.Run3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Pieces that cover a buffer, written over anything, leave it at their read-back. -/
theorem owns_of_cover3 {s : Shape} {e : EltTy} (c : Dev nD) {M : Memref sig .tc .vmem s e} (v : View sig .tc .vmem s e) {L : List (View.Piece (Elt F) s e)}
    (h : ∀ y, ∃ pc ∈ L, y ∈ pc.1.set) :
    (iprop(∃ g, M.view.loc (c : Thread nD τ) ↦[M.view.set]{fullShare} M.view.writes (Elt F) g L) : sProp 𝕄) ⊢ owns (c : Thread nD τ) M fullShare (v.read (Elt F) (v.writes (Elt F) v.junk L)) := by
  iintro ⟨%g, H⟩; unfold owns; iexists _; isplitr; swap; · iexact H
  ipureintro; exact View.read_writes_of_cover _ _ _ _ _ h

section Case
variable (c : Dev nD) (i : grid3.Coords) (arg2 : Memref sig .tc .vmem S1024x1024 .bf16) (harg2 : arg2.IsWhole) (arg3 : Memref sig .tc .vmem S10x1024 .f32) (harg3 : arg3.IsWhole) (arg4 : Memref sig .tc .vmem S1x10 .f32) (harg4 : arg4.IsWhole) (arg5 : Memref sig .tc .vmem S1024x10 .f32) (harg5 : arg5.IsWhole) (arg6 : Memref sig .tc .vmem S1024x10 .f32) (harg6 : arg6.IsWhole)

section
variable (hc0 : cond3_0 i) (hc1 : ¬cond3_1 i) (x0 : Vec F S1024x1024 .bf16) (x1 : Vec F S10x1024 .f32) (x2 : Vec F S1x10 .f32)

def out3_A_3 : Vec F S1024x10 .f32 :=
  VO3_3.read (Elt F) (VO3_3.writes (Elt F) VO3_3.junk (kernelRun3_A c i arg2 harg2 arg3 harg3 arg4 harg4 arg5 harg5 arg6 harg6 hc0 hc1 x0 x1 x2).1)

theorem scover3_A_0 (y : S1024x10.Idx) : ∃ pc ∈ (kernelRun3_A c i arg2 harg2 arg3 harg3 arg4 harg4 arg5 harg5 arg6 harg6 hc0 hc1 x0 x1 x2).2.1, y ∈ pc.1.set :=
  View.cover_of_tiledL _ S1024x10.size (by sl_kernel_rfl) y

def sout3_A_0 : Vec F S1024x10 .f32 :=
  VS3_0.read (Elt F) (VS3_0.writes (Elt F) VS3_0.junk (kernelRun3_A c i arg2 harg2 arg3 harg3 arg4 harg4 arg5 harg5 arg6 harg6 hc0 hc1 x0 x1 x2).2.1)

end

section
variable (hc0 : ¬cond3_0 i) (hc1 : ¬cond3_1 i) (x0 : Vec F S1024x1024 .bf16) (x1 : Vec F S10x1024 .f32) (x2 : Vec F S1x10 .f32) (xs0 : Vec F S1024x10 .f32)

def out3_B_3 : Vec F S1024x10 .f32 :=
  VO3_3.read (Elt F) (VO3_3.writes (Elt F) VO3_3.junk (kernelRun3_B c i arg2 harg2 arg3 harg3 arg4 harg4 arg5 harg5 arg6 harg6 hc0 hc1 x0 x1 x2 xs0).1)

theorem scover3_B_0 (y : S1024x10.Idx) : ∃ pc ∈ (kernelRun3_B c i arg2 harg2 arg3 harg3 arg4 harg4 arg5 harg5 arg6 harg6 hc0 hc1 x0 x1 x2 xs0).2.1, y ∈ pc.1.set :=
  View.cover_of_tiledL _ S1024x10.size (by sl_kernel_rfl) y

def sout3_B_0 : Vec F S1024x10 .f32 :=
  VS3_0.read (Elt F) (VS3_0.writes (Elt F) VS3_0.junk (kernelRun3_B c i arg2 harg2 arg3 harg3 arg4 harg4 arg5 harg5 arg6 harg6 hc0 hc1 x0 x1 x2 xs0).2.1)

end

section
variable (hc0 : ¬cond3_0 i) (hc1 : cond3_1 i) (x0 : Vec F S1024x1024 .bf16) (x1 : Vec F S10x1024 .f32) (x2 : Vec F S1x10 .f32) (xs0 : Vec F S1024x10 .f32)

theorem cover3_C_3 (y : S1024x10.Idx) : ∃ pc ∈ (kernelRun3_C c i arg2 harg2 arg3 harg3 arg4 harg4 arg5 harg5 arg6 harg6 hc0 hc1 x0 x1 x2 xs0).1, y ∈ pc.1.set :=
  View.cover_of_tiledL _ S1024x10.size (by sl_kernel_rfl) y

def out3_C_3 : Vec F S1024x10 .f32 :=
  VO3_3.read (Elt F) (VO3_3.writes (Elt F) VO3_3.junk (kernelRun3_C c i arg2 harg2 arg3 harg3 arg4 harg4 arg5 harg5 arg6 harg6 hc0 hc1 x0 x1 x2 xs0).1)

theorem scover3_C_0 (y : S1024x10.Idx) : ∃ pc ∈ (kernelRun3_C c i arg2 harg2 arg3 harg3 arg4 harg4 arg5 harg5 arg6 harg6 hc0 hc1 x0 x1 x2 xs0).2.1, y ∈ pc.1.set :=
  View.cover_of_tiledL _ S1024x10.size (by sl_kernel_rfl) y

def sout3_C_0 : Vec F S1024x10 .f32 :=
  VS3_0.read (Elt F) (VS3_0.writes (Elt F) VS3_0.junk (kernelRun3_C c i arg2 harg2 arg3 harg3 arg4 harg4 arg5 harg5 arg6 harg6 hc0 hc1 x0 x1 x2 xs0).2.1)

end

end Case

section Region
variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What a first step at point `t` leaves: the output block (untouched) and the accumulator. -/
abbrev pairA3 (t : Fin cfg3.N) (h0 : t.val % 6 = 0) (h1 : ¬t.val % 6 = 5) : Vec F S1024x10 .f32 × Vec F S1024x10 .f32 :=
  (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (mt (hcond3_1 t).mp h1) (iblk3 V c 0 t) (iblk3 V c 1 t) (iblk3 V c 2 t),
    sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (mt (hcond3_1 t).mp h1) (iblk3 V c 0 t) (iblk3 V c 1 t) (iblk3 V c 2 t))

/-- What a middle step leaves, over the accumulator `xs0` it finds. -/
abbrev pairB3 (t : Fin cfg3.N) (h0 : ¬t.val % 6 = 0) (h1 : ¬t.val % 6 = 5) (xs0 : Vec F S1024x10 .f32) : Vec F S1024x10 .f32 × Vec F S1024x10 .f32 :=
  (out3_B_3 c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) xs0,
    sout3_B_0 c (grid3.coords t) (ms3_0 t) (hs3_0 t) (ms3_1 t) (hs3_1 t) (ms3_2 t) (hs3_2 t) (ms3_3 t) (hs3_3 t) scM3_0 (Memref.isWhole_whole _) (mt (hcond3_0 t).mp h0) (mt (hcond3_1 t).mp h1) (iblk3 V c 0 t) (iblk3 V c 1 t) (iblk3 V c 2 t) xs0)

/-- What a last step leaves, over the accumulator `xs0` it finds. -/
abbrev pairC3 (t : Fin cfg3.N) (h0 : ¬t.val % 6 = 0) (h1 : t.val % 6 = 5) (xs0 : Vec F S1024x10 .f32) : Vec F S1024x10 .f32 × Vec F S1024x10 .f32 :=
  (out3_C_3 c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) xs0,
    sout3_C_0 c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (iblk3 V c 0 t) (iblk3 V c 1 t) (iblk3 V c 2 t) xs0)

/-- The accumulation, by recursion on the point: the case is read off the point modulo 6, and a later step starts from the accumulator the point before left. -/
def outsAt3 : (n : ℕ) → n < cfg3.N → Vec F S1024x10 .f32 × Vec F S1024x10 .f32
  | 0, hn => pairA3 V c ⟨0, hn⟩ rfl (by decide : ¬0 % 6 = 5)
  | n + 1, hn =>
    if h0 : (n + 1) % 6 = 0 then pairA3 V c ⟨n + 1, hn⟩ h0 (by omega : ¬(n + 1) % 6 = 5)
    else if h1 : (n + 1) % 6 = 5 then pairC3 V c ⟨n + 1, hn⟩ h0 h1 (outsAt3 n (Nat.lt_of_succ_lt hn)).2
    else pairB3 V c ⟨n + 1, hn⟩ h0 h1 (outsAt3 n (Nat.lt_of_succ_lt hn)).2

theorem outsAt3_A (t : Fin cfg3.N) (h0 : t.val % 6 = 0) (h1 : ¬t.val % 6 = 5) : outsAt3 V c t.val t.isLt = pairA3 V c t h0 h1 := by
  obtain ⟨n, hn⟩ := t
  cases n with
  | zero => rfl
  | succ n => exact dif_pos h0

theorem outsAt3_B (t : Fin cfg3.N) (h0 : ¬t.val % 6 = 0) (h1 : ¬t.val % 6 = 5) : outsAt3 V c t.val t.isLt = pairB3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt3_C (t : Fin cfg3.N) (h0 : ¬t.val % 6 = 0) (h1 : t.val % 6 = 5) : outsAt3 V c t.val t.isLt = pairC3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The region's invariant with the accumulator at `P`. -/
abbrev accInv3 (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := match t with
    | ⟨0, _⟩ => Pipeline.ΦA spec3 c
    | ⟨n + 1, h⟩ => accInv3 c (owns (c : Thread nD τ) scM3_0 fullShare (outsAt3 V c n (Nat.lt_of_succ_lt_succ h)).2)
  q _ := fullShare
  owed _ := 0

theorem A_eq3 (w : Fin cfg3.W) : (dat3 V c).A w = V c (Pipeline.arrRef spec3 w) := rfl

theorem after3_3 (t : Fin cfg3.N) : (dat3 V c).after 3 t = (outsAt3 V c t.val t.isLt).1 := by dsimp only [dat3]

/-- The body leaves each input block in place, so its buffer holds the block at every point. -/
theorem before3 : (∀ t d, (dat3 V c).before 0 t d = iblk3 V c 0 t) ∧ (∀ t d, (dat3 V c).before 1 t d = iblk3 V c 1 t) ∧ (∀ t d, (dat3 V c).before 2 t d = iblk3 V c 2 t) := by
  refine ⟨?_, ?_, ?_⟩ <;> exact fun t d =>
    ((dat3 V c).before_in_eq_fetched _ rfl (fun _ => rfl) (fun _ _ _ => rfl) (fun t => by dsimp only [dat3]; rfl) t d).trans (by unfold Dat.fetched Dat.blockOf; dsimp only [dat3]; rfl)

/-- Before a point that is not the first the accumulator holds what the point before left. -/
theorem Phi_pos3 (t : Fin cfg3.N) (hz : t.val ≠ 0) : (dat3 V c).Φ t.castSucc = accInv3 c (owns (c : Thread nD τ) scM3_0 fullShare (outsAt3 V c (t.val - 1) (Nat.lt_of_le_of_lt (Nat.sub_le _ _) t.isLt)).2) := by
  obtain ⟨n, hn⟩ := t
  cases n with
  | zero => exact absurd rfl hz
  | succ n => rfl

/-- At every point the invariant gives the launch's back: the accumulator's contents are forgotten. -/
theorem Phi_out3 (t : Fin (cfg3.N + 1)) : (dat3 V c).Φ t ⊢ accInv3 c iprop(∃ d, owns (c : Thread nD τ) scM3_0 fullShare d) := by
  obtain ⟨n, hn⟩ := t
  cases n with
  | zero => show Pipeline.ΦA spec3 c ⊢ _; rw [PhiA3_eq]
  | succ n => exact sep_mono_left (sep_mono_left (exists_intro _))

theorem hin3 : Pipeline.ΦA spec3 c ⊢ (dat3 V c).Φ 0 := .rfl

theorem hout3 : (dat3 V c).Φ (Fin.last cfg3.N) ⊢ Pipeline.ΦA spec3 c := PhiA3_eq (F := F) c ▸ Phi_out3 V c _

set_option maxHeartbeats 4800000 in
theorem sound_body3 (t : Fin cfg3.N) :
    iprop((dat3 V c).Φ t.castSucc ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d)))
    ⊢ wp frame (wpE (defs₀ (F := F)) Variants.none c none) Set.univ (bodyAt3 t) (fun _ =>
      iprop(accInv3 c (owns (c : Thread nD τ) scM3_0 fullShare (outsAt3 V c t.val t.isLt).2) ∗ (dat3 V c).owesAt () t.castSucc
        ∗ owns (c : Thread nD τ) (ms3_0 t) fullShare (iblk3 V c 0 t) ∗ owns (c : Thread nD τ) (ms3_1 t) fullShare (iblk3 V c 1 t)
        ∗ owns (c : Thread nD τ) (ms3_2 t) fullShare (iblk3 V c 2 t) ∗ (dat3 V c).leavesExact 3 t)) := by
  unfold bodyAt3
  simp only [(before3 V c).1, (before3 V c).2.1, (before3 V c).2.2]
  unfold accInv3
  by_cases h0 : t.val % 6 = 0 <;> by_cases h1 : t.val % 6 = 5
  · omega
  · have hc0 := (hcond3_0 t).mpr h0
    have hc1 := mt (hcond3_1 t).mp h1
    rw [Dat.leavesExact_idle (dat3 V c) 3 t (idleAt3_3_A t hc0 hc1) (noFlush3_3_A t hc0 hc1), outsAt3_A V c t h0 h1]
    dsimp only [pairA3, sout3_A_0]
    iintro ⟨HΦ, Ho, ⟨%d0, H0⟩, ⟨%d1, H1⟩, ⟨%d2, H2⟩, ⟨%d3, H3⟩⟩
    ihave ⟨⟨HS0, Hrest⟩, Hg⟩ := Phi_out3 V c _ $$ HΦ
    iapply ((kernelRun3_A c (grid3.coords t) _ _ _ _ _ _ _ _ _ _ hc0 hc1 (iblk3 V c 0 t) (iblk3 V c 1 t) (iblk3 V c 2 t)).2.2 _ Set.univ _)
    iframe H0 H1 H2 H3 HS0
    iintro ⟨H0, H1, H2, H3, HS0⟩
    iframe Hrest Hg Ho H0 H1 H2
    isplitl [HS0]
    · iapply owns_of_cover3 c VS3_0 (scover3_A_0 c _ _ _ _ _ _ _ _ _ _ _ _ _ _ _ _) $$ HS0
    · iexists _; iexact H3
  · have hc0 := mt (hcond3_0 t).mp h0
    have hc1 := (hcond3_1 t).mpr h1
    rw [show (dat3 V c).leavesExact 3 t = owns (c : Thread nD τ) (ms3_3 t) fullShare ((dat3 V c).after 3 t) from by
      unfold Dat.leavesExact; rw [liveAt3_3_C t hc0 hc1], after3_3, Phi_pos3 V c t (fun e => h0 (by rw [e])), outsAt3_C V c t h0 h1]
    dsimp only [pairC3, out3_C_3, sout3_C_0]
    iintro ⟨⟨⟨HS0, Hrest⟩, Hg⟩, Ho, ⟨%d0, H0⟩, ⟨%d1, H1⟩, ⟨%d2, H2⟩, ⟨%d3, H3⟩⟩
    iapply ((kernelRun3_C c (grid3.coords t) _ _ _ _ _ _ _ _ _ _ hc0 hc1 (iblk3 V c 0 t) (iblk3 V c 1 t) (iblk3 V c 2 t) _).2.2 Set.univ _)
    iframe H0 H1 H2 HS0
    isplitl [H3]; · iexists _; iexact H3
    iintro ⟨H0, H1, H2, H3, HS0⟩
    iframe Hrest Hg Ho H0 H1 H2
    isplitl [HS0]
    · iapply owns_of_cover3 c VS3_0 (scover3_C_0 c _ _ _ _ _ _ _ _ _ _ _ _ _ _ _ _ _) $$ HS0
    · iapply owns_of_cover3 c VO3_3 (cover3_C_3 c _ _ _ _ _ _ _ _ _ _ _ _ _ _ _ _ _) $$ H3
  · have hc0 := mt (hcond3_0 t).mp h0
    have hc1 := mt (hcond3_1 t).mp h1
    rw [Dat.leavesExact_idle (dat3 V c) 3 t (idleAt3_3_B t hc0 hc1) (noFlush3_3_B t hc0 hc1), Phi_pos3 V c t (fun e => h0 (by rw [e])), outsAt3_B V c t h0 h1]
    dsimp only [pairB3, sout3_B_0]
    iintro ⟨⟨⟨HS0, Hrest⟩, Hg⟩, Ho, ⟨%d0, H0⟩, ⟨%d1, H1⟩, ⟨%d2, H2⟩, ⟨%d3, H3⟩⟩
    iapply ((kernelRun3_B c (grid3.coords t) _ _ _ _ _ _ _ _ _ _ hc0 hc1 (iblk3 V c 0 t) (iblk3 V c 1 t) (iblk3 V c 2 t) _).2.2 _ Set.univ _)
    iframe H0 H1 H2 H3 HS0
    iintro ⟨H0, H1, H2, H3, HS0⟩
    iframe Hrest Hg Ho H0 H1 H2
    isplitl [HS0]
    · iapply owns_of_cover3 c VS3_0 (scover3_B_0 c _ _ _ _ _ _ _ _ _ _ _ _ _ _ _ _ _) $$ HS0
    · iexists _; iexact H3

theorem body_obligation3 : BodyObligation (dat3 (F := F) V c) (defs₀ (F := F)) Variants.none () Set.univ := fun t => by
  rw [bigSep_W3, bigSep_W3]
  exact sound_body3 V c t

end Region

end Cert.KernelIdeal.Gen

end
-- ==== Proof.FrameKI.Main.lean ====
import proofs.«135515_j66743791780425_1_alg».proof.Proof.FrameKI.Reg0
import proofs.«135515_j66743791780425_1_alg».proof.Proof.FrameKI.Reg1
import proofs.«135515_j66743791780425_1_alg».proof.Proof.FrameKI.Reg2
import proofs.«135515_j66743791780425_1_alg».proof.Proof.FrameKI.Reg3
import proofs.«135515_j66743791780425_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A region's exit contents: its arrays at the proof data's last contents, every other buffer at `V`. -/
abbrev exitOf {cfg : Cfg sig Λ₀} {c : Dev nD} (V : Valuation τ sig (Elt F)) (d : Dat τ (Elt F) Unit ℕ (UR sig nD τ) ℕ cfg c) :
    Valuation τ sig (Elt F) := Pipeline.withArrays cfg.spec c V fun w => d.arrAt w cfg.N

/-- Off the output window's array, a region's exit contents are its entry contents. -/
theorem withArrays_keep {cfg : Cfg sig Λ₀} (hinj : Function.Injective (Pipeline.arrRef cfg.spec)) {c : Dev nD} (V : Valuation τ sig (Elt F))
    (d : Dat τ (Elt F) Unit ℕ (UR sig nD τ) ℕ cfg c) (hA : ∀ w, d.A w = V (Proc.devRef .tc (Pipeline.arrRef cfg.spec w)))
    (o b : Ref sig .tc) (ho : ∀ w, (cfg.win w).isOut = true → Pipeline.arrRef cfg.spec w = o) (hb : b ≠ o) :
    exitOf V d (Proc.devRef .tc b) = V (Proc.devRef .tc b) := by
  by_cases h : ∃ w, Pipeline.arrRef cfg.spec w = b
  · obtain ⟨w, rfl⟩ := h
    exact (Pipeline.withArrays_arr _ hinj c _ _ w).trans
      ((d.arrAt_in w (Bool.eq_false_iff.mpr fun h => hb (ho w h)) _).trans (hA w))
  · exact Pipeline.withArrays_of_ne _ c _ _ b fun w e => h ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
def W2 (c : Dev nD) : Valuation τ sig (Elt F) := exitOf (W1 m ρ c) (dat0 (U1 m ρ) c)
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_keep (c : Dev nD) (b : Ref sig .tc) (hb : b ≠ main_v5) : W2 m ρ c (Proc.devRef .tc b) = W1 m ρ c (Proc.devRef .tc b) :=
  withArrays_keep launch0.win.arr_inj _ _ (A_eq0 (U1 m ρ) c) main_v5 b (by decide) hb
abbrev U2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
def W4 (c : Dev nD) : Valuation τ sig (Elt F) := exitOf (W3 m ρ c) (dat1 (U3 m ρ) c)
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_keep (c : Dev nD) (b : Ref sig .tc) (hb : b ≠ main_v11) : W4 m ρ c (Proc.devRef .tc b) = W3 m ρ c (Proc.devRef .tc b) :=
  withArrays_keep launch1.win.arr_inj _ _ (A_eq1 (U3 m ρ) c) main_v11 b (by decide) hb
abbrev U4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
def W6 (c : Dev nD) : Valuation τ sig (Elt F) := exitOf (W5 m ρ c) (dat2 (U5 m ρ) c)
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_keep (c : Dev nD) (b : Ref sig .tc) (hb : b ≠ main_v17) : W6 m ρ c (Proc.devRef .tc b) = W5 m ρ c (Proc.devRef .tc b) :=
  withArrays_keep launch2.win.arr_inj _ _ (A_eq2 (U5 m ρ) c) main_v17 b (by decide) hb
abbrev U6 : (c : Dev nD) → (b : Ref sig .tc) → Buf (Elt F) ((c : Thread nD τ).loc b) := fun c b => W6 m ρ c b
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
def W8 (c : Dev nD) : Valuation τ sig (Elt F) := exitOf (W7 m ρ c) (dat3 (U7 m ρ) c)
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_keep (c : Dev nD) (b : Ref sig .tc) (hb : b ≠ main_v19) : W8 m ρ c (Proc.devRef .tc b) = W7 m ρ c (Proc.devRef .tc b) :=
  withArrays_keep launch3.win.arr_inj _ _ (A_eq3 (U7 m ρ) c) main_v19 b (by decide) hb
abbrev U8 : (c : Dev nD) → (b : Ref sig .tc) → Buf (Elt F) ((c : Thread nD τ).loc b) := fun c b => W8 m ρ c b

/-- A buffer that no host stretch writes and that is no region's output ends as launched. -/
theorem W8_launch (c : Dev nD) (b : Ref sig .tc) (h0 : b ∉ hostOps0_W) (h1 : b ∉ hostOps1_W) (h2 : b ∉ hostOps2_W) (h3 : b ∉ hostOps3_W)
    (g0 : b ≠ main_v5) (g1 : b ≠ main_v11) (g2 : b ≠ main_v17) (g3 : b ≠ main_v19) :
    W8 m ρ c (Proc.devRef .tc b) = m ((c : Thread nD τ).loc b) :=
  (W8_keep m ρ c b g3).trans <| (StableHlo.after_of_writes_sub hostOps3 _ hostOps3_writes h3).trans <|
  (W6_keep m ρ c b g2).trans <| (StableHlo.after_of_writes_sub hostOps2 _ hostOps2_writes h2).trans <|
  (W4_keep m ρ c b g1).trans <| (StableHlo.after_of_writes_sub hostOps1 _ hostOps1_writes h1).trans <|
  (W2_keep m ρ c b g0).trans <| (StableHlo.after_of_writes_sub hostOps0 _ hostOps0_writes h0).trans rfl

def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

set_option backward.isDefEq.respectTransparency.types false in
/-- A region as a segment of the run: entered with the buffers at `V`, left with its arrays at their last contents and every other buffer as entered. -/
def regOf (pd : (p : Fin 4) → (c : Dev nD) → Dat τ (Elt F) Unit ℕ (UR sig nD τ) ℕ (Pipeline.pin (pcfgs (F := F)) adm p) c)
    (p : Fin 4) (lf : Pipeline.LaunchFacts (nD := nD) (τ := τ) cfgs p) (V : Dev nD → Valuation τ sig (Elt F))
    (hq : ∀ c w, (pd p c).q w = fullShare) (how : ∀ c t, (pd p c).owed t = 0) (hrec : ∀ c, (pd p c).recorded 0 = Set.univ)
    (hA : ∀ c w, (pd p c).A w = V c (Proc.devRef .tc (Pipeline.arrRef (cfgs p).spec w)))
    (hbody : ∀ c, BodyObligation (pd p c) (defs₀ (F := F)) Variants.none () Set.univ)
    (hin : ∀ c, Pipeline.ΦA (cfgs p).spec c ⊢ (pd p c).Φ 0)
    (hout : ∀ c, (pd p c).Φ (Fin.last (cfgs p).N) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p how
  pre c := iprop(StableHlo.held (c : Thread nD τ) (Pipeline.ucRefs τ sig) (V c) ∗ R c)
  post c := iprop(StableHlo.held (c : Thread nD τ) (Pipeline.ucRefs τ sig) (exitOf (V c) (pd p c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [how c 0, hrec c]
      icases HO with ⟨%W, HO⟩; iexists W; isplitr; · ipureintro; exact fun _ _ => Or.inl trivial
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    have h := hout c
    unfold Pipeline.ΦA at h
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => V c b) (fun b => exitOf (V c) (pd p c) b) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held c (exitOf (V c) (pd p c))] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [how c]
    icases HO with ⟨%W, -, HO⟩; iexists W; iexact HO

abbrev reg0 := regOf (pdats m ρ) 0 launch0 (W1 m ρ) (fun _ _ => rfl) (fun _ _ => rfl) (fun _ => rfl) (A_eq0 (U1 m ρ)) (body_obligation0 (U1 m ρ)) (hin0 (U1 m ρ)) (hout0 (U1 m ρ))
abbrev reg1 := regOf (pdats m ρ) 1 launch1 (W3 m ρ) (fun _ _ => rfl) (fun _ _ => rfl) (fun _ => rfl) (A_eq1 (U3 m ρ)) (body_obligation1 (U3 m ρ)) (hin1 (U3 m ρ)) (hout1 (U3 m ρ))
abbrev reg2 := regOf (pdats m ρ) 2 launch2 (W5 m ρ) (fun _ _ => rfl) (fun _ _ => rfl) (fun _ => rfl) (A_eq2 (U5 m ρ)) (body_obligation2 (U5 m ρ)) (hin2 (U5 m ρ)) (hout2 (U5 m ρ))
abbrev reg3 := regOf (pdats m ρ) 3 launch3 (W7 m ρ) (fun _ _ => rfl) (fun _ _ => rfl) (fun _ => rfl) (A_eq3 (U7 m ρ)) (body_obligation3 (U7 m ρ)) (hin3 (U7 m ρ)) (hout3 (U7 m ρ))

abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
theorem main_run (c : Dev nD) : main (F := F) c = Pipeline.Seg.run (msegs m ρ) := (main_chain c).trans (by chain_rfl)

set_option backward.isDefEq.respectTransparency.types false in

theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- A buffer outside the regions' own scratch that no host stretch writes and that is no region's output. -/
abbrev Kept (b : Ref sig .tc) : Prop :=
  ¬ (Proc.devRef .tc b : DevRef τ sig).isScoped ∧ b ∉ hostOps0_W ∧ b ∉ hostOps1_W ∧ b ∉ hostOps2_W ∧ b ∉ hostOps3_W
    ∧ b ≠ main_v5 ∧ b ≠ main_v11 ∧ b ≠ main_v17 ∧ b ≠ main_v19

/-- The result array ends at the last region's final contents; a kept buffer ends as launched. -/
theorem run_result : θ_run defs (onTc (τ := τ) (main (F := F))) ⟨m, fun _ => 0, ρ⟩ (fun r => ∀ c : Dev nD,
      r.2.mem ((c.tc : Thread nD τ).loc main_v19) = (dat3 (U7 m ρ) c).arrAt 3 cfg3.N
      ∧ ∀ b, Kept b → r.2.mem ((c.tc : Thread nD τ).loc b) = m ((c.tc : Thread nD τ).loc b)) :=
  (θ_run defs _ _).mono (fun r h c => ⟨(h c _ (mem_uc main_v19 (by decide))).trans (W8_arr m ρ c 3),
    fun b ⟨s, h0, h1, h2, h3, g0, g1, g2, g3⟩ => (h c _ (mem_uc b s)).trans (W8_launch m ρ c b h0 h1 h2 h3 g0 g1 g2 g3)⟩) (run_main m ρ)

end Cert.KernelIdeal.Gen

end
-- ==== Proof.Value.PayStage.lean ====
import proofs.«135515_j66743791780425_1_alg».proof.Proof.Gen.KernelIdeal.Skeleton
import proofs.«135515_j66743791780425_1_alg».proof.Proof.Value.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StageValue

open Idealize.ShloMosaic Idealize.ShloMosaic.ValueIdx Cert.KernelIdeal Cert.KernelIdeal.Gen

theorem k0_pay1_apply (j : S1024x1024.Idx) : k0_pay1 (F := Ideal) j = 0 := by
  unfold k0_pay1
  rw [shapeCast_self]
  exact Ideal.ofBits_zero_f32

theorem lhs_k0_0 (i : S1024x1024.Idx) (c : dot_S1024x784_S1024x784_S1024x1024_1_1_0_0_n_n.contr.Idx) :
    (dot_S1024x784_S1024x784_S1024x1024_1_1_0_0_n_n.lhsIdx i c 0).val = (i 0).val := by
  unfold DotDims.lhsIdx
  rw [dif_neg (show ¬(0 : Fin S1024x784.rank) ∈ dot_S1024x784_S1024x784_S1024x1024_1_1_0_0_n_n.lhsBatch by decide), dif_pos (show (0 : Fin S1024x784.rank) ∈ dot_S1024x784_S1024x784_S1024x1024_1_1_0_0_n_n.lhsNonContracting by decide)]
  rfl
theorem lhs_k0_1 (i : S1024x1024.Idx) (c : dot_S1024x784_S1024x784_S1024x1024_1_1_0_0_n_n.contr.Idx) :
    (dot_S1024x784_S1024x784_S1024x1024_1_1_0_0_n_n.lhsIdx i c 1).val = (c ⟨0, by decide⟩).val :=
  dot_S1024x784_S1024x784_S1024x1024_1_1_0_0_n_n.lhsIdx_val_of_single rfl i c
theorem rhs_k0_0 (i : S1024x1024.Idx) (c : dot_S1024x784_S1024x784_S1024x1024_1_1_0_0_n_n.contr.Idx) :
    (dot_S1024x784_S1024x784_S1024x1024_1_1_0_0_n_n.rhsIdx i c 0).val = (i 1).val := by
  unfold DotDims.rhsIdx
  rw [dif_neg (show ¬(0 : Fin S1024x784.rank) ∈ dot_S1024x784_S1024x784_S1024x1024_1_1_0_0_n_n.rhsBatch by decide), dif_pos (show (0 : Fin S1024x784.rank) ∈ dot_S1024x784_S1024x784_S1024x1024_1_1_0_0_n_n.rhsNonContracting by decide)]
  rfl
theorem rhs_k0_1 (i : S1024x1024.Idx) (c : dot_S1024x784_S1024x784_S1024x1024_1_1_0_0_n_n.contr.Idx) :
    (dot_S1024x784_S1024x784_S1024x1024_1_1_0_0_n_n.rhsIdx i c 1).val = (c ⟨0, by decide⟩).val :=
  dot_S1024x784_S1024x784_S1024x1024_1_1_0_0_n_n.rhsIdx_val_of_single rfl i c

theorem matmul_k0_apply (l : FVec Ideal S1024x784 .bf16) (r : FVec Ideal S1024x784 .bf16) (p q : Fin 1024) :
    matmul dot_S1024x784_S1024x784_S1024x1024_1_1_0_0_n_n none l r (constant (F := Ideal) S1024x1024 .f32 0x00000000#32) (ix2 p q)
      = ∑ k : Fin 784, l (ix2 p k) * r (ix2 q k) := by
  simp only [matmul]
  rw [Ideal.matmul_constant_zero_apply, ← Equiv.sum_comp (contrEquiv1 dot_S1024x784_S1024x784_S1024x1024_1_1_0_0_n_n 784 rfl rfl).symm]
  refine Finset.sum_congr rfl fun k _ => ?_
  have hk := contrEquiv1_symm_val dot_S1024x784_S1024x784_S1024x1024_1_1_0_0_n_n 784 rfl rfl k
  have el : dot_S1024x784_S1024x784_S1024x1024_1_1_0_0_n_n.lhsIdx (ix2 p q) ((contrEquiv1 dot_S1024x784_S1024x784_S1024x1024_1_1_0_0_n_n 784 rfl rfl).symm k) = ix2 p k := funext fun a => Fin.ext (by
    match a with
    | ⟨0, _⟩ => exact lhs_k0_0 _ _
    | ⟨1, _⟩ => exact (lhs_k0_1 _ _).trans hk)
  have er : dot_S1024x784_S1024x784_S1024x1024_1_1_0_0_n_n.rhsIdx (ix2 p q) ((contrEquiv1 dot_S1024x784_S1024x784_S1024x1024_1_1_0_0_n_n 784 rfl rfl).symm k) = ix2 q k := funext fun a => Fin.ext (by
    match a with
    | ⟨0, _⟩ => exact rhs_k0_0 _ _
    | ⟨1, _⟩ => exact (rhs_k0_1 _ _).trans hk)
  rw [el, er]

theorem k0_pay2_apply (x : Vec Ideal S1024x784 .f32) (w : Vec Ideal S1024x784 .f32) (acc : Vec Ideal S1024x1024 .f32) (p q : Fin 1024) :
    k0_pay2 (F := Ideal) x w acc (ix2 p q)
      = acc (ix2 p q) + ∑ k : Fin 784, x (ix2 p k) * Cert.Spec.sgn (w (ix2 q k)) := by
  unfold k0_pay2
  simp only [shapeCast_self]
  rw [addf_apply, matmul_k0_apply]
  rfl

theorem k0_pay3_apply (acc : Vec Ideal S1024x1024 .f32) (b g v mu be : Vec Ideal S1x1024 .f32) (p q : Fin 1024) :
    k0_pay3 (F := Ideal) acc b g v mu be (ix2 p q)
      = Cert.Spec.act (Cert.Spec.bn (acc (ix2 p q)) (b (ix2 0 q)) (g (ix2 0 q)) (v (ix2 0 q)) (mu (ix2 0 q)) (be (ix2 0 q))) := by
  unfold k0_pay3
  simp only [shapeCast_self]
  simp only [truncf_apply, select_apply, cmpf_apply, minimumf_apply, maximumf_apply, addf_apply, mulf_apply, subf_apply,
    broadcast_apply, broadcastTo_1b_ab_apply]
  rfl

theorem k1_pay1_apply (j : S1024x1024.Idx) : k1_pay1 (F := Ideal) j = 0 := by
  unfold k1_pay1
  rw [shapeCast_self]
  exact Ideal.ofBits_zero_f32

theorem lhs_k1_0 (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_k1_1 (i : S1024x1024.Idx) (c : dot_S1024x512_S1024x512_S1024x1024_1_1_0_0_n_n.contr.Idx) :
    (dot_S1024x512_S1024x512_S1024x1024_1_1_0_0_n_n.lhsIdx i c 1).val = (c ⟨0, by decide⟩).val :=
  dot_S1024x512_S1024x512_S1024x1024_1_1_0_0_n_n.lhsIdx_val_of_single rfl i c
theorem rhs_k1_0 (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_k1_1 (i : S1024x1024.Idx) (c : dot_S1024x512_S1024x512_S1024x1024_1_1_0_0_n_n.contr.Idx) :
    (dot_S1024x512_S1024x512_S1024x1024_1_1_0_0_n_n.rhsIdx i c 1).val = (c ⟨0, by decide⟩).val :=
  dot_S1024x512_S1024x512_S1024x1024_1_1_0_0_n_n.rhsIdx_val_of_single rfl i c

theorem matmul_k1_apply (l : FVec Ideal S1024x512 .bf16) (r : FVec Ideal S1024x512 .bf16) (p q : Fin 1024) :
    matmul dot_S1024x512_S1024x512_S1024x1024_1_1_0_0_n_n none l r (constant (F := Ideal) S1024x1024 .f32 0x00000000#32) (ix2 p q)
      = ∑ k : Fin 512, l (ix2 p k) * r (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_k1_0 _ _
    | ⟨1, _⟩ => exact (lhs_k1_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_k1_0 _ _
    | ⟨1, _⟩ => exact (rhs_k1_1 _ _).trans hk)
  rw [el, er]

theorem k1_pay2_apply (x : Vec Ideal S1024x512 .bf16) (w : Vec Ideal S1024x512 .f32) (acc : Vec Ideal S1024x1024 .f32) (p q : Fin 1024) :
    k1_pay2 (F := Ideal) x w acc (ix2 p q)
      = acc (ix2 p q) + ∑ k : Fin 512, x (ix2 p k) * Cert.Spec.sgn (w (ix2 q k)) := by
  unfold k1_pay2
  simp only [shapeCast_self]
  rw [addf_apply, matmul_k1_apply]
  rfl

theorem k1_pay3_apply (acc : Vec Ideal S1024x1024 .f32) (b g v mu be : Vec Ideal S1x1024 .f32) (p q : Fin 1024) :
    k1_pay3 (F := Ideal) acc b g v mu be (ix2 p q)
      = Cert.Spec.act (Cert.Spec.bn (acc (ix2 p q)) (b (ix2 0 q)) (g (ix2 0 q)) (v (ix2 0 q)) (mu (ix2 0 q)) (be (ix2 0 q))) := by
  unfold k1_pay3
  simp only [shapeCast_self]
  simp only [truncf_apply, select_apply, cmpf_apply, minimumf_apply, maximumf_apply, addf_apply, mulf_apply, subf_apply,
    broadcast_apply, broadcastTo_1b_ab_apply]
  rfl

theorem k2_pay1_apply (j : S1024x1024.Idx) : k2_pay1 (F := Ideal) j = 0 := by
  unfold k2_pay1
  rw [shapeCast_self]
  exact Ideal.ofBits_zero_f32

theorem k2_pay2_apply (x : Vec Ideal S1024x512 .bf16) (w : Vec Ideal S1024x512 .f32) (acc : Vec Ideal S1024x1024 .f32) (p q : Fin 1024) :
    k2_pay2 (F := Ideal) x w acc (ix2 p q)
      = acc (ix2 p q) + ∑ k : Fin 512, x (ix2 p k) * Cert.Spec.sgn (w (ix2 q k)) := by
  unfold k2_pay2
  simp only [shapeCast_self]
  rw [addf_apply, matmul_k1_apply]
  rfl

theorem k2_pay3_apply (acc : Vec Ideal S1024x1024 .f32) (b g v mu be : Vec Ideal S1x1024 .f32) (p q : Fin 1024) :
    k2_pay3 (F := Ideal) acc b g v mu be (ix2 p q)
      = Cert.Spec.act (Cert.Spec.bn (acc (ix2 p q)) (b (ix2 0 q)) (g (ix2 0 q)) (v (ix2 0 q)) (mu (ix2 0 q)) (be (ix2 0 q))) := by
  unfold k2_pay3
  simp only [shapeCast_self]
  simp only [truncf_apply, select_apply, cmpf_apply, minimumf_apply, maximumf_apply, addf_apply, mulf_apply, subf_apply,
    broadcast_apply, broadcastTo_1b_ab_apply]
  rfl

end Cert.KernelIdeal.StageValue

end
-- ==== Proof.Value.Blocked.lean ====
import Mathlib.Data.EReal.Basic
import Mathlib.Algebra.BigOperators.Fin
import Mathlib.Logic.Equiv.Fin.Basic

noncomputable section

namespace Cert.Blocked

theorem blk_lt {nb bs n : Nat} (hn : n ≤ nb) (k' : Fin n) (κ : Fin bs) : k'.val * bs + κ.val < nb * bs :=
  calc k'.val * bs + κ.val < k'.val * bs + bs := Nat.add_lt_add_left κ.isLt _
    _ = (k'.val + 1) * bs := (Nat.succ_mul _ _).symm
    _ ≤ nb * bs := Nat.mul_le_mul_right bs (Nat.le_trans k'.isLt hn)

theorem sum_blocks (nb bs : Nat) (f : Fin (nb * bs) → EReal) :
    ∑ k' : Fin nb, ∑ κ : Fin bs, f ⟨k'.val * bs + κ.val, blk_lt (Nat.le_refl nb) k' κ⟩ = ∑ k : Fin (nb * bs), f k := by
  rw [← Equiv.sum_comp (finProdFinEquiv (m := nb) (n := bs)) f, Fintype.sum_prod_type]
  refine Finset.sum_congr rfl fun k' _ => Finset.sum_congr rfl fun κ _ => congrArg f (Fin.ext ?_)
  show k'.val * bs + κ.val = κ.val + bs * k'.val
  rw [Nat.mul_comm, Nat.add_comm]

def partialSum (nb bs : Nat) (f : Fin (nb * bs) → EReal) (n : Nat) (hn : n ≤ nb) : EReal :=
  ∑ k' : Fin n, ∑ κ : Fin bs, f ⟨k'.val * bs + κ.val, blk_lt hn k' κ⟩

theorem partialSum_zero (nb bs : Nat) (f : Fin (nb * bs) → EReal) : partialSum nb bs f 0 (Nat.zero_le nb) = 0 := by
  unfold partialSum
  exact Finset.sum_of_isEmpty _

theorem partialSum_succ (nb bs : Nat) (f : Fin (nb * bs) → EReal) (n : Nat) (hn : n + 1 ≤ nb) :
    partialSum nb bs f (n + 1) hn
      = partialSum nb bs f n (Nat.le_of_succ_le hn)
        + ∑ κ : Fin bs, f ⟨n * bs + κ.val, blk_lt hn (Fin.last n) κ⟩ := by
  unfold partialSum
  rw [Fin.sum_univ_castSucc]
  rfl

theorem partialSum_full (nb bs : Nat) (f : Fin (nb * bs) → EReal) :
    partialSum nb bs f nb (Nat.le_refl nb) = ∑ k : Fin (nb * bs), f k :=
  sum_blocks nb bs f

end Cert.Blocked

end
-- ==== Proof.Value.Row.lean ====
import Idealize.ShloMosaic.PureOps.Ideal
import Idealize.ShloMosaic.Lib.ValueIdx

noncomputable section

namespace Cert.Spec

open Idealize.ShloMosaic Idealize.ShloMosaic.ValueIdx

def row {n : Nat} (a : (⟨2, ![1, n]⟩ : Shape).Idx → EReal) : (⟨1, ![n]⟩ : Shape).Idx → EReal :=
  fun j => a (ix2 (0 : Fin 1) (j 0 : Fin n))

theorem row_apply {n : Nat} (a : (⟨2, ![1, n]⟩ : Shape).Idx → EReal) (q : Fin n) : row a (ix1 q) = a (ix2 (0 : Fin 1) q) := rfl

end Cert.Spec

end
-- ==== Proof.Value.Stage0.lean ====
import proofs.«135515_j66743791780425_1_alg».proof.Proof.FrameKI.Reg0
import proofs.«135515_j66743791780425_1_alg».proof.Proof.Value.PayStage
import proofs.«135515_j66743791780425_1_alg».proof.Proof.Value.Blocked
import proofs.«135515_j66743791780425_1_alg».proof.Proof.Value.Spec
import proofs.«135515_j66743791780425_1_alg».proof.Proof.Value.Row
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

namespace Cert.KernelIdeal.StageValue

open Idealize.ShloMosaic Idealize.ShloMosaic.ValueIdx Idealize.ShloMosaic.TcCoe Idealize.ShloMosaic.Tactic Idealize.SL.Sem Cert.KernelIdeal Cert.KernelIdeal.Gen
open Idealize.ShloMosaic.Pipeline (Dat)

theorem hz2 : (![0, 0] : Fin 2 → Nat) = fun _ => 0 := funext fun a => by fin_cases a <;> rfl

section Piece
variable {F : FTy → Type} [FloatOps F]

theorem out0_7_eq (c : Dev nD) (i : grid0.Coords) (arg3 : Memref sig .tc .vmem S1024x784 .f32) (harg3 : arg3.IsWhole) (arg4 : Memref sig .tc .vmem S1024x784 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (hc0 : cond0_0 i) (hc1 : cond0_1 i)
    (x0 x1 : Vec F S1024x784 .f32) (x2 x3 x4 x5 x6 : Vec F S1x1024 .f32) :
    out0_7 c i arg3 harg3 arg4 harg4 arg5 harg5 arg6 harg6 arg7 harg7 arg8 harg8 arg9 harg9 arg10 harg10 arg11 harg11 hc0 hc1 x0 x1 x2 x3 x4 x5 x6 = k0_pay3 (k0_pay2 x0 x1 k0_pay1) x2 x3 x6 x5 x4 := by
  unfold out0_7
  rw [View.read_writes_eq_canon _ _ _ (fun y => cover0_7 (y := y) ..)]
  unfold kernelRun0
  dsimp only
  sl_unfold_words
  rw [View.canon_unit_zero hz2]
  simp only [View.readCov_cons_toLoadRect, View.readAt_eq_ld, Memref.IsWhole.read_unread, View.ld_unit_zero (S := S1024x784) hz2, View.ld_unit_zero (S := S1x1024) hz2]

end Piece

theorem pay_chain0 (x w : Vec Ideal S1024x784 .f32) (b g e m v : Vec Ideal S1x1024 .f32) (p q : Fin 1024) :
    k0_pay3 (F := Ideal) (k0_pay2 x w (k0_pay1 (F := Ideal))) b g v m e (ix2 p q)
      = Cert.Spec.act (Cert.Spec.bn (∑ k : Fin 784, x (ix2 p k) * Cert.Spec.sgn (w (ix2 q k)))
          (b (ix2 0 q)) (g (ix2 0 q)) (v (ix2 0 q)) (m (ix2 0 q)) (e (ix2 0 q))) := by
  rw [k0_pay3_apply, k0_pay2_apply, k0_pay1_apply, zero_add]

section Value
variable (V : (c : Dev nD) → (b : Ref sig .tc) → Buf (Elt Ideal) ((c : Thread nD τ).loc b))

abbrev xblk0 (c : Dev nD) (t : Fin cfg0.N) : Vec Ideal S1024x784 .f32 := iblk0 V c 0 t
abbrev wblk0 (c : Dev nD) (t : Fin cfg0.N) : Vec Ideal S1024x784 .f32 := iblk0 V c 1 t
abbrev bblk0 (c : Dev nD) (t : Fin cfg0.N) : Vec Ideal S1x1024 .f32 := iblk0 V c 2 t
abbrev gblk0 (c : Dev nD) (t : Fin cfg0.N) : Vec Ideal S1x1024 .f32 := iblk0 V c 3 t
abbrev eblk0 (c : Dev nD) (t : Fin cfg0.N) : Vec Ideal S1x1024 .f32 := iblk0 V c 4 t
abbrev mblk0 (c : Dev nD) (t : Fin cfg0.N) : Vec Ideal S1x1024 .f32 := iblk0 V c 5 t
abbrev vblk0 (c : Dev nD) (t : Fin cfg0.N) : Vec Ideal S1x1024 .f32 := iblk0 V c 6 t

abbrev xarr0 (c : Dev nD) : Vec Ideal S8192x784 .f32 := V c main_arg0
abbrev warr0 (c : Dev nD) : Vec Ideal S6144x784 .f32 := V c main_arg1
abbrev barr0 (c : Dev nD) : Vec Ideal S1x6144 .f32 := V c main_v0
abbrev garr0 (c : Dev nD) : Vec Ideal S1x6144 .f32 := V c main_v1
abbrev earr0 (c : Dev nD) : Vec Ideal S1x6144 .f32 := V c main_v2
abbrev marr0 (c : Dev nD) : Vec Ideal S1x6144 .f32 := V c main_v3
abbrev varr0 (c : Dev nD) : Vec Ideal S1x6144 .f32 := V c main_v4

theorem outAt0_apply (c : Dev nD) (t : Fin cfg0.N) (p q : Fin 1024) :
    (outAt0 V c t : Vec Ideal S1024x1024 .bf16) (ix2 p q)
      = Cert.Spec.act (Cert.Spec.bn (∑ k : Fin 784, xblk0 V c t (ix2 p k) * Cert.Spec.sgn (wblk0 V c t (ix2 q k)))
          (bblk0 V c t (ix2 0 q)) (gblk0 V c t (ix2 0 q)) (vblk0 V c t (ix2 0 q)) (mblk0 V c t (ix2 0 q)) (eblk0 V c t (ix2 0 q))) := by
  unfold outAt0
  refine (congrFun (out0_7_eq (F := Ideal) ..) (ix2 p q)).trans ?_
  exact pay_chain0 ..

theorem idx_facts0 : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = 0 ∧ win0_5.index t (1 : Fin 2) = win0_7.index t (1 : Fin 2)
    ∧ win0_6.index t (0 : Fin 2) = 0 ∧ win0_6.index t (1 : Fin 2) = win0_7.index t (1 : Fin 2)
    ∧ win0_7.index t (0 : Fin 2) ≤ 7 ∧ win0_7.index t (1 : Fin 2) ≤ 5 :=
  (by decide +kernel : ∀ t : Fin grid0.N, _)

theorem idx_onto0 : ∀ (q0 : Fin 8) (q1 : Fin 6), ∃ t : Fin cfg0.N, win0_7.index t = ![q0.val, q1.val] :=
  (by decide +kernel : ∀ (q0 : Fin 8) (q1 : Fin 6), ∃ t : Fin grid0.N, win0_7.index t = ![q0.val, q1.val])

theorem xblk0_apply (c : Dev nD) (t : Fin cfg0.N) (p : Fin 1024) (k : Fin 784) (r : Fin 8192)
    (hr : r.val = win0_7.index t (0 : Fin 2) * 1024 + p.val) : xblk0 V c t (ix2 p k) = xarr0 V c (ix2 r k) := by
  obtain ⟨e0, e1, -⟩ := idx_facts0 t
  unfold xblk0 xarr0 iblk0
  rw [View.read_apply]
  show V c main_arg0 _ = V c main_arg0 (ix2 r k)
  refine congrArg (V c main_arg0) (funext fun a => Fin.ext ?_)
  match a with
  | ⟨0, _⟩ => show win0_0.index t (0 : Fin 2) * 1024 + 1 * p.val = r.val; omega
  | ⟨1, _⟩ => show win0_0.index t (1 : Fin 2) * 784 + 1 * k.val = k.val; omega

theorem wblk0_apply (c : Dev nD) (t : Fin cfg0.N) (q : Fin 1024) (k : Fin 784) (s : Fin 6144)
    (hs : s.val = win0_7.index t (1 : Fin 2) * 1024 + q.val) : wblk0 V c t (ix2 q k) = warr0 V c (ix2 s k) := by
  obtain ⟨-, -, e0, e1, -⟩ := idx_facts0 t
  unfold wblk0 warr0 iblk0
  rw [View.read_apply]
  show V c main_arg1 _ = V c main_arg1 (ix2 s k)
  refine congrArg (V c main_arg1) (funext fun a => Fin.ext ?_)
  match a with
  | ⟨0, _⟩ => show win0_1.index t (0 : Fin 2) * 1024 + 1 * q.val = s.val; omega
  | ⟨1, _⟩ => show win0_1.index t (1 : Fin 2) * 784 + 1 * k.val = k.val; omega

theorem bblk0_apply (c : Dev nD) (t : Fin cfg0.N) (q : Fin 1024) (s : Fin 6144)
    (hs : s.val = win0_7.index t (1 : Fin 2) * 1024 + q.val) : bblk0 V c t (ix2 0 q) = barr0 V c (ix2 0 s) := by
  obtain ⟨-, -, -, -, b0, b1, g0, g1, e0, e1, m0, m1, v0, v1, -⟩ := idx_facts0 t
  unfold bblk0 barr0 iblk0
  rw [View.read_apply]
  show V c main_v0 _ = V c main_v0 (ix2 0 s)
  refine congrArg (V c main_v0) (funext fun a => Fin.ext ?_)
  match a with
  | ⟨0, _⟩ => show win0_2.index t (0 : Fin 2) * 1 + 1 * 0 = 0; omega
  | ⟨1, _⟩ => show win0_2.index t (1 : Fin 2) * 1024 + 1 * q.val = s.val; omega

theorem gblk0_apply (c : Dev nD) (t : Fin cfg0.N) (q : Fin 1024) (s : Fin 6144)
    (hs : s.val = win0_7.index t (1 : Fin 2) * 1024 + q.val) : gblk0 V c t (ix2 0 q) = garr0 V c (ix2 0 s) := by
  obtain ⟨-, -, -, -, b0, b1, g0, g1, e0, e1, m0, m1, v0, v1, -⟩ := idx_facts0 t
  unfold gblk0 garr0 iblk0
  rw [View.read_apply]
  show V c main_v1 _ = V c main_v1 (ix2 0 s)
  refine congrArg (V c main_v1) (funext fun a => Fin.ext ?_)
  match a with
  | ⟨0, _⟩ => show win0_3.index t (0 : Fin 2) * 1 + 1 * 0 = 0; omega
  | ⟨1, _⟩ => show win0_3.index t (1 : Fin 2) * 1024 + 1 * q.val = s.val; omega

theorem eblk0_apply (c : Dev nD) (t : Fin cfg0.N) (q : Fin 1024) (s : Fin 6144)
    (hs : s.val = win0_7.index t (1 : Fin 2) * 1024 + q.val) : eblk0 V c t (ix2 0 q) = earr0 V c (ix2 0 s) := by
  obtain ⟨-, -, -, -, b0, b1, g0, g1, e0, e1, m0, m1, v0, v1, -⟩ := idx_facts0 t
  unfold eblk0 earr0 iblk0
  rw [View.read_apply]
  show V c main_v2 _ = V c main_v2 (ix2 0 s)
  refine congrArg (V c main_v2) (funext fun a => Fin.ext ?_)
  match a with
  | ⟨0, _⟩ => show win0_4.index t (0 : Fin 2) * 1 + 1 * 0 = 0; omega
  | ⟨1, _⟩ => show win0_4.index t (1 : Fin 2) * 1024 + 1 * q.val = s.val; omega

theorem mblk0_apply (c : Dev nD) (t : Fin cfg0.N) (q : Fin 1024) (s : Fin 6144)
    (hs : s.val = win0_7.index t (1 : Fin 2) * 1024 + q.val) : mblk0 V c t (ix2 0 q) = marr0 V c (ix2 0 s) := by
  obtain ⟨-, -, -, -, b0, b1, g0, g1, e0, e1, m0, m1, v0, v1, -⟩ := idx_facts0 t
  unfold mblk0 marr0 iblk0
  rw [View.read_apply]
  show V c main_v3 _ = V c main_v3 (ix2 0 s)
  refine congrArg (V c main_v3) (funext fun a => Fin.ext ?_)
  match a with
  | ⟨0, _⟩ => show win0_5.index t (0 : Fin 2) * 1 + 1 * 0 = 0; omega
  | ⟨1, _⟩ => show win0_5.index t (1 : Fin 2) * 1024 + 1 * q.val = s.val; omega

theorem vblk0_apply (c : Dev nD) (t : Fin cfg0.N) (q : Fin 1024) (s : Fin 6144)
    (hs : s.val = win0_7.index t (1 : Fin 2) * 1024 + q.val) : vblk0 V c t (ix2 0 q) = varr0 V c (ix2 0 s) := by
  obtain ⟨-, -, -, -, b0, b1, g0, g1, e0, e1, m0, m1, v0, v1, -⟩ := idx_facts0 t
  unfold vblk0 varr0 iblk0
  rw [View.read_apply]
  show V c main_v4 _ = V c main_v4 (ix2 0 s)
  refine congrArg (V c main_v4) (funext fun a => Fin.ext ?_)
  match a with
  | ⟨0, _⟩ => show win0_6.index t (0 : Fin 2) * 1 + 1 * 0 = 0; omega
  | ⟨1, _⟩ => show win0_6.index t (1 : Fin 2) * 1024 + 1 * q.val = s.val; omega

abbrev G0 (c : Dev nD) : Vec Ideal S8192x6144 .bf16 :=
  Cert.Spec.stage (M := 8192) (N := 6144) (K := 784) (xarr0 V c) (warr0 V c) (Cert.Spec.row (barr0 V c)) (Cert.Spec.row (garr0 V c))
    (Cert.Spec.row (earr0 V c)) (Cert.Spec.row (marr0 V c)) (Cert.Spec.row (varr0 V c))

theorem G0_apply (c : Dev nD) (r : Fin 8192) (s : Fin 6144) :
    G0 V c (ix2 r s) = Cert.Spec.act (Cert.Spec.bn (∑ k : Fin 784, xarr0 V c (ix2 r k) * Cert.Spec.sgn (warr0 V c (ix2 s k)))
      (barr0 V c (ix2 0 s)) (garr0 V c (ix2 0 s)) (varr0 V c (ix2 0 s)) (marr0 V c (ix2 0 s)) (earr0 V c (ix2 0 s))) := rfl

theorem outAt0_eq_stage (c : Dev nD) (t : Fin cfg0.N) (p q : Fin 1024) (r : Fin 8192) (s : Fin 6144)
    (hr : r.val = win0_7.index t (0 : Fin 2) * 1024 + p.val) (hs : s.val = win0_7.index t (1 : Fin 2) * 1024 + q.val) :
    (outAt0 V c t : Vec Ideal S1024x1024 .bf16) (ix2 p q) = G0 V c (ix2 r s) := by
  rw [outAt0_apply, G0_apply, bblk0_apply V c t q s hs, gblk0_apply V c t q s hs, eblk0_apply V c t q s hs, mblk0_apply V c t q s hs,
    vblk0_apply V c t q s hs]
  refine congrArg (fun z => Cert.Spec.act (Cert.Spec.bn z (barr0 V c (ix2 0 s)) (garr0 V c (ix2 0 s)) (varr0 V c (ix2 0 s)) (marr0 V c (ix2 0 s)) (earr0 V c (ix2 0 s)))) ?_
  exact Finset.sum_congr rfl fun k _ => by rw [xblk0_apply V c t p k r hr, wblk0_apply V c t q k s hs]

theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  have key : ∀ j : S1024x1024.Idx, (outAt0 V c t : Vec Ideal S1024x1024 .bf16) j = ((cfg0.win 7).blk t).view.read (Elt Ideal) (G0 V c) j := by
    intro j
    obtain ⟨p, q, rfl⟩ : ∃ (p q : Fin 1024), j = ix2 p q := ⟨j 0, j 1, eq_ix2 j⟩
    obtain ⟨-, -, -, -, -, -, -, -, -, -, -, -, -, -, h0, h1⟩ := idx_facts0 t
    have hp : p.val < 1024 := p.isLt
    have hq : q.val < 1024 := q.isLt
    refine (outAt0_eq_stage V c t p q ⟨win0_7.index t (0 : Fin 2) * 1024 + p.val, by omega⟩ ⟨win0_7.index t (1 : Fin 2) * 1024 + q.val, by omega⟩ rfl rfl).trans ?_
    rw [View.read_apply]
    show G0 V c _ = G0 V c _
    refine congrArg (G0 V c) (funext fun a => Fin.ext ?_)
    match a with
    | ⟨0, _⟩ => show win0_7.index t (0 : Fin 2) * 1024 + p.val = win0_7.index t (0 : Fin 2) * 1024 + 1 * p.val; omega
    | ⟨1, _⟩ => show win0_7.index t (1 : Fin 2) * 1024 + q.val = win0_7.index t (1 : Fin 2) * 1024 + 1 * q.val; omega
  exact funext fun j => key j

theorem mem_blk0 (t : Fin cfg0.N) (i : S8192x6144.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v5).slice (win0_7.rect t)).set ↔ _
  rw [View.set_slice_whole, Rect.mem_set_unit]
  exact Iff.rfl

theorem cover0 (i : S8192x6144.Idx) : ∃ t : Fin cfg0.N, (cfg0.win 7).flush t = true ∧ i ∈ ((cfg0.win 7).blk t).view.set := by
  have hi0 : (i 0).val < 8192 := (i 0).isLt
  have hi1 : (i 1).val < 6144 := (i 1).isLt
  obtain ⟨t, ht⟩ := idx_onto0 ⟨(i 0).val / 1024, by omega⟩ ⟨(i 1).val / 1024, by omega⟩
  have q0 : win0_7.index t (0 : Fin 2) = (i 0).val / 1024 := congrFun ht 0
  have q1 : win0_7.index t (1 : Fin 2) = (i 1).val / 1024 := congrFun ht 1
  refine ⟨t, flush0_7 t, ?_⟩
  rw [mem_blk0]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1024 ≤ (i 1).val ∧ (i 1).val < win0_7.index t (1 : Fin 2) * 1024 + 1024; omega

theorem stage0_val (c : Dev nD) :
    (dat0 (F := Ideal) V c).arrAt 7 cfg0.N
      = Cert.Spec.stage (M := 8192) (N := 6144) (K := 784) (V c main_arg0) (V c main_arg1) (Cert.Spec.row (V c main_v0))
          (Cert.Spec.row (V c main_v1)) (Cert.Spec.row (V c main_v2)) (Cert.Spec.row (V c main_v3)) (Cert.Spec.row (V c main_v4)) :=
  (dat0 V c).arrAt_eq_of_cover 7 (G0 V c) (fun t _ => flushed0_eq V c t) cover0

end Value

end Cert.KernelIdeal.StageValue

end
-- ==== Proof.Value.Stage1Blocks.lean ====
import proofs.«135515_j66743791780425_1_alg».proof.Proof.FrameKI.Reg1
import proofs.«135515_j66743791780425_1_alg».proof.Proof.Value.Spec
import proofs.«135515_j66743791780425_1_alg».proof.Proof.Value.Row
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.StageValue

open Idealize.ShloMosaic Idealize.ShloMosaic.ValueIdx Idealize.ShloMosaic.TcCoe Idealize.ShloMosaic.Tactic Idealize.SL.Sem Cert.KernelIdeal Cert.KernelIdeal.Gen
open Idealize.ShloMosaic.Pipeline (Dat)

section Value
variable (V : (c : Dev nD) → (b : Ref sig .tc) → Buf (Elt Ideal) ((c : Thread nD τ).loc b))

abbrev xblk1 (c : Dev nD) (t : Fin cfg1.N) : Vec Ideal S1024x512 .bf16 := iblk1 V c 0 t
abbrev wblk1 (c : Dev nD) (t : Fin cfg1.N) : Vec Ideal S1024x512 .f32 := iblk1 V c 1 t
abbrev bblk1 (c : Dev nD) (t : Fin cfg1.N) : Vec Ideal S1x1024 .f32 := iblk1 V c 2 t
abbrev gblk1 (c : Dev nD) (t : Fin cfg1.N) : Vec Ideal S1x1024 .f32 := iblk1 V c 3 t
abbrev eblk1 (c : Dev nD) (t : Fin cfg1.N) : Vec Ideal S1x1024 .f32 := iblk1 V c 4 t
abbrev mblk1 (c : Dev nD) (t : Fin cfg1.N) : Vec Ideal S1x1024 .f32 := iblk1 V c 5 t
abbrev vblk1 (c : Dev nD) (t : Fin cfg1.N) : Vec Ideal S1x1024 .f32 := iblk1 V c 6 t

abbrev xarr1 (c : Dev nD) : Vec Ideal S8192x6144 .bf16 := V c main_v5
abbrev warr1 (c : Dev nD) : Vec Ideal S6144x6144 .f32 := V c main_arg3
abbrev barr1 (c : Dev nD) : Vec Ideal S1x6144 .f32 := V c main_v6
abbrev garr1 (c : Dev nD) : Vec Ideal S1x6144 .f32 := V c main_v7
abbrev earr1 (c : Dev nD) : Vec Ideal S1x6144 .f32 := V c main_v8
abbrev marr1 (c : Dev nD) : Vec Ideal S1x6144 .f32 := V c main_v9
abbrev varr1 (c : Dev nD) : Vec Ideal S1x6144 .f32 := V c main_v10

abbrev G1 (c : Dev nD) : Vec Ideal S8192x6144 .bf16 :=
  Cert.Spec.stage (M := 8192) (N := 6144) (K := 6144) (xarr1 V c) (warr1 V c) (Cert.Spec.row (barr1 V c)) (Cert.Spec.row (garr1 V c))
    (Cert.Spec.row (earr1 V c)) (Cert.Spec.row (marr1 V c)) (Cert.Spec.row (varr1 V c))

theorem G1_apply (c : Dev nD) (r : Fin 8192) (s : Fin 6144) :
    G1 V c (ix2 r s) = Cert.Spec.act (Cert.Spec.bn (∑ k : Fin 6144, xarr1 V c (ix2 r k) * Cert.Spec.sgn (warr1 V c (ix2 s k)))
      (barr1 V c (ix2 0 s)) (garr1 V c (ix2 0 s)) (varr1 V c (ix2 0 s)) (marr1 V c (ix2 0 s)) (earr1 V c (ix2 0 s))) := rfl

theorem idx_facts1 : ∀ t : Fin cfg1.N,
    win1_0.index t (0 : Fin 2) = win1_7.index t (0 : Fin 2) ∧ win1_0.index t (1 : Fin 2) = t.val % 12
    ∧ win1_1.index t (0 : Fin 2) = win1_7.index t (1 : Fin 2) ∧ win1_1.index t (1 : Fin 2) = t.val % 12
    ∧ win1_2.index t (0 : Fin 2) = 0 ∧ win1_2.index t (1 : Fin 2) = win1_7.index t (1 : Fin 2)
    ∧ win1_3.index t (0 : Fin 2) = 0 ∧ win1_3.index t (1 : Fin 2) = win1_7.index t (1 : Fin 2)
    ∧ win1_4.index t (0 : Fin 2) = 0 ∧ win1_4.index t (1 : Fin 2) = win1_7.index t (1 : Fin 2)
    ∧ win1_5.index t (0 : Fin 2) = 0 ∧ win1_5.index t (1 : Fin 2) = win1_7.index t (1 : Fin 2)
    ∧ win1_6.index t (0 : Fin 2) = 0 ∧ win1_6.index t (1 : Fin 2) = win1_7.index t (1 : Fin 2)
    ∧ win1_7.index t (0 : Fin 2) ≤ 7 ∧ win1_7.index t (1 : Fin 2) ≤ 5 :=
  (by decide +kernel : ∀ t : Fin grid1.N, _)

theorem idx_closed1 : ∀ t : Fin cfg1.N,
    win1_7.index t (0 : Fin 2) = t.val / 72 ∧ win1_7.index t (1 : Fin 2) = t.val / 12 % 6 :=
  (by decide +kernel : ∀ t : Fin grid1.N, _)

theorem idx_onto1 (q0 : Fin 8) (q1 : Fin 6) : ∃ t : Fin cfg1.N, t.val % 12 = 11 ∧ win1_7.index t = ![q0.val, q1.val] := by
  have h0 : q0.val < 8 := q0.isLt
  have h1 : q1.val < 6 := q1.isLt
  have hN : cfg1.N = 576 := N_1
  refine ⟨⟨(q0.val * 6 + q1.val) * 12 + 11, by omega⟩, by show ((q0.val * 6 + q1.val) * 12 + 11) % 12 = 11; omega, ?_⟩
  obtain ⟨c0, c1⟩ := idx_closed1 ⟨(q0.val * 6 + q1.val) * 12 + 11, by omega⟩
  funext a
  match a with
  | ⟨0, _⟩ => show win1_7.index _ (0 : Fin 2) = q0.val; rw [c0]; show ((q0.val * 6 + q1.val) * 12 + 11) / 72 = q0.val; omega
  | ⟨1, _⟩ => show win1_7.index _ (1 : Fin 2) = q1.val; rw [c1]; show ((q0.val * 6 + q1.val) * 12 + 11) / 12 % 6 = q1.val; omega

theorem xblk1_apply (c : Dev nD) (t : Fin cfg1.N) (p : Fin 1024) (κ : Fin 512) (r : Fin 8192) (k : Fin 6144)
    (hr : r.val = win1_7.index t (0 : Fin 2) * 1024 + p.val) (hk : k.val = (t.val % 12) * 512 + κ.val) :
    xblk1 V c t (ix2 p κ) = xarr1 V c (ix2 r k) := by
  obtain ⟨e0, e1, -⟩ := idx_facts1 t
  unfold xblk1 xarr1 iblk1
  rw [View.read_apply]
  show V c main_v5 _ = V c main_v5 (ix2 r k)
  refine congrArg (V c main_v5) (funext fun a => Fin.ext ?_)
  match a with
  | ⟨0, _⟩ => show win1_0.index t (0 : Fin 2) * 1024 + 1 * p.val = r.val; omega
  | ⟨1, _⟩ => show win1_0.index t (1 : Fin 2) * 512 + 1 * κ.val = k.val; omega

theorem wblk1_apply (c : Dev nD) (t : Fin cfg1.N) (q : Fin 1024) (κ : Fin 512) (s : Fin 6144) (k : Fin 6144)
    (hs : s.val = win1_7.index t (1 : Fin 2) * 1024 + q.val) (hk : k.val = (t.val % 12) * 512 + κ.val) :
    wblk1 V c t (ix2 q κ) = warr1 V c (ix2 s k) := by
  obtain ⟨-, -, e0, e1, -⟩ := idx_facts1 t
  unfold wblk1 warr1 iblk1
  rw [View.read_apply]
  show V c main_arg3 _ = V c main_arg3 (ix2 s k)
  refine congrArg (V c main_arg3) (funext fun a => Fin.ext ?_)
  match a with
  | ⟨0, _⟩ => show win1_1.index t (0 : Fin 2) * 1024 + 1 * q.val = s.val; omega
  | ⟨1, _⟩ => show win1_1.index t (1 : Fin 2) * 512 + 1 * κ.val = k.val; omega

theorem bblk1_apply (c : Dev nD) (t : Fin cfg1.N) (q : Fin 1024) (s : Fin 6144)
    (hs : s.val = win1_7.index t (1 : Fin 2) * 1024 + q.val) : bblk1 V c t (ix2 0 q) = barr1 V c (ix2 0 s) := by
  obtain ⟨-, -, -, -, b0, b1, g0, g1, e0, e1, m0, m1, v0, v1, -⟩ := idx_facts1 t
  unfold bblk1 barr1 iblk1
  rw [View.read_apply]
  show V c main_v6 _ = V c main_v6 (ix2 0 s)
  refine congrArg (V c main_v6) (funext fun a => Fin.ext ?_)
  match a with
  | ⟨0, _⟩ => show win1_2.index t (0 : Fin 2) * 1 + 1 * 0 = 0; omega
  | ⟨1, _⟩ => show win1_2.index t (1 : Fin 2) * 1024 + 1 * q.val = s.val; omega

theorem gblk1_apply (c : Dev nD) (t : Fin cfg1.N) (q : Fin 1024) (s : Fin 6144)
    (hs : s.val = win1_7.index t (1 : Fin 2) * 1024 + q.val) : gblk1 V c t (ix2 0 q) = garr1 V c (ix2 0 s) := by
  obtain ⟨-, -, -, -, b0, b1, g0, g1, e0, e1, m0, m1, v0, v1, -⟩ := idx_facts1 t
  unfold gblk1 garr1 iblk1
  rw [View.read_apply]
  show V c main_v7 _ = V c main_v7 (ix2 0 s)
  refine congrArg (V c main_v7) (funext fun a => Fin.ext ?_)
  match a with
  | ⟨0, _⟩ => show win1_3.index t (0 : Fin 2) * 1 + 1 * 0 = 0; omega
  | ⟨1, _⟩ => show win1_3.index t (1 : Fin 2) * 1024 + 1 * q.val = s.val; omega

theorem eblk1_apply (c : Dev nD) (t : Fin cfg1.N) (q : Fin 1024) (s : Fin 6144)
    (hs : s.val = win1_7.index t (1 : Fin 2) * 1024 + q.val) : eblk1 V c t (ix2 0 q) = earr1 V c (ix2 0 s) := by
  obtain ⟨-, -, -, -, b0, b1, g0, g1, e0, e1, m0, m1, v0, v1, -⟩ := idx_facts1 t
  unfold eblk1 earr1 iblk1
  rw [View.read_apply]
  show V c main_v8 _ = V c main_v8 (ix2 0 s)
  refine congrArg (V c main_v8) (funext fun a => Fin.ext ?_)
  match a with
  | ⟨0, _⟩ => show win1_4.index t (0 : Fin 2) * 1 + 1 * 0 = 0; omega
  | ⟨1, _⟩ => show win1_4.index t (1 : Fin 2) * 1024 + 1 * q.val = s.val; omega

theorem mblk1_apply (c : Dev nD) (t : Fin cfg1.N) (q : Fin 1024) (s : Fin 6144)
    (hs : s.val = win1_7.index t (1 : Fin 2) * 1024 + q.val) : mblk1 V c t (ix2 0 q) = marr1 V c (ix2 0 s) := by
  obtain ⟨-, -, -, -, b0, b1, g0, g1, e0, e1, m0, m1, v0, v1, -⟩ := idx_facts1 t
  unfold mblk1 marr1 iblk1
  rw [View.read_apply]
  show V c main_v9 _ = V c main_v9 (ix2 0 s)
  refine congrArg (V c main_v9) (funext fun a => Fin.ext ?_)
  match a with
  | ⟨0, _⟩ => show win1_5.index t (0 : Fin 2) * 1 + 1 * 0 = 0; omega
  | ⟨1, _⟩ => show win1_5.index t (1 : Fin 2) * 1024 + 1 * q.val = s.val; omega

theorem vblk1_apply (c : Dev nD) (t : Fin cfg1.N) (q : Fin 1024) (s : Fin 6144)
    (hs : s.val = win1_7.index t (1 : Fin 2) * 1024 + q.val) : vblk1 V c t (ix2 0 q) = varr1 V c (ix2 0 s) := by
  obtain ⟨-, -, -, -, b0, b1, g0, g1, e0, e1, m0, m1, v0, v1, -⟩ := idx_facts1 t
  unfold vblk1 varr1 iblk1
  rw [View.read_apply]
  show V c main_v10 _ = V c main_v10 (ix2 0 s)
  refine congrArg (V c main_v10) (funext fun a => Fin.ext ?_)
  match a with
  | ⟨0, _⟩ => show win1_6.index t (0 : Fin 2) * 1 + 1 * 0 = 0; omega
  | ⟨1, _⟩ => show win1_6.index t (1 : Fin 2) * 1024 + 1 * q.val = s.val; omega

theorem mem_blk1 (t : Fin cfg1.N) (i : S8192x6144.Idx) :
    i ∈ ((cfg1.win 7).blk t).view.set ↔ ∀ a : Fin 2, win1_7.index t a * S1024x1024.size a ≤ (i a).val ∧ (i a).val < win1_7.index t a * S1024x1024.size a + S1024x1024.size a := by
  show i ∈ ((View.whole main_v11).slice (win1_7.rect t)).set ↔ _
  rw [View.set_slice_whole, Rect.mem_set_unit]
  exact Iff.rfl

theorem cover1 (i : S8192x6144.Idx) : ∃ t : Fin cfg1.N, (cfg1.win 7).flush t = true ∧ i ∈ ((cfg1.win 7).blk t).view.set := by
  have hi0 : (i 0).val < 8192 := (i 0).isLt
  have hi1 : (i 1).val < 6144 := (i 1).isLt
  obtain ⟨t, h11, ht⟩ := idx_onto1 ⟨(i 0).val / 1024, by omega⟩ ⟨(i 1).val / 1024, by omega⟩
  have q0 : win1_7.index t (0 : Fin 2) = (i 0).val / 1024 := congrFun ht 0
  have q1 : win1_7.index t (1 : Fin 2) = (i 1).val / 1024 := congrFun ht 1
  refine ⟨t, (flush1_7 t).mpr h11, ?_⟩
  rw [mem_blk1]
  intro a
  match a with
  | ⟨0, _⟩ => show win1_7.index t (0 : Fin 2) * 1024 ≤ (i 0).val ∧ (i 0).val < win1_7.index t (0 : Fin 2) * 1024 + 1024; omega
  | ⟨1, _⟩ => show win1_7.index t (1 : Fin 2) * 1024 ≤ (i 1).val ∧ (i 1).val < win1_7.index t (1 : Fin 2) * 1024 + 1024; omega

end Value

end Cert.KernelIdeal.StageValue

end
-- ==== Proof.Value.Stage1.lean ====
import proofs.«135515_j66743791780425_1_alg».proof.Proof.FrameKI.Reg1
import proofs.«135515_j66743791780425_1_alg».proof.Proof.Value.Spec
import proofs.«135515_j66743791780425_1_alg».proof.Proof.Value.Row
import proofs.«135515_j66743791780425_1_alg».proof.Proof.Value.PayStage
import proofs.«135515_j66743791780425_1_alg».proof.Proof.Value.Blocked
import proofs.«135515_j66743791780425_1_alg».proof.Proof.Value.Stage1Blocks
import Idealize.ShloMosaic.Lib.Pipeline.Value
import Idealize.ShloMosaic.Lib.ValueIdx
import Idealize.ShloMosaic.Lib.Tactic

noncomputable section

namespace Cert.KernelIdeal.StageValue

open Idealize.ShloMosaic Idealize.ShloMosaic.TcCoe Idealize.ShloMosaic.ValueIdx Idealize.SL.Sem
open Idealize.ShloMosaic.Pipeline (Dat)
open Cert.KernelIdeal Cert.KernelIdeal.Gen

section Pieces
variable {F : FTy → Type} [FloatOps F]

theorem s1_hz : (![0, 0] : Fin 2 → Nat) = fun _ => 0 := funext fun a => by fin_cases a <;> rfl

variable (c : Dev nD) (i : grid1.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (x0 : Vec F S1024x512 .bf16) (x1 : Vec F S1024x512 .f32) (x2 x3 x4 x5 x6 : Vec F S1x1024 .f32) (xs0 : Vec F S1024x1024 .f32)

/-- A first reduction step leaves in the accumulator the zero block plus the step's product. -/
theorem s1_sout_A (hc0 : cond1_0 i) (hc1 : ¬cond1_1 i) :
    sout1_A_0 c i arg3 harg3 arg4 harg4 arg5 harg5 arg6 harg6 arg7 harg7 arg8 harg8 arg9 harg9 arg10 harg10 arg11 harg11 hc0 hc1 x0 x1 x2 x3 x4 x5 x6 = k1_pay2 x0 x1 (k1_pay1 (F := F)) := by
  unfold sout1_A_0
  rw [View.read_writes_eq_canon _ _ _ (fun y => scover1_A_0 (y := y) ..)]
  unfold kernelRun1_A
  dsimp only
  sl_unfold_words
  rw [View.canon_cons_unit_zero (S := S1024x1024) s1_hz]
  simp only [View.readAt_eq_ld, Memref.IsWhole.read_unread, View.ld_unit_zero (S := S1024x512) s1_hz, View.readCov_unit_zero (S := S1024x1024) _ s1_hz]

/-- A middle step leaves in the accumulator what it found plus the step's product. -/
theorem s1_sout_B (hc0 : ¬cond1_0 i) (hc1 : ¬cond1_1 i) :
    sout1_B_0 c i arg3 harg3 arg4 harg4 arg5 harg5 arg6 harg6 arg7 harg7 arg8 harg8 arg9 harg9 arg10 harg10 arg11 harg11 hc0 hc1 x0 x1 x2 x3 x4 x5 x6 xs0 = k1_pay2 x0 x1 xs0 := by
  unfold sout1_B_0
  rw [View.read_writes_eq_canon _ _ _ (fun y => scover1_B_0 (y := y) ..)]
  unfold kernelRun1_B
  dsimp only
  sl_unfold_words
  rw [View.canon_unit_zero s1_hz]
  simp only [View.readAt_eq_ld, Memref.IsWhole.read_unread, View.ld_unit_zero (S := S1024x512) s1_hz, View.ld_unit_zero (S := S1024x1024) s1_hz]

/-- So does the last step, -/
theorem s1_sout_C (hc0 : ¬cond1_0 i) (hc1 : cond1_1 i) :
    sout1_C_0 c i arg3 harg3 arg4 harg4 arg5 harg5 arg6 harg6 arg7 harg7 arg8 harg8 arg9 harg9 arg10 harg10 arg11 harg11 hc0 hc1 x0 x1 x2 x3 x4 x5 x6 xs0 = k1_pay2 x0 x1 xs0 := by
  unfold sout1_C_0
  rw [View.read_writes_eq_canon _ _ _ (fun y => scover1_C_0 (y := y) ..)]
  unfold kernelRun1_C
  dsimp only
  sl_unfold_words
  rw [View.canon_unit_zero s1_hz]
  simp only [View.readAt_eq_ld, Memref.IsWhole.read_unread, View.ld_unit_zero (S := S1024x512) s1_hz, View.ld_unit_zero (S := S1024x1024) s1_hz]

/-- and it leaves in the output block the normalised, clipped sign of the finished sum. -/
theorem s1_out_C (hc0 : ¬cond1_0 i) (hc1 : cond1_1 i) :
    out1_C_7 c i arg3 harg3 arg4 harg4 arg5 harg5 arg6 harg6 arg7 harg7 arg8 harg8 arg9 harg9 arg10 harg10 arg11 harg11 hc0 hc1 x0 x1 x2 x3 x4 x5 x6 xs0 = k1_pay3 (k1_pay2 x0 x1 xs0) x2 x3 x6 x5 x4 := by
  unfold out1_C_7
  rw [View.read_writes_eq_canon _ _ _ (fun y => cover1_C_7 (y := y) ..)]
  unfold kernelRun1_C
  dsimp only
  sl_unfold_words
  rw [View.canon_unit_zero s1_hz]
  simp only [View.readAt_eq_ld, Memref.IsWhole.read_unread, View.ld_unit_zero (S := S1024x512) s1_hz, View.ld_unit_zero (S := S1024x1024) s1_hz, View.ld_unit_zero (S := S1x1024) s1_hz, View.readCov_unit_zero (S := S1024x1024) _ s1_hz]

end Pieces

/-- One more block: the first m blocks' sum plus the sum over block m is the first m + 1 blocks' sum. -/
theorem s1_step (f : Fin (12 * 512) → EReal) (m : ℕ) (hm : m + 1 ≤ 12) (acc : EReal) (blk : Fin 512 → EReal)
    (hacc : acc = Cert.Blocked.partialSum 12 512 f m (Nat.le_of_succ_le hm))
    (hblk : ∀ κ : Fin 512, blk κ = f ⟨m * 512 + κ.val, Cert.Blocked.blk_lt hm (Fin.last m) κ⟩) :
    acc + ∑ κ : Fin 512, blk κ = Cert.Blocked.partialSum 12 512 f (m + 1) hm := by
  rw [Cert.Blocked.partialSum_succ 12 512 f m hm, hacc, Finset.sum_congr rfl (fun κ _ => hblk κ)]

theorem s1_ps_congr (f : Fin (12 * 512) → EReal) {a b : ℕ} (hab : a = b) (ha : a ≤ 12) (hb : b ≤ 12) :
    Cert.Blocked.partialSum 12 512 f a ha = Cert.Blocked.partialSum 12 512 f b hb := by
  subst hab; rfl

def s1_row (n : ℕ) (p : Fin 1024) : Fin 8192 := ⟨(n / 72 * 1024 + p.val) % 8192, Nat.mod_lt _ (by decide)⟩
def s1_col (n : ℕ) (q : Fin 1024) : Fin 6144 := ⟨(n / 12 % 6 * 1024 + q.val) % 6144, Nat.mod_lt _ (by decide)⟩

theorem s1_row_val (t : Fin cfg1.N) (p : Fin 1024) : (s1_row t.val p).val = win1_7.index t (0 : Fin 2) * 1024 + p.val := by
  have hN : t.val < 576 := lt_of_lt_of_eq t.isLt (show cfg1.N = 576 from N_1)
  have hp : p.val < 1024 := p.isLt
  rw [(idx_closed1 t).1]
  show (t.val / 72 * 1024 + p.val) % 8192 = _
  omega

theorem s1_col_val (t : Fin cfg1.N) (q : Fin 1024) : (s1_col t.val q).val = win1_7.index t (1 : Fin 2) * 1024 + q.val := by
  have hq : q.val < 1024 := q.isLt
  rw [(idx_closed1 t).2]
  show (t.val / 12 % 6 * 1024 + q.val) % 6144 = _
  omega

section Value
variable (V : (c : Dev nD) → (b : Ref sig .tc) → Buf (Elt Ideal) ((c : Thread nD τ).loc b))

def s1_term (c : Dev nD) (r : Fin 8192) (s : Fin 6144) : Fin (12 * 512) → EReal :=
  fun k => xarr1 V c (ix2 r k) * Cert.Spec.sgn (warr1 V c (ix2 s k))

abbrev s1_prev (c : Dev nD) (t : Fin cfg1.N) : Vec Ideal S1024x1024 .f32 :=
  (outsAt1 V c (t.val - 1) (Nat.lt_of_le_of_lt (Nat.sub_le _ _) t.isLt)).2

theorem s1_accAt_first (c : Dev nD) (t : Fin cfg1.N) (h0 : t.val % 12 = 0) :
    (outsAt1 V c t.val t.isLt).2 = k1_pay2 (xblk1 V c t) (wblk1 V c t) (k1_pay1 (F := Ideal)) := by
  have h1 : ¬t.val % 12 = 11 := by omega
  rw [outsAt1_A V c t h0 h1]
  dsimp only
  exact s1_sout_A (F := Ideal) ..

theorem s1_accAt_next (c : Dev nD) (t : Fin cfg1.N) (h0 : ¬t.val % 12 = 0) :
    (outsAt1 V c t.val t.isLt).2 = k1_pay2 (xblk1 V c t) (wblk1 V c t) (s1_prev V c t) := by
  by_cases h1 : t.val % 12 = 11
  · rw [outsAt1_C V c t h0 h1]
    dsimp only
    exact s1_sout_C (F := Ideal) ..
  · rw [outsAt1_B V c t h0 h1]
    dsimp only
    exact s1_sout_B (F := Ideal) ..

theorem s1_outAt_last (c : Dev nD) (t : Fin cfg1.N) (h1 : t.val % 12 = 11) :
    (outsAt1 V c t.val t.isLt).1
      = k1_pay3 (k1_pay2 (xblk1 V c t) (wblk1 V c t) (s1_prev V c t)) (bblk1 V c t) (gblk1 V c t) (vblk1 V c t) (mblk1 V c t) (eblk1 V c t) := by
  have h0 : ¬t.val % 12 = 0 := by omega
  rw [outsAt1_C V c t h0 h1]
  dsimp only
  exact s1_out_C (F := Ideal) ..

theorem s1_block (c : Dev nD) (t : Fin cfg1.N) (p q : Fin 1024) (m : ℕ) (hm : m + 1 ≤ 12) (hmt : t.val % 12 = m) (κ : Fin 512) :
    xblk1 V c t (ix2 p κ) * Cert.Spec.sgn (wblk1 V c t (ix2 q κ))
      = s1_term V c (s1_row t.val p) (s1_col t.val q) ⟨m * 512 + κ.val, Cert.Blocked.blk_lt hm (Fin.last m) κ⟩ := by
  subst hmt
  rw [xblk1_apply V c t p κ (s1_row t.val p) ⟨t.val % 12 * 512 + κ.val, Cert.Blocked.blk_lt hm (Fin.last _) κ⟩ (s1_row_val t p) rfl,
    wblk1_apply V c t q κ (s1_col t.val q) ⟨t.val % 12 * 512 + κ.val, Cert.Blocked.blk_lt hm (Fin.last _) κ⟩ (s1_col_val t q) rfl]
  rfl

theorem s1_kle (n : ℕ) : n % 12 + 1 ≤ 12 := by omega

theorem s1_acc_first (c : Dev nD) (t : Fin cfg1.N) (h0 : t.val % 12 = 0) (p q : Fin 1024) :
    (outsAt1 V c t.val t.isLt).2 (ix2 p q)
      = Cert.Blocked.partialSum 12 512 (s1_term V c (s1_row t.val p) (s1_col t.val q)) (t.val % 12 + 1) (s1_kle t.val) := by
  refine (congrFun (s1_accAt_first V c t h0) (ix2 p q)).trans ?_
  refine (k1_pay2_apply ..).trans ?_
  refine (s1_step _ 0 (by omega) _ _ ((k1_pay1_apply (ix2 p q)).trans (Cert.Blocked.partialSum_zero 12 512 _).symm)
    (fun κ => s1_block V c t p q 0 (by omega) h0 κ)).trans ?_
  exact s1_ps_congr _ (by omega) _ _

/-- By induction over the positions: after position n the accumulator holds, at (p, q), the sum over the first
    n mod 12 + 1 blocks of the contraction axis. -/
theorem s1_acc (c : Dev nD) : ∀ (n : ℕ) (hn : n < cfg1.N) (p q : Fin 1024),
    (outsAt1 V c n hn).2 (ix2 p q)
      = Cert.Blocked.partialSum 12 512 (s1_term V c (s1_row n p) (s1_col n q)) (n % 12 + 1) (s1_kle n)
  | 0, hn, p, q => s1_acc_first V c ⟨0, hn⟩ (Nat.zero_mod _) p q
  | n + 1, hn, p, q => by
    by_cases h0 : (n + 1) % 12 = 0
    · exact s1_acc_first V c ⟨n + 1, hn⟩ h0 p q
    · have ih := s1_acc c n (Nat.lt_of_succ_lt hn) p q
      have hp : p.val < 1024 := p.isLt
      have hq : q.val < 1024 := q.isLt
      have hrow : s1_row n p = s1_row (n + 1) p := Fin.ext (by
        show (n / 72 * 1024 + p.val) % 8192 = ((n + 1) / 72 * 1024 + p.val) % 8192
        omega)
      have hcol : s1_col n q = s1_col (n + 1) q := Fin.ext (by
        show (n / 12 % 6 * 1024 + q.val) % 6144 = ((n + 1) / 12 % 6 * 1024 + q.val) % 6144
        omega)
      have hacc : s1_prev V c ⟨n + 1, hn⟩ (ix2 p q)
          = Cert.Blocked.partialSum 12 512 (s1_term V c (s1_row (n + 1) p) (s1_col (n + 1) q)) ((n + 1) % 12) (Nat.le_of_succ_le (s1_kle (n + 1))) := by
        rw [← hrow, ← hcol]
        exact ih.trans (s1_ps_congr _ (by omega) _ _)
      refine (congrFun (s1_accAt_next V c ⟨n + 1, hn⟩ h0) (ix2 p q)).trans ?_
      refine (k1_pay2_apply ..).trans ?_
      exact s1_step _ _ (s1_kle (n + 1)) _ _ hacc fun κ => s1_block V c ⟨n + 1, hn⟩ p q _ (s1_kle (n + 1)) rfl κ

/-- At a last step all twelve blocks are in: entry (p, q) of the output block is the stage's entry at the block's
    offsets plus (p, q). -/
theorem s1_outAt_eq_stage (c : Dev nD) (t : Fin cfg1.N) (h1 : t.val % 12 = 11) (p q : Fin 1024) (r : Fin 8192) (s : Fin 6144)
    (hr : r.val = win1_7.index t (0 : Fin 2) * 1024 + p.val) (hs : s.val = win1_7.index t (1 : Fin 2) * 1024 + q.val) :
    (outsAt1 V c t.val t.isLt).1 (ix2 p q) = G1 V c (ix2 r s) := by
  have h0 : ¬t.val % 12 = 0 := by omega
  refine (congrFun (s1_outAt_last V c t h1) (ix2 p q)).trans ?_
  refine (k1_pay3_apply ..).trans ?_
  rw [G1_apply, bblk1_apply V c t q s hs, gblk1_apply V c t q s hs, eblk1_apply V c t q s hs, mblk1_apply V c t q s hs,
    vblk1_apply V c t q s hs]
  refine congrArg (fun z => Cert.Spec.act (Cert.Spec.bn z (barr1 V c (ix2 0 s)) (garr1 V c (ix2 0 s)) (varr1 V c (ix2 0 s)) (marr1 V c (ix2 0 s)) (earr1 V c (ix2 0 s)))) ?_
  refine (congrFun (s1_accAt_next V c t h0) (ix2 p q)).symm.trans ?_
  refine (s1_acc V c t.val t.isLt p q).trans ?_
  refine (s1_ps_congr _ (by omega) _ (Nat.le_refl 12)).trans ?_
  refine (Cert.Blocked.partialSum_full 12 512 _).trans ?_
  have hr' : s1_row t.val p = r := Fin.ext ((s1_row_val t p).trans hr.symm)
  have hs' : s1_col t.val q = s := Fin.ext ((s1_col_val t q).trans hs.symm)
  rw [hr', hs']
  rfl

theorem s1_flushed_eq (c : Dev nD) (t : Fin cfg1.N) (hf : (cfg1.win 7).flush t = true) :
    (dat1 V c).flushed 7 t = ((cfg1.win 7).blk t).view.read (Elt Ideal) (G1 V c) := by
  have h1 : t.val % 12 = 11 := (flush1_7 t).mp hf
  show (cfg1.win 7).cut (grid1.coords t) ((dat1 V c).after 7 t) = _
  rw [after1_7]
  have key : ∀ j : S1024x1024.Idx, ((outsAt1 V c t.val t.isLt).1 : Vec Ideal S1024x1024 .bf16) j = ((cfg1.win 7).blk t).view.read (Elt Ideal) (G1 V c) j := by
    intro j
    obtain ⟨p, q, rfl⟩ : ∃ (p q : Fin 1024), j = ix2 p q := ⟨j 0, j 1, eq_ix2 j⟩
    refine (s1_outAt_eq_stage V c t h1 p q (s1_row t.val p) (s1_col t.val q) (s1_row_val t p) (s1_col_val t q)).trans ?_
    rw [View.read_apply]
    show G1 V c _ = G1 V c _
    refine congrArg (G1 V c) (funext fun a => Fin.ext ?_)
    match a with
    | ⟨0, _⟩ => show (s1_row t.val p).val = win1_7.index t (0 : Fin 2) * 1024 + 1 * p.val; rw [s1_row_val]; omega
    | ⟨1, _⟩ => show (s1_col t.val q).val = win1_7.index t (1 : Fin 2) * 1024 + 1 * q.val; rw [s1_col_val]; omega
  exact funext fun j => key j

/-- The written-back blocks tile the output array, so it holds the stage of the arrays the region finds. -/
theorem stage1_val (c : Dev nD) :
    (dat1 (F := Ideal) V c).arrAt 7 cfg1.N
      = Cert.Spec.stage (M := 8192) (N := 6144) (K := 6144) (V c main_v5) (V c main_arg3) (Cert.Spec.row (V c main_v6))
          (Cert.Spec.row (V c main_v7)) (Cert.Spec.row (V c main_v8)) (Cert.Spec.row (V c main_v9)) (Cert.Spec.row (V c main_v10)) :=
  (dat1 V c).arrAt_eq_of_cover 7 (G1 V c) (s1_flushed_eq V c) cover1

end Value

end Cert.KernelIdeal.StageValue

end
-- ==== Proof.Value.Stage2Blocks.lean ====
import proofs.«135515_j66743791780425_1_alg».proof.Proof.FrameKI.Reg2
import proofs.«135515_j66743791780425_1_alg».proof.Proof.Value.Spec
import proofs.«135515_j66743791780425_1_alg».proof.Proof.Value.Row
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.StageValue

open Idealize.ShloMosaic Idealize.ShloMosaic.ValueIdx Idealize.ShloMosaic.TcCoe Idealize.ShloMosaic.Tactic Idealize.SL.Sem Cert.KernelIdeal Cert.KernelIdeal.Gen
open Idealize.ShloMosaic.Pipeline (Dat)

section Value
variable (V : (c : Dev nD) → (b : Ref sig .tc) → Buf (Elt Ideal) ((c : Thread nD τ).loc b))

abbrev xblk2 (c : Dev nD) (t : Fin cfg2.N) : Vec Ideal S1024x512 .bf16 := iblk2 V c 0 t
abbrev wblk2 (c : Dev nD) (t : Fin cfg2.N) : Vec Ideal S1024x512 .f32 := iblk2 V c 1 t
abbrev bblk2 (c : Dev nD) (t : Fin cfg2.N) : Vec Ideal S1x1024 .f32 := iblk2 V c 2 t
abbrev gblk2 (c : Dev nD) (t : Fin cfg2.N) : Vec Ideal S1x1024 .f32 := iblk2 V c 3 t
abbrev eblk2 (c : Dev nD) (t : Fin cfg2.N) : Vec Ideal S1x1024 .f32 := iblk2 V c 4 t
abbrev mblk2 (c : Dev nD) (t : Fin cfg2.N) : Vec Ideal S1x1024 .f32 := iblk2 V c 5 t
abbrev vblk2 (c : Dev nD) (t : Fin cfg2.N) : Vec Ideal S1x1024 .f32 := iblk2 V c 6 t

abbrev xarr2 (c : Dev nD) : Vec Ideal S8192x6144 .bf16 := V c main_v11
abbrev warr2 (c : Dev nD) : Vec Ideal S6144x6144 .f32 := V c main_arg5
abbrev barr2 (c : Dev nD) : Vec Ideal S1x6144 .f32 := V c main_v12
abbrev garr2 (c : Dev nD) : Vec Ideal S1x6144 .f32 := V c main_v13
abbrev earr2 (c : Dev nD) : Vec Ideal S1x6144 .f32 := V c main_v14
abbrev marr2 (c : Dev nD) : Vec Ideal S1x6144 .f32 := V c main_v15
abbrev varr2 (c : Dev nD) : Vec Ideal S1x6144 .f32 := V c main_v16

abbrev G2 (c : Dev nD) : Vec Ideal S8192x6144 .bf16 :=
  Cert.Spec.stage (M := 8192) (N := 6144) (K := 6144) (xarr2 V c) (warr2 V c) (Cert.Spec.row (barr2 V c)) (Cert.Spec.row (garr2 V c))
    (Cert.Spec.row (earr2 V c)) (Cert.Spec.row (marr2 V c)) (Cert.Spec.row (varr2 V c))

theorem G2_apply (c : Dev nD) (r : Fin 8192) (s : Fin 6144) :
    G2 V c (ix2 r s) = Cert.Spec.act (Cert.Spec.bn (∑ k : Fin 6144, xarr2 V c (ix2 r k) * Cert.Spec.sgn (warr2 V c (ix2 s k)))
      (barr2 V c (ix2 0 s)) (garr2 V c (ix2 0 s)) (varr2 V c (ix2 0 s)) (marr2 V c (ix2 0 s)) (earr2 V c (ix2 0 s))) := rfl

theorem idx_facts2 : ∀ t : Fin cfg2.N,
    win2_0.index t (0 : Fin 2) = win2_7.index t (0 : Fin 2) ∧ win2_0.index t (1 : Fin 2) = t.val % 12
    ∧ win2_1.index t (0 : Fin 2) = win2_7.index t (1 : Fin 2) ∧ win2_1.index t (1 : Fin 2) = t.val % 12
    ∧ win2_2.index t (0 : Fin 2) = 0 ∧ win2_2.index t (1 : Fin 2) = win2_7.index t (1 : Fin 2)
    ∧ win2_3.index t (0 : Fin 2) = 0 ∧ win2_3.index t (1 : Fin 2) = win2_7.index t (1 : Fin 2)
    ∧ win2_4.index t (0 : Fin 2) = 0 ∧ win2_4.index t (1 : Fin 2) = win2_7.index t (1 : Fin 2)
    ∧ win2_5.index t (0 : Fin 2) = 0 ∧ win2_5.index t (1 : Fin 2) = win2_7.index t (1 : Fin 2)
    ∧ win2_6.index t (0 : Fin 2) = 0 ∧ win2_6.index t (1 : Fin 2) = win2_7.index t (1 : Fin 2)
    ∧ win2_7.index t (0 : Fin 2) ≤ 7 ∧ win2_7.index t (1 : Fin 2) ≤ 5 :=
  (by decide +kernel : ∀ t : Fin grid2.N, _)

theorem idx_closed2 : ∀ t : Fin cfg2.N,
    win2_7.index t (0 : Fin 2) = t.val / 72 ∧ win2_7.index t (1 : Fin 2) = t.val / 12 % 6 :=
  (by decide +kernel : ∀ t : Fin grid2.N, _)

theorem idx_onto2 (q0 : Fin 8) (q1 : Fin 6) : ∃ t : Fin cfg2.N, t.val % 12 = 11 ∧ win2_7.index t = ![q0.val, q1.val] := by
  have h0 : q0.val < 8 := q0.isLt
  have h1 : q1.val < 6 := q1.isLt
  have hN : cfg2.N = 576 := N_2
  refine ⟨⟨(q0.val * 6 + q1.val) * 12 + 11, by omega⟩, by show ((q0.val * 6 + q1.val) * 12 + 11) % 12 = 11; omega, ?_⟩
  obtain ⟨c0, c1⟩ := idx_closed2 ⟨(q0.val * 6 + q1.val) * 12 + 11, by omega⟩
  funext a
  match a with
  | ⟨0, _⟩ => show win2_7.index _ (0 : Fin 2) = q0.val; rw [c0]; show ((q0.val * 6 + q1.val) * 12 + 11) / 72 = q0.val; omega
  | ⟨1, _⟩ => show win2_7.index _ (1 : Fin 2) = q1.val; rw [c1]; show ((q0.val * 6 + q1.val) * 12 + 11) / 12 % 6 = q1.val; omega

theorem xblk2_apply (c : Dev nD) (t : Fin cfg2.N) (p : Fin 1024) (κ : Fin 512) (r : Fin 8192) (k : Fin 6144)
    (hr : r.val = win2_7.index t (0 : Fin 2) * 1024 + p.val) (hk : k.val = (t.val % 12) * 512 + κ.val) :
    xblk2 V c t (ix2 p κ) = xarr2 V c (ix2 r k) := by
  obtain ⟨e0, e1, -⟩ := idx_facts2 t
  unfold xblk2 xarr2 iblk2
  rw [View.read_apply]
  show V c main_v11 _ = V c main_v11 (ix2 r k)
  refine congrArg (V c main_v11) (funext fun a => Fin.ext ?_)
  match a with
  | ⟨0, _⟩ => show win2_0.index t (0 : Fin 2) * 1024 + 1 * p.val = r.val; omega
  | ⟨1, _⟩ => show win2_0.index t (1 : Fin 2) * 512 + 1 * κ.val = k.val; omega

theorem wblk2_apply (c : Dev nD) (t : Fin cfg2.N) (q : Fin 1024) (κ : Fin 512) (s : Fin 6144) (k : Fin 6144)
    (hs : s.val = win2_7.index t (1 : Fin 2) * 1024 + q.val) (hk : k.val = (t.val % 12) * 512 + κ.val) :
    wblk2 V c t (ix2 q κ) = warr2 V c (ix2 s k) := by
  obtain ⟨-, -, e0, e1, -⟩ := idx_facts2 t
  unfold wblk2 warr2 iblk2
  rw [View.read_apply]
  show V c main_arg5 _ = V c main_arg5 (ix2 s k)
  refine congrArg (V c main_arg5) (funext fun a => Fin.ext ?_)
  match a with
  | ⟨0, _⟩ => show win2_1.index t (0 : Fin 2) * 1024 + 1 * q.val = s.val; omega
  | ⟨1, _⟩ => show win2_1.index t (1 : Fin 2) * 512 + 1 * κ.val = k.val; omega

theorem bblk2_apply (c : Dev nD) (t : Fin cfg2.N) (q : Fin 1024) (s : Fin 6144)
    (hs : s.val = win2_7.index t (1 : Fin 2) * 1024 + q.val) : bblk2 V c t (ix2 0 q) = barr2 V c (ix2 0 s) := by
  obtain ⟨-, -, -, -, b0, b1, g0, g1, e0, e1, m0, m1, v0, v1, -⟩ := idx_facts2 t
  unfold bblk2 barr2 iblk2
  rw [View.read_apply]
  show V c main_v12 _ = V c main_v12 (ix2 0 s)
  refine congrArg (V c main_v12) (funext fun a => Fin.ext ?_)
  match a with
  | ⟨0, _⟩ => show win2_2.index t (0 : Fin 2) * 1 + 1 * 0 = 0; omega
  | ⟨1, _⟩ => show win2_2.index t (1 : Fin 2) * 1024 + 1 * q.val = s.val; omega

theorem gblk2_apply (c : Dev nD) (t : Fin cfg2.N) (q : Fin 1024) (s : Fin 6144)
    (hs : s.val = win2_7.index t (1 : Fin 2) * 1024 + q.val) : gblk2 V c t (ix2 0 q) = garr2 V c (ix2 0 s) := by
  obtain ⟨-, -, -, -, b0, b1, g0, g1, e0, e1, m0, m1, v0, v1, -⟩ := idx_facts2 t
  unfold gblk2 garr2 iblk2
  rw [View.read_apply]
  show V c main_v13 _ = V c main_v13 (ix2 0 s)
  refine congrArg (V c main_v13) (funext fun a => Fin.ext ?_)
  match a with
  | ⟨0, _⟩ => show win2_3.index t (0 : Fin 2) * 1 + 1 * 0 = 0; omega
  | ⟨1, _⟩ => show win2_3.index t (1 : Fin 2) * 1024 + 1 * q.val = s.val; omega

theorem eblk2_apply (c : Dev nD) (t : Fin cfg2.N) (q : Fin 1024) (s : Fin 6144)
    (hs : s.val = win2_7.index t (1 : Fin 2) * 1024 + q.val) : eblk2 V c t (ix2 0 q) = earr2 V c (ix2 0 s) := by
  obtain ⟨-, -, -, -, b0, b1, g0, g1, e0, e1, m0, m1, v0, v1, -⟩ := idx_facts2 t
  unfold eblk2 earr2 iblk2
  rw [View.read_apply]
  show V c main_v14 _ = V c main_v14 (ix2 0 s)
  refine congrArg (V c main_v14) (funext fun a => Fin.ext ?_)
  match a with
  | ⟨0, _⟩ => show win2_4.index t (0 : Fin 2) * 1 + 1 * 0 = 0; omega
  | ⟨1, _⟩ => show win2_4.index t (1 : Fin 2) * 1024 + 1 * q.val = s.val; omega

theorem mblk2_apply (c : Dev nD) (t : Fin cfg2.N) (q : Fin 1024) (s : Fin 6144)
    (hs : s.val = win2_7.index t (1 : Fin 2) * 1024 + q.val) : mblk2 V c t (ix2 0 q) = marr2 V c (ix2 0 s) := by
  obtain ⟨-, -, -, -, b0, b1, g0, g1, e0, e1, m0, m1, v0, v1, -⟩ := idx_facts2 t
  unfold mblk2 marr2 iblk2
  rw [View.read_apply]
  show V c main_v15 _ = V c main_v15 (ix2 0 s)
  refine congrArg (V c main_v15) (funext fun a => Fin.ext ?_)
  match a with
  | ⟨0, _⟩ => show win2_5.index t (0 : Fin 2) * 1 + 1 * 0 = 0; omega
  | ⟨1, _⟩ => show win2_5.index t (1 : Fin 2) * 1024 + 1 * q.val = s.val; omega

theorem vblk2_apply (c : Dev nD) (t : Fin cfg2.N) (q : Fin 1024) (s : Fin 6144)
    (hs : s.val = win2_7.index t (1 : Fin 2) * 1024 + q.val) : vblk2 V c t (ix2 0 q) = varr2 V c (ix2 0 s) := by
  obtain ⟨-, -, -, -, b0, b1, g0, g1, e0, e1, m0, m1, v0, v1, -⟩ := idx_facts2 t
  unfold vblk2 varr2 iblk2
  rw [View.read_apply]
  show V c main_v16 _ = V c main_v16 (ix2 0 s)
  refine congrArg (V c main_v16) (funext fun a => Fin.ext ?_)
  match a with
  | ⟨0, _⟩ => show win2_6.index t (0 : Fin 2) * 1 + 1 * 0 = 0; omega
  | ⟨1, _⟩ => show win2_6.index t (1 : Fin 2) * 1024 + 1 * q.val = s.val; omega

theorem mem_blk2 (t : Fin cfg2.N) (i : S8192x6144.Idx) :
    i ∈ ((cfg2.win 7).blk t).view.set ↔ ∀ a : Fin 2, win2_7.index t a * S1024x1024.size a ≤ (i a).val ∧ (i a).val < win2_7.index t a * S1024x1024.size a + S1024x1024.size a := by
  show i ∈ ((View.whole main_v17).slice (win2_7.rect t)).set ↔ _
  rw [View.set_slice_whole, Rect.mem_set_unit]
  exact Iff.rfl

theorem cover2 (i : S8192x6144.Idx) : ∃ t : Fin cfg2.N, (cfg2.win 7).flush t = true ∧ i ∈ ((cfg2.win 7).blk t).view.set := by
  have hi0 : (i 0).val < 8192 := (i 0).isLt
  have hi1 : (i 1).val < 6144 := (i 1).isLt
  obtain ⟨t, h11, ht⟩ := idx_onto2 ⟨(i 0).val / 1024, by omega⟩ ⟨(i 1).val / 1024, by omega⟩
  have q0 : win2_7.index t (0 : Fin 2) = (i 0).val / 1024 := congrFun ht 0
  have q1 : win2_7.index t (1 : Fin 2) = (i 1).val / 1024 := congrFun ht 1
  refine ⟨t, (flush2_7 t).mpr h11, ?_⟩
  rw [mem_blk2]
  intro a
  match a with
  | ⟨0, _⟩ => show win2_7.index t (0 : Fin 2) * 1024 ≤ (i 0).val ∧ (i 0).val < win2_7.index t (0 : Fin 2) * 1024 + 1024; omega
  | ⟨1, _⟩ => show win2_7.index t (1 : Fin 2) * 1024 ≤ (i 1).val ∧ (i 1).val < win2_7.index t (1 : Fin 2) * 1024 + 1024; omega

end Value

end Cert.KernelIdeal.StageValue

end
-- ==== Proof.Value.Stage2.lean ====
import proofs.«135515_j66743791780425_1_alg».proof.Proof.FrameKI.Reg2
import proofs.«135515_j66743791780425_1_alg».proof.Proof.Value.Spec
import proofs.«135515_j66743791780425_1_alg».proof.Proof.Value.Row
import proofs.«135515_j66743791780425_1_alg».proof.Proof.Value.PayStage
import proofs.«135515_j66743791780425_1_alg».proof.Proof.Value.Blocked
import proofs.«135515_j66743791780425_1_alg».proof.Proof.Value.Stage2Blocks
import Idealize.ShloMosaic.Lib.Pipeline.Value
import Idealize.ShloMosaic.Lib.ValueIdx
import Idealize.ShloMosaic.Lib.Tactic

noncomputable section

namespace Cert.KernelIdeal.StageValue

open Idealize.ShloMosaic Idealize.ShloMosaic.TcCoe Idealize.ShloMosaic.ValueIdx Idealize.SL.Sem
open Idealize.ShloMosaic.Pipeline (Dat)
open Cert.KernelIdeal Cert.KernelIdeal.Gen

section Pieces
variable {F : FTy → Type} [FloatOps F]

theorem s2_hz : (![0, 0] : Fin 2 → Nat) = fun _ => 0 := funext fun a => by fin_cases a <;> rfl

variable (c : Dev nD) (i : grid2.Coords) (arg3 : Memref sig .tc .vmem S1024x512 .bf16) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1024x1024 .f32) (harg11 : arg11.IsWhole) (x0 : Vec F S1024x512 .bf16) (x1 : Vec F S1024x512 .f32) (x2 x3 x4 x5 x6 : Vec F S1x1024 .f32) (xs0 : Vec F S1024x1024 .f32)

/-- A first reduction step leaves in the accumulator the zero block plus the step's product. -/
theorem s2_sout_A (hc0 : cond2_0 i) (hc1 : ¬cond2_1 i) :
    sout2_A_0 c i arg3 harg3 arg4 harg4 arg5 harg5 arg6 harg6 arg7 harg7 arg8 harg8 arg9 harg9 arg10 harg10 arg11 harg11 hc0 hc1 x0 x1 x2 x3 x4 x5 x6 = k2_pay2 x0 x1 (k2_pay1 (F := F)) := by
  unfold sout2_A_0
  rw [View.read_writes_eq_canon _ _ _ (fun y => scover2_A_0 (y := y) ..)]
  unfold kernelRun2_A
  dsimp only
  sl_unfold_words
  rw [View.canon_cons_unit_zero (S := S1024x1024) s2_hz]
  simp only [View.readAt_eq_ld, Memref.IsWhole.read_unread, View.ld_unit_zero (S := S1024x512) s2_hz, View.readCov_unit_zero (S := S1024x1024) _ s2_hz]

/-- A middle step leaves in the accumulator what it found plus the step's product. -/
theorem s2_sout_B (hc0 : ¬cond2_0 i) (hc1 : ¬cond2_1 i) :
    sout2_B_0 c i arg3 harg3 arg4 harg4 arg5 harg5 arg6 harg6 arg7 harg7 arg8 harg8 arg9 harg9 arg10 harg10 arg11 harg11 hc0 hc1 x0 x1 x2 x3 x4 x5 x6 xs0 = k2_pay2 x0 x1 xs0 := by
  unfold sout2_B_0
  rw [View.read_writes_eq_canon _ _ _ (fun y => scover2_B_0 (y := y) ..)]
  unfold kernelRun2_B
  dsimp only
  sl_unfold_words
  rw [View.canon_unit_zero s2_hz]
  simp only [View.readAt_eq_ld, Memref.IsWhole.read_unread, View.ld_unit_zero (S := S1024x512) s2_hz, View.ld_unit_zero (S := S1024x1024) s2_hz]

/-- So does the last step, -/
theorem s2_sout_C (hc0 : ¬cond2_0 i) (hc1 : cond2_1 i) :
    sout2_C_0 c i arg3 harg3 arg4 harg4 arg5 harg5 arg6 harg6 arg7 harg7 arg8 harg8 arg9 harg9 arg10 harg10 arg11 harg11 hc0 hc1 x0 x1 x2 x3 x4 x5 x6 xs0 = k2_pay2 x0 x1 xs0 := by
  unfold sout2_C_0
  rw [View.read_writes_eq_canon _ _ _ (fun y => scover2_C_0 (y := y) ..)]
  unfold kernelRun2_C
  dsimp only
  sl_unfold_words
  rw [View.canon_unit_zero s2_hz]
  simp only [View.readAt_eq_ld, Memref.IsWhole.read_unread, View.ld_unit_zero (S := S1024x512) s2_hz, View.ld_unit_zero (S := S1024x1024) s2_hz]

/-- and it leaves in the output block the normalised, clipped sign of the finished sum. -/
theorem s2_out_C (hc0 : ¬cond2_0 i) (hc1 : cond2_1 i) :
    out2_C_7 c i arg3 harg3 arg4 harg4 arg5 harg5 arg6 harg6 arg7 harg7 arg8 harg8 arg9 harg9 arg10 harg10 arg11 harg11 hc0 hc1 x0 x1 x2 x3 x4 x5 x6 xs0 = k2_pay3 (k2_pay2 x0 x1 xs0) x2 x3 x6 x5 x4 := by
  unfold out2_C_7
  rw [View.read_writes_eq_canon _ _ _ (fun y => cover2_C_7 (y := y) ..)]
  unfold kernelRun2_C
  dsimp only
  sl_unfold_words
  rw [View.canon_unit_zero s2_hz]
  simp only [View.readAt_eq_ld, Memref.IsWhole.read_unread, View.ld_unit_zero (S := S1024x512) s2_hz, View.ld_unit_zero (S := S1024x1024) s2_hz, View.ld_unit_zero (S := S1x1024) s2_hz, View.readCov_unit_zero (S := S1024x1024) _ s2_hz]

end Pieces

/-- One more block: the first m blocks' sum plus the sum over block m is the first m + 1 blocks' sum. -/
theorem s2_step (f : Fin (12 * 512) → EReal) (m : ℕ) (hm : m + 1 ≤ 12) (acc : EReal) (blk : Fin 512 → EReal)
    (hacc : acc = Cert.Blocked.partialSum 12 512 f m (Nat.le_of_succ_le hm))
    (hblk : ∀ κ : Fin 512, blk κ = f ⟨m * 512 + κ.val, Cert.Blocked.blk_lt hm (Fin.last m) κ⟩) :
    acc + ∑ κ : Fin 512, blk κ = Cert.Blocked.partialSum 12 512 f (m + 1) hm := by
  rw [Cert.Blocked.partialSum_succ 12 512 f m hm, hacc, Finset.sum_congr rfl (fun κ _ => hblk κ)]

theorem s2_ps_congr (f : Fin (12 * 512) → EReal) {a b : ℕ} (hab : a = b) (ha : a ≤ 12) (hb : b ≤ 12) :
    Cert.Blocked.partialSum 12 512 f a ha = Cert.Blocked.partialSum 12 512 f b hb := by
  subst hab; rfl

def s2_row (n : ℕ) (p : Fin 1024) : Fin 8192 := ⟨(n / 72 * 1024 + p.val) % 8192, Nat.mod_lt _ (by decide)⟩
def s2_col (n : ℕ) (q : Fin 1024) : Fin 6144 := ⟨(n / 12 % 6 * 1024 + q.val) % 6144, Nat.mod_lt _ (by decide)⟩

theorem s2_row_val (t : Fin cfg2.N) (p : Fin 1024) : (s2_row t.val p).val = win2_7.index t (0 : Fin 2) * 1024 + p.val := by
  have hN : t.val < 576 := lt_of_lt_of_eq t.isLt (show cfg2.N = 576 from N_2)
  have hp : p.val < 1024 := p.isLt
  rw [(idx_closed2 t).1]
  show (t.val / 72 * 1024 + p.val) % 8192 = _
  omega

theorem s2_col_val (t : Fin cfg2.N) (q : Fin 1024) : (s2_col t.val q).val = win2_7.index t (1 : Fin 2) * 1024 + q.val := by
  have hq : q.val < 1024 := q.isLt
  rw [(idx_closed2 t).2]
  show (t.val / 12 % 6 * 1024 + q.val) % 6144 = _
  omega

section Value
variable (V : (c : Dev nD) → (b : Ref sig .tc) → Buf (Elt Ideal) ((c : Thread nD τ).loc b))

def s2_term (c : Dev nD) (r : Fin 8192) (s : Fin 6144) : Fin (12 * 512) → EReal :=
  fun k => xarr2 V c (ix2 r k) * Cert.Spec.sgn (warr2 V c (ix2 s k))

abbrev s2_prev (c : Dev nD) (t : Fin cfg2.N) : Vec Ideal S1024x1024 .f32 :=
  (outsAt2 V c (t.val - 1) (Nat.lt_of_le_of_lt (Nat.sub_le _ _) t.isLt)).2

theorem s2_accAt_first (c : Dev nD) (t : Fin cfg2.N) (h0 : t.val % 12 = 0) :
    (outsAt2 V c t.val t.isLt).2 = k2_pay2 (xblk2 V c t) (wblk2 V c t) (k2_pay1 (F := Ideal)) := by
  have h1 : ¬t.val % 12 = 11 := by omega
  rw [outsAt2_A V c t h0 h1]
  dsimp only
  exact s2_sout_A (F := Ideal) ..

theorem s2_accAt_next (c : Dev nD) (t : Fin cfg2.N) (h0 : ¬t.val % 12 = 0) :
    (outsAt2 V c t.val t.isLt).2 = k2_pay2 (xblk2 V c t) (wblk2 V c t) (s2_prev V c t) := by
  by_cases h1 : t.val % 12 = 11
  · rw [outsAt2_C V c t h0 h1]
    dsimp only
    exact s2_sout_C (F := Ideal) ..
  · rw [outsAt2_B V c t h0 h1]
    dsimp only
    exact s2_sout_B (F := Ideal) ..

theorem s2_outAt_last (c : Dev nD) (t : Fin cfg2.N) (h1 : t.val % 12 = 11) :
    (outsAt2 V c t.val t.isLt).1
      = k2_pay3 (k2_pay2 (xblk2 V c t) (wblk2 V c t) (s2_prev V c t)) (bblk2 V c t) (gblk2 V c t) (vblk2 V c t) (mblk2 V c t) (eblk2 V c t) := by
  have h0 : ¬t.val % 12 = 0 := by omega
  rw [outsAt2_C V c t h0 h1]
  dsimp only
  exact s2_out_C (F := Ideal) ..

theorem s2_block (c : Dev nD) (t : Fin cfg2.N) (p q : Fin 1024) (m : ℕ) (hm : m + 1 ≤ 12) (hmt : t.val % 12 = m) (κ : Fin 512) :
    xblk2 V c t (ix2 p κ) * Cert.Spec.sgn (wblk2 V c t (ix2 q κ))
      = s2_term V c (s2_row t.val p) (s2_col t.val q) ⟨m * 512 + κ.val, Cert.Blocked.blk_lt hm (Fin.last m) κ⟩ := by
  subst hmt
  rw [xblk2_apply V c t p κ (s2_row t.val p) ⟨t.val % 12 * 512 + κ.val, Cert.Blocked.blk_lt hm (Fin.last _) κ⟩ (s2_row_val t p) rfl,
    wblk2_apply V c t q κ (s2_col t.val q) ⟨t.val % 12 * 512 + κ.val, Cert.Blocked.blk_lt hm (Fin.last _) κ⟩ (s2_col_val t q) rfl]
  rfl

theorem s2_kle (n : ℕ) : n % 12 + 1 ≤ 12 := by omega

theorem s2_acc_first (c : Dev nD) (t : Fin cfg2.N) (h0 : t.val % 12 = 0) (p q : Fin 1024) :
    (outsAt2 V c t.val t.isLt).2 (ix2 p q)
      = Cert.Blocked.partialSum 12 512 (s2_term V c (s2_row t.val p) (s2_col t.val q)) (t.val % 12 + 1) (s2_kle t.val) := by
  refine (congrFun (s2_accAt_first V c t h0) (ix2 p q)).trans ?_
  refine (k2_pay2_apply ..).trans ?_
  refine (s2_step _ 0 (by omega) _ _ ((k2_pay1_apply (ix2 p q)).trans (Cert.Blocked.partialSum_zero 12 512 _).symm)
    (fun κ => s2_block V c t p q 0 (by omega) h0 κ)).trans ?_
  exact s2_ps_congr _ (by omega) _ _

/-- By induction over the positions: after position n the accumulator holds, at (p, q), the sum over the first
    n mod 12 + 1 blocks of the contraction axis. -/
theorem s2_acc (c : Dev nD) : ∀ (n : ℕ) (hn : n < cfg2.N) (p q : Fin 1024),
    (outsAt2 V c n hn).2 (ix2 p q)
      = Cert.Blocked.partialSum 12 512 (s2_term V c (s2_row n p) (s2_col n q)) (n % 12 + 1) (s2_kle n)
  | 0, hn, p, q => s2_acc_first V c ⟨0, hn⟩ (Nat.zero_mod _) p q
  | n + 1, hn, p, q => by
    by_cases h0 : (n + 1) % 12 = 0
    · exact s2_acc_first V c ⟨n + 1, hn⟩ h0 p q
    · have ih := s2_acc c n (Nat.lt_of_succ_lt hn) p q
      have hp : p.val < 1024 := p.isLt
      have hq : q.val < 1024 := q.isLt
      have hrow : s2_row n p = s2_row (n + 1) p := Fin.ext (by
        show (n / 72 * 1024 + p.val) % 8192 = ((n + 1) / 72 * 1024 + p.val) % 8192
        omega)
      have hcol : s2_col n q = s2_col (n + 1) q := Fin.ext (by
        show (n / 12 % 6 * 1024 + q.val) % 6144 = ((n + 1) / 12 % 6 * 1024 + q.val) % 6144
        omega)
      have hacc : s2_prev V c ⟨n + 1, hn⟩ (ix2 p q)
          = Cert.Blocked.partialSum 12 512 (s2_term V c (s2_row (n + 1) p) (s2_col (n + 1) q)) ((n + 1) % 12) (Nat.le_of_succ_le (s2_kle (n + 1))) := by
        rw [← hrow, ← hcol]
        exact ih.trans (s2_ps_congr _ (by omega) _ _)
      refine (congrFun (s2_accAt_next V c ⟨n + 1, hn⟩ h0) (ix2 p q)).trans ?_
      refine (k2_pay2_apply ..).trans ?_
      exact s2_step _ _ (s2_kle (n + 1)) _ _ hacc fun κ => s2_block V c ⟨n + 1, hn⟩ p q _ (s2_kle (n + 1)) rfl κ

/-- At a last step all twelve blocks are in: entry (p, q) of the output block is the stage's entry at the block's
    offsets plus (p, q). -/
theorem s2_outAt_eq_stage (c : Dev nD) (t : Fin cfg2.N) (h1 : t.val % 12 = 11) (p q : Fin 1024) (r : Fin 8192) (s : Fin 6144)
    (hr : r.val = win2_7.index t (0 : Fin 2) * 1024 + p.val) (hs : s.val = win2_7.index t (1 : Fin 2) * 1024 + q.val) :
    (outsAt2 V c t.val t.isLt).1 (ix2 p q) = G2 V c (ix2 r s) := by
  have h0 : ¬t.val % 12 = 0 := by omega
  refine (congrFun (s2_outAt_last V c t h1) (ix2 p q)).trans ?_
  refine (k2_pay3_apply ..).trans ?_
  rw [G2_apply, bblk2_apply V c t q s hs, gblk2_apply V c t q s hs, eblk2_apply V c t q s hs, mblk2_apply V c t q s hs,
    vblk2_apply V c t q s hs]
  refine congrArg (fun z => Cert.Spec.act (Cert.Spec.bn z (barr2 V c (ix2 0 s)) (garr2 V c (ix2 0 s)) (varr2 V c (ix2 0 s)) (marr2 V c (ix2 0 s)) (earr2 V c (ix2 0 s)))) ?_
  refine (congrFun (s2_accAt_next V c t h0) (ix2 p q)).symm.trans ?_
  refine (s2_acc V c t.val t.isLt p q).trans ?_
  refine (s2_ps_congr _ (by omega) _ (Nat.le_refl 12)).trans ?_
  refine (Cert.Blocked.partialSum_full 12 512 _).trans ?_
  have hr' : s2_row t.val p = r := Fin.ext ((s2_row_val t p).trans hr.symm)
  have hs' : s2_col t.val q = s := Fin.ext ((s2_col_val t q).trans hs.symm)
  rw [hr', hs']
  rfl

theorem s2_flushed_eq (c : Dev nD) (t : Fin cfg2.N) (hf : (cfg2.win 7).flush t = true) :
    (dat2 V c).flushed 7 t = ((cfg2.win 7).blk t).view.read (Elt Ideal) (G2 V c) := by
  have h1 : t.val % 12 = 11 := (flush2_7 t).mp hf
  show (cfg2.win 7).cut (grid2.coords t) ((dat2 V c).after 7 t) = _
  rw [after2_7]
  have key : ∀ j : S1024x1024.Idx, ((outsAt2 V c t.val t.isLt).1 : Vec Ideal S1024x1024 .bf16) j = ((cfg2.win 7).blk t).view.read (Elt Ideal) (G2 V c) j := by
    intro j
    obtain ⟨p, q, rfl⟩ : ∃ (p q : Fin 1024), j = ix2 p q := ⟨j 0, j 1, eq_ix2 j⟩
    refine (s2_outAt_eq_stage V c t h1 p q (s2_row t.val p) (s2_col t.val q) (s2_row_val t p) (s2_col_val t q)).trans ?_
    rw [View.read_apply]
    show G2 V c _ = G2 V c _
    refine congrArg (G2 V c) (funext fun a => Fin.ext ?_)
    match a with
    | ⟨0, _⟩ => show (s2_row t.val p).val = win2_7.index t (0 : Fin 2) * 1024 + 1 * p.val; rw [s2_row_val]; omega
    | ⟨1, _⟩ => show (s2_col t.val q).val = win2_7.index t (1 : Fin 2) * 1024 + 1 * q.val; rw [s2_col_val]; omega
  exact funext fun j => key j

/-- The written-back blocks tile the output array, so it holds the stage of the arrays the region finds. -/
theorem stage2_val (c : Dev nD) :
    (dat2 (F := Ideal) V c).arrAt 7 cfg2.N
      = Cert.Spec.stage (M := 8192) (N := 6144) (K := 6144) (V c main_v11) (V c main_arg5) (Cert.Spec.row (V c main_v12))
          (Cert.Spec.row (V c main_v13)) (Cert.Spec.row (V c main_v14)) (Cert.Spec.row (V c main_v15)) (Cert.Spec.row (V c main_v16)) :=
  (dat2 V c).arrAt_eq_of_cover 7 (G2 V c) (s2_flushed_eq V c) cover2

end Value

end Cert.KernelIdeal.StageValue

end
-- ==== Proof.Value.PayFinal.lean ====
import proofs.«135515_j66743791780425_1_alg».proof.Proof.Gen.KernelIdeal.Skeleton
import proofs.«135515_j66743791780425_1_alg».proof.Proof.Value.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FinalValue

open Idealize.ShloMosaic Idealize.ShloMosaic.ValueIdx Cert.KernelIdeal Cert.KernelIdeal.Gen

theorem k3_pay1_apply (j : S1024x10.Idx) : k3_pay1 (F := Ideal) j = 0 := by
  unfold k3_pay1
  rw [shapeCast_self, broadcast_apply]
  exact Ideal.ofBits_zero_f32

theorem lhs_0 (i : S1024x10.Idx) (c : dot_S1024x1024_S10x1024_S1024x10_1_1_0_0_n_n.contr.Idx) :
    (dot_S1024x1024_S10x1024_S1024x10_1_1_0_0_n_n.lhsIdx i c 0).val = (i 0).val := by
  unfold DotDims.lhsIdx
  rw [dif_neg (show ¬(0 : Fin S1024x1024.rank) ∈ dot_S1024x1024_S10x1024_S1024x10_1_1_0_0_n_n.lhsBatch by decide), dif_pos (show (0 : Fin S1024x1024.rank) ∈ dot_S1024x1024_S10x1024_S1024x10_1_1_0_0_n_n.lhsNonContracting by decide)]
  rfl
theorem lhs_1 (i : S1024x10.Idx) (c : dot_S1024x1024_S10x1024_S1024x10_1_1_0_0_n_n.contr.Idx) :
    (dot_S1024x1024_S10x1024_S1024x10_1_1_0_0_n_n.lhsIdx i c 1).val = (c ⟨0, by decide⟩).val :=
  dot_S1024x1024_S10x1024_S1024x10_1_1_0_0_n_n.lhsIdx_val_of_single rfl i c
theorem rhs_0 (i : S1024x10.Idx) (c : dot_S1024x1024_S10x1024_S1024x10_1_1_0_0_n_n.contr.Idx) :
    (dot_S1024x1024_S10x1024_S1024x10_1_1_0_0_n_n.rhsIdx i c 0).val = (i 1).val := by
  unfold DotDims.rhsIdx
  rw [dif_neg (show ¬(0 : Fin S10x1024.rank) ∈ dot_S1024x1024_S10x1024_S1024x10_1_1_0_0_n_n.rhsBatch by decide), dif_pos (show (0 : Fin S10x1024.rank) ∈ dot_S1024x1024_S10x1024_S1024x10_1_1_0_0_n_n.rhsNonContracting by decide)]
  rfl
theorem rhs_1 (i : S1024x10.Idx) (c : dot_S1024x1024_S10x1024_S1024x10_1_1_0_0_n_n.contr.Idx) :
    (dot_S1024x1024_S10x1024_S1024x10_1_1_0_0_n_n.rhsIdx i c 1).val = (c ⟨0, by decide⟩).val :=
  dot_S1024x1024_S10x1024_S1024x10_1_1_0_0_n_n.rhsIdx_val_of_single rfl i c

theorem k3_pay2_apply (h : Vec Ideal S1024x1024 .bf16) (w : Vec Ideal S10x1024 .f32) (acc : Vec Ideal S1024x10 .f32)
    (p : Fin 1024) (q : Fin 10) :
    k3_pay2 (F := Ideal) h w acc (ix2 p q) = acc (ix2 p q) + ∑ k : Fin 1024, h (ix2 p k) * w (ix2 q k) := by
  unfold k3_pay2
  rw [shapeCast_self, shapeCast_self, addf_apply]
  simp only [matmul]
  rw [Ideal.matmul_constant_zero_apply, ← Equiv.sum_comp (contrEquiv1 dot_S1024x1024_S10x1024_S1024x10_1_1_0_0_n_n 1024 rfl rfl).symm]
  refine congrArg (acc (ix2 p q) + ·) (Finset.sum_congr rfl fun k _ => ?_)
  have hk := contrEquiv1_symm_val dot_S1024x1024_S10x1024_S1024x10_1_1_0_0_n_n 1024 rfl rfl k
  have el : dot_S1024x1024_S10x1024_S1024x10_1_1_0_0_n_n.lhsIdx (ix2 p q) ((contrEquiv1 dot_S1024x1024_S10x1024_S1024x10_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S10x1024_S1024x10_1_1_0_0_n_n.rhsIdx (ix2 p q) ((contrEquiv1 dot_S1024x1024_S10x1024_S1024x10_1_1_0_0_n_n 1024 rfl rfl).symm k) = ix2 q k := funext fun a => Fin.ext (by
    match a with
    | ⟨0, _⟩ => exact rhs_0 _ _
    | ⟨1, _⟩ => exact (rhs_1 _ _).trans hk)
  rw [el, er, truncf_apply]

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row (p : Fin 1024) (k : Fin 10) : reduces_S1024x10_S1024.lift (ix1 p) k = ix2 p k :=
  funext fun c => Fin.ext (by
    match c with
    | ⟨0, _⟩ => rfl
    | ⟨1, _⟩ => rfl)

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

theorem laneMax_apply (z : FVec Ideal S1024x10 .f32) (hφ : FKind.Formats .f32)
    (hacc : (0xFF800000#32 : BitVec 32) = 0xFF800000#32) (p : Fin 1024) :
    multiReduction (F := Ideal) .maximumf [1] S1024 z 0xFF800000#32 reduces_S1024x10_S1024 hφ hacc (ix1 p)
      = Cert.Spec.rowMax z p := by
  refine (Ideal.multiReduction_maximumf_single z 0xFF800000#32 reduces_S1024x10_S1024 hφ hacc (ix1 p)).trans ?_
  unfold Cert.Spec.rowMax
  have hf : (z ∘ reduces_S1024x10_S1024.lift (ix1 p)) = fun k : Fin 10 => z (ix2 p k) :=
    funext fun k => congrArg z (lift_row p k)
  rw [hf]
  rfl

theorem laneSum_apply (e : FVec Ideal S1024x10 .f32) (hφ : FKind.Formats .f32)
    (hacc : (0x00000000#32 : BitVec 32) = 0x00000000#32) (p : Fin 1024) :
    multiReduction (F := Ideal) .add [1] S1024 e 0x00000000#32 reduces_S1024x10_S1024 hφ hacc (ix1 p)
      = ∑ k : Fin 10, e (ix2 p k) := by
  refine (Ideal.multiReduction_add_single e 0x00000000#32 reduces_S1024x10_S1024 hφ hacc (ix1 p)).trans ?_
  exact Finset.sum_congr rfl fun k _ => congrArg e (lift_row p k)

theorem k3_pay3_apply (acc : Vec Ideal S1024x10 .f32) (b : Vec Ideal S1x10 .f32) (p : Fin 1024) (q : Fin 10) :
    k3_pay3 (F := Ideal) acc b (ix2 p q)
      = Cert.Spec.logSoftmax (fun ij : (⟨2, ![1024, 10]⟩ : Shape).Idx => acc ij + b (ix2 0 (ij 1))) (ix2 p q) := by
  have hz : addf (F := Ideal) (φ := .f32) acc (broadcastTo S1024x10 (shapeCast S1x10 b shapeCasts_S1x10_S1x10) broadcasts_S1x10_S1024x10)
      = (fun ij : (⟨2, ![1024, 10]⟩ : Shape).Idx => acc ij + b (ix2 0 (ij 1))) := by
    funext ij
    obtain ⟨r, c, rfl⟩ : ∃ (r : Fin 1024) (c : Fin 10), ij = ix2 r c := ⟨ij 0, ij 1, eq_ix2 ij⟩
    rw [addf_apply, shapeCast_self, broadcastTo_1b_ab_apply]
  unfold k3_pay3
  dsimp only
  rw [hz]
  generalize (fun ij : (⟨2, ![1024, 10]⟩ : Shape).Idx => acc ij + b (ix2 0 (ij 1))) = z
  rw [subf_apply, subf_apply, broadcastTo_a1_ab_apply, broadcastTo_a1_ab_apply, log_apply,
    shapeCast_a_a1_apply, shapeCast_a_a1_apply, laneMax_apply, laneSum_apply]
  unfold Cert.Spec.logSoftmax
  refine congrArg (fun t => (z (ix2 p q) - Cert.Spec.rowMax z p) - Ideal.log t) (Finset.sum_congr rfl fun k _ => ?_)
  rw [exp_apply, subf_apply, broadcastTo_a1_ab_apply, shapeCast_a_a1_apply, laneMax_apply]

theorem logSoftmax_row {M N : Nat} (z z' : (⟨2, ![M, N]⟩ : Shape).Idx → EReal) (p : Fin M)
    (h : ∀ q, z (ix2 p q) = z' (ix2 p q)) (q : Fin N) :
    Cert.Spec.logSoftmax z (ix2 p q) = Cert.Spec.logSoftmax z' (ix2 p q) := by
  have hm : Cert.Spec.rowMax z p = Cert.Spec.rowMax z' p := by
    unfold Cert.Spec.rowMax
    exact congrArg (fun f => (Finset.univ : Finset (Fin N)).fold max Cert.Spec.ninf f) (funext h)
  unfold Cert.Spec.logSoftmax
  show (z (ix2 p q) - Cert.Spec.rowMax z p) - Ideal.log (∑ c : Fin N, Ideal.exp (z (ix2 p c) - Cert.Spec.rowMax z p))
    = (z' (ix2 p q) - Cert.Spec.rowMax z' p) - Ideal.log (∑ c : Fin N, Ideal.exp (z' (ix2 p c) - Cert.Spec.rowMax z' p))
  rw [hm, h q]
  exact congrArg (fun t => (z' (ix2 p q) - Cert.Spec.rowMax z' p) - Ideal.log t)
    (Finset.sum_congr rfl fun c _ => by rw [h c])

end Cert.KernelIdeal.FinalValue

end
-- ==== Proof.Value.Final.lean ====
import proofs.«135515_j66743791780425_1_alg».proof.Proof.FrameKI.Reg3
import proofs.«135515_j66743791780425_1_alg».proof.Proof.Value.Spec
import proofs.«135515_j66743791780425_1_alg».proof.Proof.Value.Row
import proofs.«135515_j66743791780425_1_alg».proof.Proof.Value.Blocked
import proofs.«135515_j66743791780425_1_alg».proof.Proof.Value.PayFinal
import Idealize.ShloMosaic.Lib.ValueIdx
import Idealize.ShloMosaic.Lib.Pipeline.Value
import Idealize.ShloMosaic.Lib.Tactic

set_option maxRecDepth 16384

noncomputable section

namespace Cert.KernelIdeal.FinalValue

open Idealize.ShloMosaic Idealize.ShloMosaic.TcCoe Idealize.ShloMosaic.ValueIdx
open Idealize.ShloMosaic.Pipeline (Dat)
open Cert.KernelIdeal Cert.KernelIdeal.Gen

section Pieces
variable {F : FTy → Type} [FloatOps F]

theorem hz : (![0, 0] : Fin 2 → Nat) = fun _ => 0 := funext fun a => by fin_cases a <;> rfl

variable {c : Dev nD} {i : grid3.Coords} {arg2 : Memref sig .tc .vmem S1024x1024 .bf16} {harg2 : arg2.IsWhole} {arg3 : Memref sig .tc .vmem S10x1024 .f32} {harg3 : arg3.IsWhole} {arg4 : Memref sig .tc .vmem S1x10 .f32} {harg4 : arg4.IsWhole} {arg5 : Memref sig .tc .vmem S1024x10 .f32} {harg5 : arg5.IsWhole} {arg6 : Memref sig .tc .vmem S1024x10 .f32} {harg6 : arg6.IsWhole}
  {x0 : Vec F S1024x1024 .bf16} {x1 : Vec F S10x1024 .f32} {x2 : Vec F S1x10 .f32} {xs0 : Vec F S1024x10 .f32}

section FirstStep
variable (hc0 : cond3_0 i) (hc1 : ¬cond3_1 i)

/-- A first step leaves in the accumulator the zero block plus the step's product. -/
theorem sout_A :
    sout3_A_0 c i arg2 harg2 arg3 harg3 arg4 harg4 arg5 harg5 arg6 harg6 hc0 hc1 x0 x1 x2 = k3_pay2 x0 x1 (k3_pay1 (F := F)) := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  sl_unfold_words
  rw [View.canon_cons_unit_zero (S := S1024x10) hz, View.readCov_unit_zero (S := S1024x10) _ hz]
  simp only [View.readAt_eq_ld, harg2.read_unread, harg3.read_unread, View.ld_unit_zero (S := S1024x1024) hz, View.ld_unit_zero (S := S10x1024) hz, View.ld_unit_zero (S := S1024x10) hz]

end FirstStep

/-- A later step leaves in the accumulator what it found plus the step's product; the last one also stores the
    row-wise log-softmax of the finished logits plus the bias. -/
theorem later (hc0 : ¬cond3_0 i) :
    (∀ hc1, sout3_B_0 c i arg2 harg2 arg3 harg3 arg4 harg4 arg5 harg5 arg6 harg6 hc0 hc1 x0 x1 x2 xs0 = k3_pay2 x0 x1 xs0)
    ∧ (∀ hc1, sout3_C_0 c i arg2 harg2 arg3 harg3 arg4 harg4 arg5 harg5 arg6 harg6 hc0 hc1 x0 x1 x2 xs0 = k3_pay2 x0 x1 xs0)
    ∧ ∀ hc1, out3_C_3 c i arg2 harg2 arg3 harg3 arg4 harg4 arg5 harg5 arg6 harg6 hc0 hc1 x0 x1 x2 xs0 = k3_pay3 (k3_pay2 x0 x1 xs0) x2 := by
  refine ⟨fun hc1 => ?_, fun hc1 => ?_, fun hc1 => ?_⟩
  on_goal 1 => unfold sout3_B_0; rw [View.read_writes_eq_canon _ _ _ (scover3_B_0 c i arg2 harg2 arg3 harg3 arg4 harg4 arg5 harg5 arg6 harg6 hc0 hc1 x0 x1 x2 xs0)]; unfold kernelRun3_B
  on_goal 2 => unfold sout3_C_0; rw [View.read_writes_eq_canon _ _ _ (scover3_C_0 c i arg2 harg2 arg3 harg3 arg4 harg4 arg5 harg5 arg6 harg6 hc0 hc1 x0 x1 x2 xs0)]; unfold kernelRun3_C
  on_goal 3 => unfold out3_C_3; rw [View.read_writes_eq_canon _ _ _ (cover3_C_3 c i arg2 harg2 arg3 harg3 arg4 harg4 arg5 harg5 arg6 harg6 hc0 hc1 x0 x1 x2 xs0)]; unfold kernelRun3_C
  all_goals
    dsimp only
    sl_unfold_words
    rw [View.canon_unit_zero hz]
    simp only [View.readAt_eq_ld, harg2.read_unread, harg3.read_unread, harg4.read_unread, harg6.read_unread, View.readCov_unit_zero (S := S1024x10) _ hz, View.ld_unit_zero (S := S1024x1024) hz, View.ld_unit_zero (S := S10x1024) hz, View.ld_unit_zero (S := S1024x10) hz, View.ld_unit_zero (S := S1x10) hz]

end Pieces

/-- A row's log-softmax depends on that row only. -/
theorem logSoftmax_rows {M M' N : Nat} (z : (⟨2, ![M, N]⟩ : Shape).Idx → EReal) (z' : (⟨2, ![M', N]⟩ : Shape).Idx → EReal)
    (p : Fin M) (r : Fin M') (h : ∀ q, z (ix2 p q) = z' (ix2 r q)) (q : Fin N) :
    Cert.Spec.logSoftmax z (ix2 p q) = Cert.Spec.logSoftmax z' (ix2 r q) := by
  have hm : Cert.Spec.rowMax z p = Cert.Spec.rowMax z' r := by
    unfold Cert.Spec.rowMax
    exact congrArg (fun f : Fin N → EReal => (Finset.univ : Finset (Fin N)).fold max Cert.Spec.ninf f) (funext h)
  show (z (ix2 p q) - Cert.Spec.rowMax z p) - Ideal.log (∑ q' : Fin N, Ideal.exp (z (ix2 p q') - Cert.Spec.rowMax z p))
    = (z' (ix2 r q) - Cert.Spec.rowMax z' r) - Ideal.log (∑ q' : Fin N, Ideal.exp (z' (ix2 r q') - Cert.Spec.rowMax z' r))
  rw [hm, h q]
  exact congrArg (fun s => z' (ix2 r q) - Cert.Spec.rowMax z' r - Ideal.log s) (Finset.sum_congr rfl fun q' _ => by rw [h q'])

section Value
variable (V : (c : Dev nD) → (b : Ref sig .tc) → Buf (Elt Ideal) ((c : Thread nD τ).loc b))

abbrev harr (c : Dev nD) : Vec Ideal S8192x6144 .bf16 := V c main_v17
abbrev warr (c : Dev nD) : Vec Ideal S10x6144 .f32 := V c main_arg7
abbrev barr (c : Dev nD) : Vec Ideal S1x10 .f32 := V c main_v18

abbrev hblk (c : Dev nD) (t : Fin cfg3.N) : Vec Ideal S1024x1024 .bf16 := iblk3 V c 0 t
abbrev wblk (c : Dev nD) (t : Fin cfg3.N) : Vec Ideal S10x1024 .f32 := iblk3 V c 1 t
abbrev bblk (c : Dev nD) (t : Fin cfg3.N) : Vec Ideal S1x10 .f32 := iblk3 V c 2 t

/-- What the position before left in the accumulator. -/
abbrev prev (c : Dev nD) (t : Fin cfg3.N) : Vec Ideal S1024x10 .f32 :=
  (outsAt3 V c (t.val - 1) (Nat.lt_of_le_of_lt (Nat.sub_le _ _) t.isLt)).2

abbrev head (c : Dev nD) : S8192x10.Idx → EReal :=
  Cert.Spec.logSoftmax (Cert.Spec.logits (M := 8192) (N := 10) (K := 6144) (harr V c) (warr V c) (Cert.Spec.row (barr V c)))

theorem idx3 : ∀ t : Fin cfg3.N,
    win3_0.index t (0 : Fin 2) = t.val / 6 ∧ win3_0.index t (1 : Fin 2) = t.val % 6
    ∧ win3_1.index t (0 : Fin 2) = 0 ∧ win3_1.index t (1 : Fin 2) = t.val % 6
    ∧ win3_2.index t (0 : Fin 2) = 0 ∧ win3_2.index t (1 : Fin 2) = 0
    ∧ win3_3.index t (0 : Fin 2) = t.val / 6 ∧ win3_3.index t (1 : Fin 2) = 0 :=
  (by decide +kernel : ∀ t : Fin grid3.N, _)

theorem hblk_apply (c : Dev nD) (t : Fin cfg3.N) (p κ : Fin 1024) (r : Fin 8192) (k' : Fin 6144)
    (hr : r.val = t.val / 6 * 1024 + p.val) (hk : k'.val = t.val % 6 * 1024 + κ.val) :
    hblk V c t (ix2 p κ) = harr V c (ix2 r k') := by
  obtain ⟨e0, e1, -⟩ := idx3 t
  unfold hblk harr iblk3
  rw [View.read_apply]
  exact congrArg (V c main_v17) (Shape.idx_ext₂ (by show win3_0.index t (0 : Fin 2) * 1024 + 1 * p.val = r.val; omega)
    (by show win3_0.index t (1 : Fin 2) * 1024 + 1 * κ.val = k'.val; omega))

theorem wblk_apply (c : Dev nD) (t : Fin cfg3.N) (q : Fin 10) (κ : Fin 1024) (k' : Fin 6144)
    (hk : k'.val = t.val % 6 * 1024 + κ.val) :
    wblk V c t (ix2 q κ) = warr V c (ix2 q k') := by
  obtain ⟨-, -, e2, e3, -⟩ := idx3 t
  unfold wblk warr iblk3
  rw [View.read_apply]
  exact congrArg (V c main_arg7) (Shape.idx_ext₂ (by show win3_1.index t (0 : Fin 2) * 10 + 1 * q.val = q.val; omega)
    (by show win3_1.index t (1 : Fin 2) * 1024 + 1 * κ.val = k'.val; omega))

theorem bblk_apply (c : Dev nD) (t : Fin cfg3.N) (a0 : Fin 1) (q : Fin 10) :
    bblk V c t (ix2 a0 q) = barr V c (ix2 a0 q) := by
  obtain ⟨-, -, -, -, e4, e5, -⟩ := idx3 t
  unfold bblk barr iblk3
  rw [View.read_apply]
  exact congrArg (V c main_v18) (Shape.idx_ext₂ (by show win3_2.index t (0 : Fin 2) * 1 + 1 * a0.val = a0.val; omega)
    (by show win3_2.index t (1 : Fin 2) * 10 + 1 * q.val = q.val; omega))

def dotTerm (c : Dev nD) (r : Fin 8192) (q : Fin 10) : Fin (6 * 1024) → EReal :=
  fun κ => harr V c (ix2 r (⟨κ.val, by have := κ.isLt; omega⟩ : Fin 6144)) * warr V c (ix2 q (⟨κ.val, by have := κ.isLt; omega⟩ : Fin 6144))

theorem block_sum (c : Dev nD) (t : Fin cfg3.N) (p : Fin 1024) (q : Fin 10) (r : Fin 8192) (k : ℕ) (hk : k + 1 ≤ 6)
    (hr : r.val = t.val / 6 * 1024 + p.val) (hk' : t.val % 6 = k) :
    ∑ κ : Fin 1024, hblk V c t (ix2 p κ) * wblk V c t (ix2 q κ)
      = ∑ κ : Fin 1024, dotTerm V c r q ⟨k * 1024 + κ.val, Cert.Blocked.blk_lt hk (Fin.last k) κ⟩ := by
  refine Finset.sum_congr rfl fun κ _ => ?_
  have hlt : k * 1024 + κ.val < 6144 := by have := κ.isLt; omega
  exact congrArg₂ (· * ·) (hblk_apply V c t p κ r ⟨_, hlt⟩ hr (by show k * 1024 + κ.val = _; omega))
    (wblk_apply V c t q κ ⟨_, hlt⟩ (by show k * 1024 + κ.val = _; omega))

theorem pay2_step (c : Dev nD) (t : Fin cfg3.N) (k : ℕ) (hk : k + 1 ≤ 6) (hk' : t.val % 6 = k) (p : Fin 1024) (q : Fin 10) (r : Fin 8192)
    (hr : r.val = t.val / 6 * 1024 + p.val) (acc : Vec Ideal S1024x10 .f32)
    (hprev : acc (ix2 p q) = Cert.Blocked.partialSum 6 1024 (dotTerm V c r q) k (Nat.le_of_succ_le hk)) :
    k3_pay2 (F := Ideal) (hblk V c t) (wblk V c t) acc (ix2 p q) = Cert.Blocked.partialSum 6 1024 (dotTerm V c r q) (k + 1) hk := by
  refine (k3_pay2_apply (hblk V c t) (wblk V c t) acc p q).trans ?_
  rw [hprev, Cert.Blocked.partialSum_succ 6 1024 (dotTerm V c r q) k hk]
  exact congrArg (Cert.Blocked.partialSum 6 1024 (dotTerm V c r q) k (Nat.le_of_succ_le hk) + ·) (block_sum V c t p q r k hk hr hk')

theorem acc_A (c : Dev nD) (t : Fin cfg3.N) (h0 : t.val % 6 = 0) (p : Fin 1024) (q : Fin 10) (r : Fin 8192)
    (hr : r.val = t.val / 6 * 1024 + p.val) :
    (outsAt3 V c t.val t.isLt).2 (ix2 p q) = Cert.Blocked.partialSum 6 1024 (dotTerm V c r q) (0 + 1) (by omega) := by
  have h1 : ¬t.val % 6 = 5 := by omega
  rw [outsAt3_A V c t h0 h1]
  dsimp only
  rw [sout_A]
  exact pay2_step V c t 0 (by omega) h0 p q r hr (k3_pay1 (F := Ideal))
    ((k3_pay1_apply (ix2 p q)).trans (Cert.Blocked.partialSum_zero 6 1024 (dotTerm V c r q)).symm)

theorem acc_step (c : Dev nD) (t : Fin cfg3.N) (h0 : ¬t.val % 6 = 0) (k : ℕ) (hk : k + 1 + 1 ≤ 6) (hk' : t.val % 6 = k + 1)
    (p : Fin 1024) (q : Fin 10) (r : Fin 8192) (hr : r.val = t.val / 6 * 1024 + p.val)
    (ih : (prev V c t) (ix2 p q) = Cert.Blocked.partialSum 6 1024 (dotTerm V c r q) (k + 1) (Nat.le_of_succ_le hk)) :
    (outsAt3 V c t.val t.isLt).2 (ix2 p q) = Cert.Blocked.partialSum 6 1024 (dotTerm V c r q) (k + 1 + 1) hk := by
  by_cases h1 : t.val % 6 = 5
  · rw [outsAt3_C V c t h0 h1]
    dsimp only
    rw [(later _).2.1]
    exact pay2_step V c t (k + 1) hk hk' p q r hr (prev V c t) ih
  · rw [outsAt3_B V c t h0 h1]
    dsimp only
    rw [(later _).1]
    exact pay2_step V c t (k + 1) hk hk' p q r hr (prev V c t) ih

/-- By induction over the positions: after position n the accumulator holds, at (p, q), the sum over the first
    n mod 6 + 1 blocks of the contraction axis. -/
theorem acc_inv (c : Dev nD) : ∀ (n : ℕ) (hn : n < cfg3.N) (k : ℕ) (hk : k + 1 ≤ 6) (hk' : n % 6 = k) (p : Fin 1024) (q : Fin 10)
    (r : Fin 8192) (hr : r.val = n / 6 * 1024 + p.val),
    (outsAt3 V c n hn).2 (ix2 p q) = Cert.Blocked.partialSum 6 1024 (dotTerm V c r q) (k + 1) hk
  | 0, hn, k, hk, hk', p, q, r, hr => by
    obtain rfl : k = 0 := by omega
    exact acc_A V c ⟨0, hn⟩ rfl p q r hr
  | n + 1, hn, k, hk, hk', p, q, r, hr => by
    by_cases h0 : (n + 1) % 6 = 0
    · obtain rfl : k = 0 := by omega
      exact acc_A V c ⟨n + 1, hn⟩ h0 p q r hr
    · obtain ⟨k', rfl⟩ : ∃ k', k = k' + 1 := ⟨k - 1, by omega⟩
      exact acc_step V c ⟨n + 1, hn⟩ h0 k' hk hk' p q r hr
        (acc_inv c n (Nat.lt_of_succ_lt hn) k' (Nat.le_of_succ_le hk) (by omega) p q r (by omega))

theorem dot_full (c : Dev nD) (r : Fin 8192) (q : Fin 10) :
    Cert.Blocked.partialSum 6 1024 (dotTerm V c r q) 6 (Nat.le_refl 6) = ∑ k : Fin 6144, harr V c (ix2 r k) * warr V c (ix2 q k) := by
  rw [Cert.Blocked.partialSum_full]
  exact Fintype.sum_equiv (finCongr (by norm_num : 6 * 1024 = 6144)) _ _ (fun κ => rfl)

theorem out_inv (c : Dev nD) (t : Fin cfg3.N) (h1 : t.val % 6 = 5) (p : Fin 1024) (q : Fin 10) (r : Fin 8192)
    (hr : r.val = t.val / 6 * 1024 + p.val) :
    (outsAt3 V c t.val t.isLt).1 (ix2 p q) = head V c (ix2 r q) := by
  have h0 : ¬t.val % 6 = 0 := by omega
  have hN : t.val < 48 := lt_of_lt_of_eq t.isLt (show cfg3.N = 48 from N_3)
  rw [outsAt3_C V c t h0 h1]
  dsimp only
  rw [(later _).2.2]
  refine (k3_pay3_apply (k3_pay2 (F := Ideal) (hblk V c t) (wblk V c t) (prev V c t)) (bblk V c t) p q).trans ?_
  refine logSoftmax_rows _ _ p r (fun q' => ?_) q
  show k3_pay2 (F := Ideal) (hblk V c t) (wblk V c t) (prev V c t) (ix2 p q') + bblk V c t (ix2 (0 : Fin 1) q')
    = (∑ k : Fin 6144, harr V c (ix2 r k) * warr V c (ix2 q' k)) + barr V c (ix2 (0 : Fin 1) q')
  rw [bblk_apply V c t 0 q', ← dot_full V c r q']
  refine congrArg (· + barr V c (ix2 (0 : Fin 1) q')) ?_
  exact pay2_step V c t 5 (by omega) h1 p q' r hr (prev V c t)
    (acc_inv V c (t.val - 1) (Nat.lt_of_le_of_lt (Nat.sub_le _ _) t.isLt) 4 (by omega) (by omega) p q' r (by omega))

theorem out_at (c : Dev nD) (t : Fin cfg3.N) (h1 : t.val % 6 = 5) (y : S1024x10.Idx) (i : S8192x10.Idx)
    (e0 : (i 0).val = t.val / 6 * 1024 + (y 0).val) (e1 : (i 1).val = (y 1).val) :
    (outsAt3 V c t.val t.isLt).1 y = head V c i := by
  obtain ⟨p, q, rfl⟩ : ∃ (p : Fin 1024) (q : Fin 10), y = ix2 p q := ⟨y 0, y 1, eq_ix2 y⟩
  obtain ⟨r, q', rfl⟩ : ∃ (r : Fin 8192) (q' : Fin 10), i = ix2 r q' := ⟨i 0, i 1, eq_ix2 i⟩
  obtain rfl : q' = q := Fin.ext e1
  exact out_inv V c t h1 p q' r e0

theorem flushed_eq (c : Dev nD) (t : Fin cfg3.N) (hf : (cfg3.win 3).flush t = true) :
    (dat3 (F := Ideal) V c).flushed 3 t = ((cfg3.win 3).blk t).view.read (Elt Ideal) (head V c) := by
  have h1 : t.val % 6 = 5 := (flush3_3 t).mp hf
  obtain ⟨-, -, -, -, -, -, e6, e7⟩ := idx3 t
  show (cfg3.win 3).cut (grid3.coords t) ((dat3 (F := Ideal) V c).after 3 t) = _
  rw [after3_3]
  funext j
  show (outsAt3 V c t.val t.isLt).1 j = head V c (((cfg3.win 3).blk t).view.emb j)
  exact out_at V c t h1 j (((cfg3.win 3).blk t).view.emb j)
    (by show win3_3.index t (0 : Fin 2) * 1024 + 1 * (j 0).val = _; omega)
    (by show win3_3.index t (1 : Fin 2) * 10 + 1 * (j 1).val = _; omega)

theorem cover3 (i : S8192x10.Idx) : ∃ t : Fin cfg3.N, (cfg3.win 3).flush t = true ∧ i ∈ ((cfg3.win 3).blk t).view.set := by
  have hi0 : (i 0).val < 8192 := (i 0).isLt
  have hi1 : (i 1).val < 10 := (i 1).isLt
  obtain ⟨t, ht⟩ : ∃ t : Fin cfg3.N, t.val = (i 0).val / 1024 * 6 + 5 := ⟨⟨_, by rw [show cfg3.N = 48 from N_3]; omega⟩, rfl⟩
  obtain ⟨-, -, -, -, -, -, e6, e7⟩ := idx3 t
  refine ⟨t, (flush3_3 t).mpr (by omega), ?_⟩
  show i ∈ ((View.whole main_v19).slice (win3_3.rect t)).set
  rw [View.set_slice_whole, Rect.mem_set_unit]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 10 ≤ (i 1).val ∧ (i 1).val < win3_3.index t (1 : Fin 2) * 10 + 10; omega

/-- The written-back blocks tile the result array, so it holds the head of the arrays the region finds. -/
theorem final_val (c : Dev nD) :
    (dat3 (F := Ideal) V c).arrAt 3 cfg3.N
      = Cert.Spec.logSoftmax (Cert.Spec.logits (M := 8192) (N := 10) (K := 6144) (V c main_v17) (V c main_arg7) (Cert.Spec.row (V c main_v18))) :=
  (dat3 (F := Ideal) V c).arrAt_eq_of_cover 3 (head V c) (fun t hf => flushed_eq V c t hf) cover3

end Value

end Cert.KernelIdeal.FinalValue

end
-- ==== Proof.Value.Chain.lean ====
import proofs.«135515_j66743791780425_1_alg».proof.Proof.FrameKI.Main
import proofs.«135515_j66743791780425_1_alg».proof.Proof.Value.Stage0
import proofs.«135515_j66743791780425_1_alg».proof.Proof.Value.Stage1
import proofs.«135515_j66743791780425_1_alg».proof.Proof.Value.Stage2
import proofs.«135515_j66743791780425_1_alg».proof.Proof.Value.Final
import Idealize.ShloMosaic.Lib.StableHlo.Run
import Idealize.ShloMosaic.Lib.ValueLayout

noncomputable section

namespace Cert.KernelIdeal.ChainValue

open Idealize.ShloMosaic Idealize.ShloMosaic.ValueIdx Cert.KernelIdeal Cert.KernelIdeal.Gen
open Idealize.ShloMosaic.Pipeline (Dat)

variable {F : FTy → Type} [FloatOps F]

section Launch
variable (m : (ℓ : Loc nD τ sig) → Buf (Elt F) ℓ) (ρ : Dev nD → PrngReg) (c : Dev nD) (b : Ref sig .tc)

/-- Launch argument `b` as core `c` holds it. -/
abbrev arg := m ((c.tc : Thread nD τ).loc b)

-- A buffer that no host stretch so far has written and that is no earlier region's output still holds its launch contents.
theorem W1_launch (h0 : b ∉ hostOps0_W) : W1 m ρ c (Proc.devRef .tc b) = arg m c b :=
  (StableHlo.after_of_writes_sub hostOps0 _ hostOps0_writes h0).trans rfl
theorem W2_launch (h0 : b ∉ hostOps0_W) (g0 : b ≠ main_v5) : W2 m ρ c (Proc.devRef .tc b) = arg m c b :=
  (W2_keep m ρ c b g0).trans (W1_launch m ρ c b h0)
theorem W3_launch (h0 : b ∉ hostOps0_W) (g0 : b ≠ main_v5) (h1 : b ∉ hostOps1_W) : W3 m ρ c (Proc.devRef .tc b) = arg m c b :=
  (StableHlo.after_of_writes_sub hostOps1 _ hostOps1_writes h1).trans (W2_launch m ρ c b h0 g0)
theorem W4_launch (h0 : b ∉ hostOps0_W) (g0 : b ≠ main_v5) (h1 : b ∉ hostOps1_W) (g1 : b ≠ main_v11) :
    W4 m ρ c (Proc.devRef .tc b) = arg m c b :=
  (W4_keep m ρ c b g1).trans (W3_launch m ρ c b h0 g0 h1)
theorem W5_launch (h0 : b ∉ hostOps0_W) (g0 : b ≠ main_v5) (h1 : b ∉ hostOps1_W) (g1 : b ≠ main_v11) (h2 : b ∉ hostOps2_W) :
    W5 m ρ c (Proc.devRef .tc b) = arg m c b :=
  (StableHlo.after_of_writes_sub hostOps2 _ hostOps2_writes h2).trans (W4_launch m ρ c b h0 g0 h1 g1)
theorem W6_launch (h0 : b ∉ hostOps0_W) (g0 : b ≠ main_v5) (h1 : b ∉ hostOps1_W) (g1 : b ≠ main_v11) (h2 : b ∉ hostOps2_W)
    (g2 : b ≠ main_v17) : W6 m ρ c (Proc.devRef .tc b) = arg m c b :=
  (W6_keep m ρ c b g2).trans (W5_launch m ρ c b h0 g0 h1 g1 h2)
theorem W7_launch (h0 : b ∉ hostOps0_W) (g0 : b ≠ main_v5) (h1 : b ∉ hostOps1_W) (g1 : b ≠ main_v11) (h2 : b ∉ hostOps2_W)
    (g2 : b ≠ main_v17) (h3 : b ∉ hostOps3_W) : W7 m ρ c (Proc.devRef .tc b) = arg m c b :=
  (StableHlo.after_of_writes_sub hostOps3 _ hostOps3_writes h3).trans (W6_launch m ρ c b h0 g0 h1 g1 h2 g2)

end Launch

/-- A vector reshaped to one row and read back as a vector is the vector. -/
theorem row_of_reshape {n : Nat} {y : (⟨1, ![n]⟩ : Shape).Idx → EReal} {h : (⟨1, ![n]⟩ : Shape).ShapeCasts ⟨2, ![1, n]⟩}
    {x : (⟨2, ![1, n]⟩ : Shape).Idx → EReal} (e : x = shapeCast ⟨2, ![1, n]⟩ y h) : Cert.Spec.row x = y := by
  subst e
  funext j
  obtain ⟨q, rfl⟩ : ∃ q : Fin n, j = ix1 q := ⟨j 0, eq_ix1 j⟩
  rw [Cert.Spec.row_apply]
  exact shapeCast_a_1a_apply y h 0 q

section Rows
variable (V : Valuation τ sig (Elt Ideal))

-- Each host stretch only reshapes argument vectors to rows.
theorem hostOps0_main_v0 : Cert.Spec.row (StableHlo.after hostOps0 V (Proc.devRef .tc main_v0)) = V (Proc.devRef .tc main_arg2) :=
  row_of_reshape (h := shapeCasts_S6144_S1x6144) (by after_results; rfl)
theorem hostOps0_main_v1 : Cert.Spec.row (StableHlo.after hostOps0 V (Proc.devRef .tc main_v1)) = V (Proc.devRef .tc main_arg9) :=
  row_of_reshape (h := shapeCasts_S6144_S1x6144) (by after_results; rfl)
theorem hostOps0_main_v2 : Cert.Spec.row (StableHlo.after hostOps0 V (Proc.devRef .tc main_v2)) = V (Proc.devRef .tc main_arg10) :=
  row_of_reshape (h := shapeCasts_S6144_S1x6144) (by after_results; rfl)
theorem hostOps0_main_v3 : Cert.Spec.row (StableHlo.after hostOps0 V (Proc.devRef .tc main_v3)) = V (Proc.devRef .tc main_arg11) :=
  row_of_reshape (h := shapeCasts_S6144_S1x6144) (by after_results; rfl)
theorem hostOps0_main_v4 : Cert.Spec.row (StableHlo.after hostOps0 V (Proc.devRef .tc main_v4)) = V (Proc.devRef .tc main_arg12) :=
  row_of_reshape (h := shapeCasts_S6144_S1x6144) (by after_results; rfl)
theorem hostOps1_main_v6 : Cert.Spec.row (StableHlo.after hostOps1 V (Proc.devRef .tc main_v6)) = V (Proc.devRef .tc main_arg4) :=
  row_of_reshape (h := shapeCasts_S6144_S1x6144) (by after_results; rfl)
theorem hostOps1_main_v7 : Cert.Spec.row (StableHlo.after hostOps1 V (Proc.devRef .tc main_v7)) = V (Proc.devRef .tc main_arg13) :=
  row_of_reshape (h := shapeCasts_S6144_S1x6144) (by after_results; rfl)
theorem hostOps1_main_v8 : Cert.Spec.row (StableHlo.after hostOps1 V (Proc.devRef .tc main_v8)) = V (Proc.devRef .tc main_arg14) :=
  row_of_reshape (h := shapeCasts_S6144_S1x6144) (by after_results; rfl)
theorem hostOps1_main_v9 : Cert.Spec.row (StableHlo.after hostOps1 V (Proc.devRef .tc main_v9)) = V (Proc.devRef .tc main_arg15) :=
  row_of_reshape (h := shapeCasts_S6144_S1x6144) (by after_results; rfl)
theorem hostOps1_main_v10 : Cert.Spec.row (StableHlo.after hostOps1 V (Proc.devRef .tc main_v10)) = V (Proc.devRef .tc main_arg16) :=
  row_of_reshape (h := shapeCasts_S6144_S1x6144) (by after_results; rfl)
theorem hostOps2_main_v12 : Cert.Spec.row (StableHlo.after hostOps2 V (Proc.devRef .tc main_v12)) = V (Proc.devRef .tc main_arg6) :=
  row_of_reshape (h := shapeCasts_S6144_S1x6144) (by after_results; rfl)
theorem hostOps2_main_v13 : Cert.Spec.row (StableHlo.after hostOps2 V (Proc.devRef .tc main_v13)) = V (Proc.devRef .tc main_arg17) :=
  row_of_reshape (h := shapeCasts_S6144_S1x6144) (by after_results; rfl)
theorem hostOps2_main_v14 : Cert.Spec.row (StableHlo.after hostOps2 V (Proc.devRef .tc main_v14)) = V (Proc.devRef .tc main_arg18) :=
  row_of_reshape (h := shapeCasts_S6144_S1x6144) (by after_results; rfl)
theorem hostOps2_main_v15 : Cert.Spec.row (StableHlo.after hostOps2 V (Proc.devRef .tc main_v15)) = V (Proc.devRef .tc main_arg19) :=
  row_of_reshape (h := shapeCasts_S6144_S1x6144) (by after_results; rfl)
theorem hostOps2_main_v16 : Cert.Spec.row (StableHlo.after hostOps2 V (Proc.devRef .tc main_v16)) = V (Proc.devRef .tc main_arg20) :=
  row_of_reshape (h := shapeCasts_S6144_S1x6144) (by after_results; rfl)
theorem hostOps3_main_v18 : Cert.Spec.row (StableHlo.after hostOps3 V (Proc.devRef .tc main_v18)) = V (Proc.devRef .tc main_arg8) :=
  row_of_reshape (h := shapeCasts_S10_S1x10) (by after_results; rfl)

end Rows

section Chain
variable (m : (ℓ : Loc nD τ sig) → Buf (Elt Ideal) ℓ) (ρ : Dev nD → PrngReg) (c : Dev nD)

/-- Region 0 leaves the first stage of the launch arguments; the next stretch does not touch it. -/
theorem stage1_val : U3 m ρ c main_v5 = Cert.Spec.stage (M := 8192) (N := 6144) (K := 784) (arg m c main_arg0) (arg m c main_arg1) (arg m c main_arg2) (arg m c main_arg9) (arg m c main_arg10) (arg m c main_arg11) (arg m c main_arg12) := by
  have e : U3 m ρ c main_v5 = (dat0 (F := Ideal) (U1 m ρ) c).arrAt 7 cfg0.N :=
    (StableHlo.after_of_writes_sub hostOps1 _ hostOps1_writes (by decide)).trans (W2_arr m ρ c 7)
  rw [e, StageValue.stage0_val (U1 m ρ) c]
  rw [show U1 m ρ c main_arg0 = arg m c main_arg0 from W1_launch m ρ c main_arg0 (by decide),
    show U1 m ρ c main_arg1 = arg m c main_arg1 from W1_launch m ρ c main_arg1 (by decide),
    show Cert.Spec.row (U1 m ρ c main_v0) = arg m c main_arg2 from (hostOps0_main_v0 (W0 m ρ c)).trans rfl,
    show Cert.Spec.row (U1 m ρ c main_v1) = arg m c main_arg9 from (hostOps0_main_v1 (W0 m ρ c)).trans rfl,
    show Cert.Spec.row (U1 m ρ c main_v2) = arg m c main_arg10 from (hostOps0_main_v2 (W0 m ρ c)).trans rfl,
    show Cert.Spec.row (U1 m ρ c main_v3) = arg m c main_arg11 from (hostOps0_main_v3 (W0 m ρ c)).trans rfl,
    show Cert.Spec.row (U1 m ρ c main_v4) = arg m c main_arg12 from (hostOps0_main_v4 (W0 m ρ c)).trans rfl]

theorem stage2_val (x : (⟨2, ![8192, 6144]⟩ : Shape).Idx → EReal) (hx : U3 m ρ c main_v5 = x) :
    U5 m ρ c main_v11 = Cert.Spec.stage (M := 8192) (N := 6144) (K := 6144) x (arg m c main_arg3) (arg m c main_arg4) (arg m c main_arg13) (arg m c main_arg14) (arg m c main_arg15) (arg m c main_arg16) := by
  have e : U5 m ρ c main_v11 = (dat1 (F := Ideal) (U3 m ρ) c).arrAt 7 cfg1.N :=
    (StableHlo.after_of_writes_sub hostOps2 _ hostOps2_writes (by decide)).trans (W4_arr m ρ c 7)
  rw [e, StageValue.stage1_val (U3 m ρ) c, hx]
  rw [show U3 m ρ c main_arg3 = arg m c main_arg3 from W3_launch m ρ c main_arg3 (by decide) (by decide) (by decide),
    show Cert.Spec.row (U3 m ρ c main_v6) = arg m c main_arg4 from (hostOps1_main_v6 (W2 m ρ c)).trans (W2_launch m ρ c main_arg4 (by decide) (by decide)),
    show Cert.Spec.row (U3 m ρ c main_v7) = arg m c main_arg13 from (hostOps1_main_v7 (W2 m ρ c)).trans (W2_launch m ρ c main_arg13 (by decide) (by decide)),
    show Cert.Spec.row (U3 m ρ c main_v8) = arg m c main_arg14 from (hostOps1_main_v8 (W2 m ρ c)).trans (W2_launch m ρ c main_arg14 (by decide) (by decide)),
    show Cert.Spec.row (U3 m ρ c main_v9) = arg m c main_arg15 from (hostOps1_main_v9 (W2 m ρ c)).trans (W2_launch m ρ c main_arg15 (by decide) (by decide)),
    show Cert.Spec.row (U3 m ρ c main_v10) = arg m c main_arg16 from (hostOps1_main_v10 (W2 m ρ c)).trans (W2_launch m ρ c main_arg16 (by decide) (by decide))]

theorem stage3_val (x : (⟨2, ![8192, 6144]⟩ : Shape).Idx → EReal) (hx : U5 m ρ c main_v11 = x) :
    U7 m ρ c main_v17 = Cert.Spec.stage (M := 8192) (N := 6144) (K := 6144) x (arg m c main_arg5) (arg m c main_arg6) (arg m c main_arg17) (arg m c main_arg18) (arg m c main_arg19) (arg m c main_arg20) := by
  have e : U7 m ρ c main_v17 = (dat2 (F := Ideal) (U5 m ρ) c).arrAt 7 cfg2.N :=
    (StableHlo.after_of_writes_sub hostOps3 _ hostOps3_writes (by decide)).trans (W6_arr m ρ c 7)
  rw [e, StageValue.stage2_val (U5 m ρ) c, hx]
  rw [show U5 m ρ c main_arg5 = arg m c main_arg5 from W5_launch m ρ c main_arg5 (by decide) (by decide) (by decide) (by decide) (by decide),
    show Cert.Spec.row (U5 m ρ c main_v12) = arg m c main_arg6 from (hostOps2_main_v12 (W4 m ρ c)).trans (W4_launch m ρ c main_arg6 (by decide) (by decide) (by decide) (by decide)),
    show Cert.Spec.row (U5 m ρ c main_v13) = arg m c main_arg17 from (hostOps2_main_v13 (W4 m ρ c)).trans (W4_launch m ρ c main_arg17 (by decide) (by decide) (by decide) (by decide)),
    show Cert.Spec.row (U5 m ρ c main_v14) = arg m c main_arg18 from (hostOps2_main_v14 (W4 m ρ c)).trans (W4_launch m ρ c main_arg18 (by decide) (by decide) (by decide) (by decide)),
    show Cert.Spec.row (U5 m ρ c main_v15) = arg m c main_arg19 from (hostOps2_main_v15 (W4 m ρ c)).trans (W4_launch m ρ c main_arg19 (by decide) (by decide) (by decide) (by decide)),
    show Cert.Spec.row (U5 m ρ c main_v16) = arg m c main_arg20 from (hostOps2_main_v16 (W4 m ρ c)).trans (W4_launch m ρ c main_arg20 (by decide) (by decide) (by decide) (by decide))]

theorem head_val (x : (⟨2, ![8192, 6144]⟩ : Shape).Idx → EReal) (hx : U7 m ρ c main_v17 = x) :
    (dat3 (F := Ideal) (U7 m ρ) c).arrAt 3 cfg3.N
      = Cert.Spec.logSoftmax (Cert.Spec.logits (M := 8192) (N := 10) (K := 6144) x (arg m c main_arg7) (arg m c main_arg8)) := by
  rw [FinalValue.final_val (U7 m ρ) c, hx]
  rw [show U7 m ρ c main_arg7 = arg m c main_arg7 from W7_launch m ρ c main_arg7 (by decide) (by decide) (by decide) (by decide) (by decide) (by decide) (by decide),
    show Cert.Spec.row (U7 m ρ c main_v18) = arg m c main_arg8 from (hostOps3_main_v18 (W6 m ρ c)).trans (W6_launch m ρ c main_arg8 (by decide) (by decide) (by decide) (by decide) (by decide) (by decide))]

/-- The four regions chained: the result array holds the whole network of the launch arguments. -/
theorem result_val : (dat3 (F := Ideal) (U7 m ρ) c).arrAt 3 cfg3.N
      = Cert.Spec.net (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) := by
  unfold Cert.Spec.net
  exact head_val m ρ c _ (stage3_val m ρ c _ (stage2_val m ρ c _ (stage1_val m ρ c)))

end Chain

end Cert.KernelIdeal.ChainValue

end
-- ==== Proof.Claims.lean ====
import proofs.«135515_j66743791780425_1_alg».proof.Defs
import proofs.«135515_j66743791780425_1_alg».proof.Proof.Gen.Pre_finite_inputs
import proofs.«135515_j66743791780425_1_alg».proof.Proof.Gen.ReferenceIdeal
import proofs.«135515_j66743791780425_1_alg».proof.Proof.FrameK.Main
import proofs.«135515_j66743791780425_1_alg».proof.Proof.RefRun
import proofs.«135515_j66743791780425_1_alg».proof.Proof.Value.Ref
import proofs.«135515_j66743791780425_1_alg».proof.Proof.Value.Chain

noncomputable section

open Idealize.ShloMosaic Idealize.ShloMosaic.TcCoe Idealize.SL.Sem

namespace Cert.Proof.Claims

/-- Each program runs to the end and leaves its arguments as launched: they are buffers nothing writes. -/
theorem frame_k : Cert.frame_Kernel := fun m ρ _ =>
  (θ_run Cert.Kernel.defs _ _).mono (fun r h c => by
    refine ⟨?_, ?_, ?_, ?_, ?_, ?_, ?_, ?_, ?_, ?_, ?_, ?_, ?_, ?_, ?_, ?_, ?_, ?_, ?_, ?_, ?_⟩ <;> exact (h c).2 _ (by decide)) (Cert.Kernel.Gen.run_result (F := Bits) m ρ)

theorem frame_ki : Cert.frame_KernelIdeal := fun m ρ _ =>
  (θ_run Cert.KernelIdeal.defs _ _).mono (fun r h c => by
    refine ⟨?_, ?_, ?_, ?_, ?_, ?_, ?_, ?_, ?_, ?_, ?_, ?_, ?_, ?_, ?_, ?_, ?_, ?_, ?_, ?_, ?_⟩ <;> exact (h c).2 _ (by decide)) (Cert.KernelIdeal.Gen.run_result (F := Ideal) m ρ)

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

open Cert.KernelIdeal Cert.KernelIdeal.ChainValue in
/-- On the extended reals both result arrays end at the network of the kernel's launch arguments: the kernel's as the
    chain of its four regions' values, the reference's as its run read one operation at a time. -/
theorem algebraic : Cert.algebraic_KernelIdeal_ReferenceIdeal := by
  intro m ρ m' ρ' _ hagree
  refine ⟨fun c => Cert.Spec.net (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20), ?_, ?_⟩
  · exact (θ_run Cert.KernelIdeal.defs _ _).mono
      (fun r h c => ⟨(h c).1.trans (Cert.KernelIdeal.ChainValue.result_val m ρ c), by
        refine ⟨?_, ?_, ?_, ?_, ?_, ?_, ?_, ?_, ?_, ?_, ?_, ?_, ?_, ?_, ?_, ?_, ?_, ?_, ?_, ?_, ?_⟩ <;> exact (h c).2 _ (by decide)⟩)
      (Cert.KernelIdeal.Gen.run_result (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.RefValue.result_eq m' c).trans ?_
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14, e15, e16, e17, e18, e19, e20]

end Cert.Proof.Claims

end
-- ==== Proof.lean ====
/- The certificate's claim: the programs' stated side conditions, then the five conjuncts proved in Claims. -/
import proofs.«135515_j66743791780425_1_alg».proof.Defs
import proofs.«135515_j66743791780425_1_alg».proof.Proof.Gen.Kernel
import proofs.«135515_j66743791780425_1_alg».proof.Proof.Gen.KernelIdeal
import proofs.«135515_j66743791780425_1_alg».proof.Proof.Gen.ReferenceIdeal
import proofs.«135515_j66743791780425_1_alg».proof.Proof.Gen.Pre_finite_inputs
import proofs.«135515_j66743791780425_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
